-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512x2048 : Shape := ⟨3, ![4, 512, 2048]⟩
abbrev S4x512 : Shape := ⟨2, ![4, 512]⟩
abbrev S32000x2048 : Shape := ⟨2, ![32000, 2048]⟩
abbrev S_ : Shape := ⟨0, ![]⟩

class Facts : Prop where
  bcast_S_S4x512x2048 : S_.BroadcastsInDim S4x512x2048 (![] : Fin 0 → Fin S4x512x2048.rank)
  reducesTo_S4x512x2048_S_d0_1_2 : S4x512x2048.ReducesTo [0, 1, 2] S_
  h_S_ : 0 < S_.numel
  bcast_S_S32000x2048 : S_.BroadcastsInDim S32000x2048 (![] : Fin 0 → Fin S32000x2048.rank)
  reducesTo_S32000x2048_S_d0_1 : S32000x2048.ReducesTo [0, 1] S_
  bcast_S_S4x512 : S_.BroadcastsInDim S4x512 (![] : Fin 0 → Fin S4x512.rank)
  reducesTo_S4x512_S_d0_1 : S4x512.ReducesTo [0, 1] S_

variable [Facts]

def fn_part1 {F : FTy → Type} [FloatOps F] (main_arg2 : IVec S4x512 32) (main_v13 : IVec S_ 1) (main_v16 : IVec S32000x2048 1) : IVec S_ 1 :=
  let main_c_5 : IVec S_ 1 := constantI S_ 1 1#1
  let main_v17 : IVec S_ 1 := (fun x v => Host.reduce IntOp.andi x v reducesTo_S32000x2048_S_d0_1 h_S_) main_v16 main_c_5
  let main_v18 : IVec S_ 1 := andi main_v13 main_v17
  let main_c_6 : IVec S_ 32 := constantI S_ 32 4294967196#32
  let main_v19 : IVec S4x512 32 := broadcastInDim S4x512 ![] bcast_S_S4x512 main_c_6
  let main_v20 : IVec S4x512 1 := cmpi .eq main_arg2 main_v19
  let main_c_7 : IVec S_ 32 := constantI S_ 32 0#32
  let main_v21 : IVec S4x512 32 := broadcastInDim S4x512 ![] bcast_S_S4x512 main_c_7
  let main_v22 : IVec S4x512 1 := cmpi .sge main_arg2 main_v21
  let main_c_8 : IVec S_ 32 := constantI S_ 32 32000#32
  let main_v23 : IVec S4x512 32 := broadcastInDim S4x512 ![] bcast_S_S4x512 main_c_8
  let main_v24 : IVec S4x512 1 := cmpi .slt main_arg2 main_v23
  let main_v25 : IVec S4x512 1 := andi main_v22 main_v24
  let main_v26 : IVec S4x512 1 := ori main_v20 main_v25
  let main_c_9 : IVec S_ 1 := constantI S_ 1 1#1
  let main_v27 : IVec S_ 1 := (fun x v => Host.reduce IntOp.andi x v reducesTo_S4x512_S_d0_1 h_S_) main_v26 main_c_9
  let main_v28 : IVec S_ 1 := andi main_v18 main_v27
  main_v28

def fn {F : FTy → Type} [FloatOps F] (main_arg0 : FVec F S4x512x2048 .f32) (main_arg1 : FVec F S4x512x2048 .f32) (main_arg2 : IVec S4x512 32) (main_arg3 : FVec F S32000x2048 .f32) (main_arg4 : FVec F S32000x2048 .f32) : IVec S_ 1 :=
  let main_v0 : FVec F S4x512x2048 .f32 := Host.absf main_arg0
  let main_cst : FVec F S_ .f32 := constant S_ .f32 0x7F800000#32
  let main_v1 : FVec F S4x512x2048 .f32 := broadcastInDim S4x512x2048 ![] bcast_S_S4x512x2048 main_cst
  let main_v2 : IVec S4x512x2048 1 := cmpf .olt main_v0 main_v1
  let main_c : IVec S_ 1 := constantI S_ 1 1#1
  let main_v3 : IVec S_ 1 := (fun x v => Host.reduce IntOp.andi x v reducesTo_S4x512x2048_S_d0_1_2 h_S_) main_v2 main_c
  let main_v4 : FVec F S4x512x2048 .f32 := Host.absf main_arg1
  let main_cst_0 : FVec F S_ .f32 := constant S_ .f32 0x7F800000#32
  let main_v5 : FVec F S4x512x2048 .f32 := broadcastInDim S4x512x2048 ![] bcast_S_S4x512x2048 main_cst_0
  let main_v6 : IVec S4x512x2048 1 := cmpf .olt main_v4 main_v5
  let main_c_1 : IVec S_ 1 := constantI S_ 1 1#1
  let main_v7 : IVec S_ 1 := (fun x v => Host.reduce IntOp.andi x v reducesTo_S4x512x2048_S_d0_1_2 h_S_) main_v6 main_c_1
  let main_v8 : IVec S_ 1 := andi main_v3 main_v7
  let main_v9 : FVec F S32000x2048 .f32 := Host.absf main_arg3
  let main_cst_2 : FVec F S_ .f32 := constant S_ .f32 0x7F800000#32
  let main_v10 : FVec F S32000x2048 .f32 := broadcastInDim S32000x2048 ![] bcast_S_S32000x2048 main_cst_2
  let main_v11 : IVec S32000x2048 1 := cmpf .olt main_v9 main_v10
  let main_c_3 : IVec S_ 1 := constantI S_ 1 1#1
  let main_v12 : IVec S_ 1 := (fun x v => Host.reduce IntOp.andi x v reducesTo_S32000x2048_S_d0_1 h_S_) main_v11 main_c_3
  let main_v13 : IVec S_ 1 := andi main_v8 main_v12
  let main_v14 : FVec F S32000x2048 .f32 := Host.absf main_arg4
  let main_cst_4 : FVec F S_ .f32 := constant S_ .f32 0x7F800000#32
  let main_v15 : FVec F S32000x2048 .f32 := broadcastInDim S32000x2048 ![] bcast_S_S32000x2048 main_cst_4
  let main_v16 : IVec S32000x2048 1 := cmpf .olt main_v14 main_v15
  fn_part1 (F := F) main_arg2 main_v13 main_v16
-- ==== Kernel.lean ====
abbrev S4x512x2048 : Shape := ⟨3, ![4, 512, 2048]⟩
abbrev S4x512 : Shape := ⟨2, ![4, 512]⟩
abbrev S32000x2048 : Shape := ⟨2, ![32000, 2048]⟩
abbrev S_ : Shape := ⟨0, ![]⟩
abbrev S4 : Shape := ⟨1, ![4]⟩
abbrev S2048x2048 : Shape := ⟨2, ![2048, 2048]⟩
abbrev S2048x1 : Shape := ⟨2, ![2048, 1]⟩
abbrev S2 : Shape := ⟨1, ![2]⟩
abbrev S1024x2048 : Shape := ⟨2, ![1024, 2048]⟩
abbrev S1000x2048 : Shape := ⟨2, ![1000, 2048]⟩
abbrev S1024x1 : Shape := ⟨2, ![1024, 1]⟩
abbrev S1024x1000 : Shape := ⟨2, ![1024, 1000]⟩
abbrev S1024 : Shape := ⟨1, ![1024]⟩

abbrev nBuf : Space → Nat
  | .hbm => 56
  | .vmem => 20
  | .smem => 0
  | _ => 0

abbrev bufTy : (tb : Table) → Fin (tcTables nBuf tb) → BufTy
  | .hbm, ⟨0, _⟩ => ⟨S4x512x2048, .f32⟩
  | .hbm, ⟨1, _⟩ => ⟨S4x512x2048, .f32⟩
  | .hbm, ⟨2, _⟩ => ⟨S4x512, .i32⟩
  | .hbm, ⟨3, _⟩ => ⟨S32000x2048, .f32⟩
  | .hbm, ⟨4, _⟩ => ⟨S32000x2048, .f32⟩
  | .hbm, ⟨5, _⟩ => ⟨S_, .i32⟩
  | .hbm, ⟨6, _⟩ => ⟨S4x512, .i32⟩
  | .hbm, ⟨7, _⟩ => ⟨S4x512, .i1⟩
  | .hbm, ⟨8, _⟩ => ⟨S_, .i32⟩
  | .hbm, ⟨9, _⟩ => ⟨S_, .i32⟩
  | .hbm, ⟨10, _⟩ => ⟨S4x512, .i32⟩
  | .hbm, ⟨11, _⟩ => ⟨S4x512, .i32⟩
  | .hbm, ⟨12, _⟩ => ⟨S4x512, .f32⟩
  | .hbm, ⟨13, _⟩ => ⟨S_, .f32⟩
  | .hbm, ⟨14, _⟩ => ⟨S4, .f32⟩
  | .hbm, ⟨15, _⟩ => ⟨S2048x2048, .f32⟩
  | .hbm, ⟨16, _⟩ => ⟨S2048x2048, .bf16⟩
  | .hbm, ⟨17, _⟩ => ⟨S2048x1, .i32⟩
  | .hbm, ⟨18, _⟩ => ⟨S2048x1, .f32⟩
  | .hbm, ⟨19, _⟩ => ⟨S4x512, .f32⟩
  | .hbm, ⟨20, _⟩ => ⟨S2048x2048, .f32⟩
  | .hbm, ⟨21, _⟩ => ⟨S2048x2048, .bf16⟩
  | .hbm, ⟨22, _⟩ => ⟨S2048x1, .i32⟩
  | .hbm, ⟨23, _⟩ => ⟨S2048x1, .f32⟩
  | .hbm, ⟨24, _⟩ => ⟨S4x512, .f32⟩
  | .hbm, ⟨25, _⟩ => ⟨S4x512, .f32⟩
  | .hbm, ⟨26, _⟩ => ⟨S_, .f32⟩
  | .hbm, ⟨27, _⟩ => ⟨S4, .f32⟩
  | .hbm, ⟨28, _⟩ => ⟨S4, .f32⟩
  | .hbm, ⟨29, _⟩ => ⟨S4x512, .f32⟩
  | .hbm, ⟨30, _⟩ => ⟨S_, .f32⟩
  | .hbm, ⟨31, _⟩ => ⟨S4, .f32⟩
  | .hbm, ⟨32, _⟩ => ⟨S4, .f32⟩
  | .hbm, ⟨33, _⟩ => ⟨S2, .f32⟩
  | .hbm, ⟨34, _⟩ => ⟨S2, .f32⟩
  | .hbm, ⟨35, _⟩ => ⟨S2, .f32⟩
  | .hbm, ⟨36, _⟩ => ⟨S2, .f32⟩
  | .hbm, ⟨37, _⟩ => ⟨S2, .f32⟩
  | .hbm, ⟨38, _⟩ => ⟨S2, .f32⟩
  | .hbm, ⟨39, _⟩ => ⟨S_, .f32⟩
  | .hbm, ⟨40, _⟩ => ⟨S2, .f32⟩
  | .hbm, ⟨41, _⟩ => ⟨S2, .f32⟩
  | .hbm, ⟨42, _⟩ => ⟨S2, .f32⟩
  | .hbm, ⟨43, _⟩ => ⟨S_, .f32⟩
  | .hbm, ⟨44, _⟩ => ⟨S2, .f32⟩
  | .hbm, ⟨45, _⟩ => ⟨S2, .f32⟩
  | .hbm, ⟨46, _⟩ => ⟨S2, .f32⟩
  | .hbm, ⟨47, _⟩ => ⟨S2, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .local _ .vmem, ⟨0, _⟩ => ⟨S1024x2048, .bf16⟩
  | .local _ .vmem, ⟨1, _⟩ => ⟨S1000x2048, .f32⟩
  | .local _ .vmem, ⟨2, _⟩ => ⟨S1000x2048, .f32⟩
  | .local _ .vmem, ⟨3, _⟩ => ⟨S1024x1, .i32⟩
  | .local _ .vmem, ⟨4, _⟩ => ⟨S1024x1, .i32⟩
  | .local _ .vmem, ⟨5, _⟩ => ⟨S1024x1, .f32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S1024x2048, .bf16⟩
  | .local _ .vmem, ⟨11, _⟩ => ⟨S1000x2048, .f32⟩
  | .local _ .vmem, ⟨12, _⟩ => ⟨S1000x2048, .f32⟩
  | .local _ .vmem, ⟨13, _⟩ => ⟨S1024x1, .i32⟩
  | .local _ .vmem, ⟨14, _⟩ => ⟨S1024x1, .i32⟩
  | .local _ .vmem, ⟨15, _⟩ => ⟨S1024x1, .f32⟩
  | .local _ .vmem, ⟨16, _⟩ => ⟨S1024x1, .f32⟩
  | .local _ .vmem, ⟨17, _⟩ => ⟨S1024x1, .f32⟩
  | .local _ .vmem, ⟨18, _⟩ => ⟨S1024x1, .f32⟩
  | .local _ .vmem, ⟨19, _⟩ => ⟨S1024x1, .f32⟩
  | _, _ => ⟨S4x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_call0_v0 : Ref sig .tc := ⟨.hbm, 9, rfl⟩
abbrev main_call0_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_cst : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_v15 : Ref sig .tc := ⟨.hbm, 25, rfl⟩
abbrev main_call0_cst_1 : Ref sig .tc := ⟨.hbm, 26, rfl⟩
abbrev main_call0_v16 : Ref sig .tc := ⟨.hbm, 27, rfl⟩
abbrev main_call0_v17 : Ref sig .tc := ⟨.hbm, 28, rfl⟩
abbrev main_call0_v18 : Ref sig .tc := ⟨.hbm, 29, rfl⟩
abbrev main_call0_cst_2 : Ref sig .tc := ⟨.hbm, 30, rfl⟩
abbrev main_call0_v19 : Ref sig .tc := ⟨.hbm, 31, rfl⟩
abbrev main_call0_v20 : Ref sig .tc := ⟨.hbm, 32, rfl⟩
abbrev main_call0_v21 : Ref sig .tc := ⟨.hbm, 33, rfl⟩
abbrev main_call0_v22 : Ref sig .tc := ⟨.hbm, 34, rfl⟩
abbrev main_call0_v23 : Ref sig .tc := ⟨.hbm, 35, rfl⟩
abbrev main_call0_v24 : Ref sig .tc := ⟨.hbm, 36, rfl⟩
abbrev main_call0_v25 : Ref sig .tc := ⟨.hbm, 37, rfl⟩
abbrev main_call0_v26 : Ref sig .tc := ⟨.hbm, 38, rfl⟩
abbrev main_call0_cst_3 : Ref sig .tc := ⟨.hbm, 39, rfl⟩
abbrev main_call0_v27 : Ref sig .tc := ⟨.hbm, 40, rfl⟩
abbrev main_call0_v28 : Ref sig .tc := ⟨.hbm, 41, rfl⟩
abbrev main_call0_v29 : Ref sig .tc := ⟨.hbm, 42, rfl⟩
abbrev main_call0_cst_4 : Ref sig .tc := ⟨.hbm, 43, rfl⟩
abbrev main_call0_v30 : Ref sig .tc := ⟨.hbm, 44, rfl⟩
abbrev main_call0_v31 : Ref sig .tc := ⟨.hbm, 45, rfl⟩
abbrev main_call0_v32 : Ref sig .tc := ⟨.hbm, 46, rfl⟩
abbrev main_call0_v33 : Ref sig .tc := ⟨.hbm, 47, rfl⟩
abbrev main_call0_cst_5 : Ref sig .tc := ⟨.hbm, 48, rfl⟩
abbrev main_call0_cst_6 : Ref sig .tc := ⟨.hbm, 49, rfl⟩
abbrev main_call0_v34 : Ref sig .tc := ⟨.hbm, 50, rfl⟩
abbrev main_call0_cst_7 : Ref sig .tc := ⟨.hbm, 51, rfl⟩
abbrev main_call0_v35 : Ref sig .tc := ⟨.hbm, 52, rfl⟩
abbrev main_call0_cst_8 : Ref sig .tc := ⟨.hbm, 53, rfl⟩
abbrev main_call0_v36 : Ref sig .tc := ⟨.hbm, 54, rfl⟩
abbrev main_v0 : Ref sig .tc := ⟨.hbm, 55, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc1_scratch1 : Ref sig .tc := ⟨.vmem, 18, rfl⟩
abbrev cc1_scratch2 : Ref sig .tc := ⟨.vmem, 19, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v46 : BitVec 1 := Scalar.cmpi .eq arg1 c31_i32
  let v47 : BitVec 32 := Scalar.extui v46
  let c0_i32_24 : BitVec 32 := 0#32
  let v48 : BitVec 1 := Scalar.cmpi .ne v47 c0_i32_24
  v48

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1000x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 32], ![false, false]⟩

def k1_cond2 (i : grid1.Coords) : BitVec 1 :=
  let arg1 : BitVec 32 := BitVec.ofNat 32 (i 1).val
  let c31_i32 : BitVec 32 := 31#32
  let v46 : BitVec 1 := Scalar.cmpi .eq arg1 c31_i32
  let v47 : BitVec 32 := Scalar.extui v46
  let c0_i32_24 : BitVec 32 := 0#32
  let v48 : BitVec 1 := Scalar.cmpi .ne v47 c0_i32_24
  v48

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 1 → Memref sig .tc .vmem S1024x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S1000x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  bcast_S_S4x512 : S_.BroadcastsInDim S4x512 (![] : Fin 0 → Fin S4x512.rank)
  reducesTo_S4x512_S4_d1 : S4x512.ReducesTo [1] S4
  h_S_ : 0 < S_.numel
  shapeCasts_S4x512x2048_S2048x2048 : S4x512x2048.ShapeCasts S2048x2048
  bitsLt_bf16_f32 : FTy.bits .bf16 < FTy.bits .f32
  shapeCasts_S4x512_S2048x1 : S4x512.ShapeCasts S2048x1
  shapeCasts_S2048x1_S4x512 : S2048x1.ShapeCasts S4x512
  slices_S4_S2_0 : S4.Slices ![0] S2
  slices_S4_S2_2 : S4.Slices ![2] S2
  bcast_S_S2 : S_.BroadcastsInDim S2 (![] : Fin 0 → Fin S2.rank)
  reducesTo_S2_S_d0 : S2.ReducesTo [0] S_
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1000x2048_S1000x2048_0_0 : ∀ a, (![0, 0] : Fin 2 → Nat) a + S1000x2048.size a ≤ S1000x2048.size a
  h_S1000x2048 : 0 < S1000x2048.numel
  iota_S1024x1000_d1_w32 : S1024x1000.Iotas .tc 32 [1]
  broadcasts_S1024x1_S1024x1000 : S1024x1.Broadcasts S1024x1000
  reduces_S1024x1000_S1024 : S1024x1000.Reduces [1] S1024
  shapeCasts_S1024_S1024x1 : S1024.ShapeCasts S1024x1
  dot_S1024x2048_S1000x2048_S1024x1000_1_1_0_0_n_n_wf : DotDims.WF S1024x2048 S1000x2048 S1024x1000 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S2048x2048.size a
  hwx0_0 : ∀ i : grid0.Coords, EltTy.bits .bf16 = 32 ∨ (Rect.block (s := S2048x2048) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x2048.size a ≤ S32000x2048.size a
  hwx0_1 : ∀ i : grid0.Coords, EltTy.bits .f32 = 32 ∨ (Rect.block (s := S32000x2048) S1000x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S2048x1.size a
  hwx0_2 : ∀ i : grid0.Coords, EltTy.bits .i32 = 32 ∨ (Rect.block (s := S2048x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S2048x1.size a
  hwx0_3 : ∀ i : grid0.Coords, EltTy.bits .f32 = 32 ∨ (Rect.block (s := S2048x1) S1024x1.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S2048x2048.size a
  hwx1_0 : ∀ i : grid1.Coords, EltTy.bits .bf16 = 32 ∨ (Rect.block (s := S2048x2048) S1024x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x2048.size a ≤ S32000x2048.size a
  hwx1_1 : ∀ i : grid1.Coords, EltTy.bits .f32 = 32 ∨ (Rect.block (s := S32000x2048) S1000x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S2048x1.size a
  hwx1_2 : ∀ i : grid1.Coords, EltTy.bits .i32 = 32 ∨ (Rect.block (s := S2048x1) S1024x1.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1.size a ≤ S2048x1.size a
  hwx1_3 : ∀ i : grid1.Coords, EltTy.bits .f32 = 32 ∨ (Rect.block (s := S2048x1) S1024x1.size (cc1_transform_3 i) (hinb1_3 i)).WholeWords (EltTy.packing .f32)

variable [Facts₀]

def dot_S1024x2048_S1000x2048_S1024x1000_1_1_0_0_n_n : DotDims S1024x2048 S1000x2048 S1024x1000 where
  lhsContracting := [1]
  rhsContracting := [1]
  lhsNonContracting := [0]
  rhsNonContracting := [0]
  lhsBatch := []
  rhsBatch := []
  wf := dot_S1024x2048_S1000x2048_S1024x1000_1_1_0_0_n_n_wf

abbrev win0_0 : Pipeline.Window sig grid0 :=
  Pipeline.Window.ofSpec (Memref.whole main_call0_v6) S1024x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1000x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v7) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v8) S1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_call0_v11) S1024x2048.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S1000x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v12) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_call0_v13) S1024x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x512x2048 : Shape := ⟨3, ![4, 512, 2048]⟩
abbrev S4x512 : Shape := ⟨2, ![4, 512]⟩
abbrev S32000x2048 : Shape := ⟨2, ![32000, 2048]⟩
abbrev S4x512x32000 : Shape := ⟨3, ![4, 512, 32000]⟩
abbrev S_ : Shape := ⟨0, ![]⟩
abbrev S4x512x1 : Shape := ⟨3, ![4, 512, 1]⟩
abbrev S4x512x1x1 : Shape := ⟨4, ![4, 512, 1, 1]⟩
abbrev S1 : Shape := ⟨1, ![1]⟩
abbrev S1x1x1x1 : Shape := ⟨4, ![1, 1, 1, 1]⟩
abbrev S4 : Shape := ⟨1, ![4]⟩
abbrev S2 : Shape := ⟨1, ![2]⟩

abbrev nBuf : Space → Nat
  | .hbm => 142
  | .vmem => 0
  | .smem => 0
  | _ => 0

abbrev hbmTy0_0 (i : Nat) : BufTy := match i % 128 with
  | 0 => ⟨S4x512x2048, .f32⟩
  | 1 => ⟨S4x512x2048, .f32⟩
  | 2 => ⟨S4x512, .i32⟩
  | 3 => ⟨S32000x2048, .f32⟩
  | 4 => ⟨S32000x2048, .f32⟩
  | 5 => ⟨S4x512x32000, .f32⟩
  | 6 => ⟨S_, .i32⟩
  | 7 => ⟨S4x512, .i32⟩
  | 8 => ⟨S4x512, .i1⟩
  | 9 => ⟨S_, .i32⟩
  | 10 => ⟨S_, .i32⟩
  | 11 => ⟨S4x512, .i32⟩
  | 12 => ⟨S4x512, .i32⟩
  | 13 => ⟨S_, .f32⟩
  | 14 => ⟨S4x512, .f32⟩
  | 15 => ⟨S_, .f32⟩
  | 16 => ⟨S4x512, .f32⟩
  | 17 => ⟨S4x512, .f32⟩
  | 18 => ⟨S4x512x1, .f32⟩
  | 19 => ⟨S4x512x32000, .f32⟩
  | 20 => ⟨S4x512x32000, .f32⟩
  | 21 => ⟨S4x512x32000, .f32⟩
  | 22 => ⟨S_, .f32⟩
  | 23 => ⟨S4x512, .f32⟩
  | 24 => ⟨S4x512x1, .f32⟩
  | 25 => ⟨S4x512x1, .f32⟩
  | 26 => ⟨S4x512x32000, .f32⟩
  | 27 => ⟨S4x512x32000, .f32⟩
  | 28 => ⟨S4x512x1, .i32⟩
  | 29 => ⟨S_, .i32⟩
  | 30 => ⟨S4x512x1, .i32⟩
  | 31 => ⟨S4x512x1, .i1⟩
  | 32 => ⟨S_, .i32⟩
  | 33 => ⟨S4x512x1, .i32⟩
  | 34 => ⟨S4x512x1, .i32⟩
  | 35 => ⟨S4x512x1, .i32⟩
  | 36 => ⟨S4x512x1x1, .i32⟩
  | 37 => ⟨S1, .i32⟩
  | 38 => ⟨S_, .i32⟩
  | 39 => ⟨S4x512x1x1, .i32⟩
  | 40 => ⟨S4x512x1x1, .i1⟩
  | 41 => ⟨S1x1x1x1, .i32⟩
  | 42 => ⟨S4x512x1x1, .i32⟩
  | 43 => ⟨S4x512x1x1, .i1⟩
  | 44 => ⟨S4x512x1x1, .i1⟩
  | 45 => ⟨S_, .i1⟩
  | 46 => ⟨S4x512x1, .i1⟩
  | 47 => ⟨S4x512x1, .f32⟩
  | 48 => ⟨S_, .f32⟩
  | 49 => ⟨S4x512x1, .f32⟩
  | 50 => ⟨S4x512x1, .f32⟩
  | 51 => ⟨S4x512, .f32⟩
  | 52 => ⟨S4x512, .f32⟩
  | 53 => ⟨S4x512, .f32⟩
  | 54 => ⟨S_, .f32⟩
  | 55 => ⟨S4, .f32⟩
  | 56 => ⟨S_, .f32⟩
  | 57 => ⟨S4, .f32⟩
  | 58 => ⟨S4, .f32⟩
  | 59 => ⟨S2, .f32⟩
  | 60 => ⟨S2, .f32⟩
  | 61 => ⟨S4x512x32000, .f32⟩
  | 62 => ⟨S_, .i32⟩
  | 63 => ⟨S4x512, .i32⟩
  | 64 => ⟨S4x512, .i1⟩
  | 65 => ⟨S_, .i32⟩
  | 66 => ⟨S_, .i32⟩
  | 67 => ⟨S4x512, .i32⟩
  | 68 => ⟨S4x512, .i32⟩
  | 69 => ⟨S_, .f32⟩
  | 70 => ⟨S4x512, .f32⟩
  | 71 => ⟨S_, .f32⟩
  | 72 => ⟨S4x512, .f32⟩
  | 73 => ⟨S4x512, .f32⟩
  | 74 => ⟨S4x512x1, .f32⟩
  | 75 => ⟨S4x512x32000, .f32⟩
  | 76 => ⟨S4x512x32000, .f32⟩
  | 77 => ⟨S4x512x32000, .f32⟩
  | 78 => ⟨S_, .f32⟩
  | 79 => ⟨S4x512, .f32⟩
  | 80 => ⟨S4x512x1, .f32⟩
  | 81 => ⟨S4x512x1, .f32⟩
  | 82 => ⟨S4x512x32000, .f32⟩
  | 83 => ⟨S4x512x32000, .f32⟩
  | 84 => ⟨S4x512x1, .i32⟩
  | 85 => ⟨S_, .i32⟩
  | 86 => ⟨S4x512x1, .i32⟩
  | 87 => ⟨S4x512x1, .i1⟩
  | 88 => ⟨S_, .i32⟩
  | 89 => ⟨S4x512x1, .i32⟩
  | 90 => ⟨S4x512x1, .i32⟩
  | 91 => ⟨S4x512x1, .i32⟩
  | 92 => ⟨S4x512x1x1, .i32⟩
  | 93 => ⟨S1, .i32⟩
  | 94 => ⟨S_, .i32⟩
  | 95 => ⟨S4x512x1x1, .i32⟩
  | 96 => ⟨S4x512x1x1, .i1⟩
  | 97 => ⟨S1x1x1x1, .i32⟩
  | 98 => ⟨S4x512x1x1, .i32⟩
  | 99 => ⟨S4x512x1x1, .i1⟩
  | 100 => ⟨S4x512x1x1, .i1⟩
  | 101 => ⟨S_, .i1⟩
  | 102 => ⟨S4x512x1, .i1⟩
  | 103 => ⟨S4x512x1, .f32⟩
  | 104 => ⟨S_, .f32⟩
  | 105 => ⟨S4x512x1, .f32⟩
  | 106 => ⟨S4x512x1, .f32⟩
  | 107 => ⟨S4x512, .f32⟩
  | 108 => ⟨S4x512, .f32⟩
  | 109 => ⟨S4x512, .f32⟩
  | 110 => ⟨S_, .f32⟩
  | 111 => ⟨S4, .f32⟩
  | 112 => ⟨S_, .f32⟩
  | 113 => ⟨S4, .f32⟩
  | 114 => ⟨S4, .f32⟩
  | 115 => ⟨S2, .f32⟩
  | 116 => ⟨S2, .f32⟩
  | 117 => ⟨S2, .f32⟩
  | 118 => ⟨S2, .f32⟩
  | 119 => ⟨S_, .f32⟩
  | 120 => ⟨S2, .f32⟩
  | 121 => ⟨S2, .f32⟩
  | 122 => ⟨S_, .f32⟩
  | 123 => ⟨S2, .f32⟩
  | 124 => ⟨S2, .f32⟩
  | 125 => ⟨S_, .f32⟩
  | 126 => ⟨S2, .f32⟩
  | 127 => ⟨S2, .f32⟩
  | _ => ⟨S4x512x2048, .f32⟩

abbrev hbmTy0_1 (i : Nat) : BufTy := match i % 128 with
  | 0 => ⟨S2, .f32⟩
  | 1 => ⟨S_, .f32⟩
  | 2 => ⟨S2, .f32⟩
  | 3 => ⟨S2, .f32⟩
  | 4 => ⟨S2, .f32⟩
  | 5 => ⟨S2, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | _ => ⟨S4x512x2048, .f32⟩

abbrev hbmTy (i : Nat) : BufTy := match i / 128 with
  | 0 => hbmTy0_0 i
  | 1 => hbmTy0_1 i
  | _ => ⟨S4x512x2048, .f32⟩

abbrev bufTy : (tb : Table) → Fin (tcTables nBuf tb) → BufTy
  | .hbm, ⟨i, _⟩ => hbmTy i
  | _, _ => ⟨S4x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_v3 : Ref sig .tc := ⟨.hbm, 12, rfl⟩
abbrev main_call1_cst : Ref sig .tc := ⟨.hbm, 13, rfl⟩
abbrev main_call1_v0 : Ref sig .tc := ⟨.hbm, 14, rfl⟩
abbrev main_call1_cst_0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_call1_v5 : Ref sig .tc := ⟨.hbm, 20, rfl⟩
abbrev main_call1_v6 : Ref sig .tc := ⟨.hbm, 21, rfl⟩
abbrev main_call1_cst_1 : Ref sig .tc := ⟨.hbm, 22, rfl⟩
abbrev main_call1_v7 : Ref sig .tc := ⟨.hbm, 23, rfl⟩
abbrev main_call1_v8 : Ref sig .tc := ⟨.hbm, 24, rfl⟩
abbrev main_call1_v9 : Ref sig .tc := ⟨.hbm, 25, rfl⟩
abbrev main_call1_v10 : Ref sig .tc := ⟨.hbm, 26, rfl⟩
abbrev main_v4 : Ref sig .tc := ⟨.hbm, 27, rfl⟩
abbrev main_v5 : Ref sig .tc := ⟨.hbm, 28, rfl⟩
abbrev main_call2_c : Ref sig .tc := ⟨.hbm, 29, rfl⟩
abbrev main_call2_v0 : Ref sig .tc := ⟨.hbm, 30, rfl⟩
abbrev main_call2_v1 : Ref sig .tc := ⟨.hbm, 31, rfl⟩
abbrev main_call2_c_0 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_call2_v5 : Ref sig .tc := ⟨.hbm, 36, rfl⟩
abbrev main_call2_c_1 : Ref sig .tc := ⟨.hbm, 37, rfl⟩
abbrev main_call2_c_2 : Ref sig .tc := ⟨.hbm, 38, rfl⟩
abbrev main_call2_v6 : Ref sig .tc := ⟨.hbm, 39, rfl⟩
abbrev main_call2_v7 : Ref sig .tc := ⟨.hbm, 40, rfl⟩
abbrev main_call2_v8 : Ref sig .tc := ⟨.hbm, 41, rfl⟩
abbrev main_call2_v9 : Ref sig .tc := ⟨.hbm, 42, rfl⟩
abbrev main_call2_v10 : Ref sig .tc := ⟨.hbm, 43, rfl⟩
abbrev main_call2_v11 : Ref sig .tc := ⟨.hbm, 44, rfl⟩
abbrev main_call2_c_3 : Ref sig .tc := ⟨.hbm, 45, rfl⟩
abbrev main_call2_v12 : Ref sig .tc := ⟨.hbm, 46, rfl⟩
abbrev main_call2_v13 : Ref sig .tc := ⟨.hbm, 47, rfl⟩
abbrev main_call2_cst : Ref sig .tc := ⟨.hbm, 48, rfl⟩
abbrev main_call2_v14 : Ref sig .tc := ⟨.hbm, 49, rfl⟩
abbrev main_v6 : Ref sig .tc := ⟨.hbm, 50, rfl⟩
abbrev main_v7 : Ref sig .tc := ⟨.hbm, 51, rfl⟩
abbrev main_v8 : Ref sig .tc := ⟨.hbm, 52, rfl⟩
abbrev main_v9 : Ref sig .tc := ⟨.hbm, 53, rfl⟩
abbrev main_cst : Ref sig .tc := ⟨.hbm, 54, rfl⟩
abbrev main_v10 : Ref sig .tc := ⟨.hbm, 55, rfl⟩
abbrev main_cst_1 : Ref sig .tc := ⟨.hbm, 56, rfl⟩
abbrev main_v11 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_c_2 : Ref sig .tc := ⟨.hbm, 62, rfl⟩
abbrev main_v16 : Ref sig .tc := ⟨.hbm, 63, rfl⟩
abbrev main_v17 : Ref sig .tc := ⟨.hbm, 64, rfl⟩
abbrev main_c_3 : Ref sig .tc := ⟨.hbm, 65, rfl⟩
abbrev main_call3_v0 : Ref sig .tc := ⟨.hbm, 66, rfl⟩
abbrev main_call3_v1 : Ref sig .tc := ⟨.hbm, 67, rfl⟩
abbrev main_v18 : Ref sig .tc := ⟨.hbm, 68, rfl⟩
abbrev main_call4_cst : Ref sig .tc := ⟨.hbm, 69, rfl⟩
abbrev main_call4_v0 : Ref sig .tc := ⟨.hbm, 70, rfl⟩
abbrev main_call4_cst_0 : Ref sig .tc := ⟨.hbm, 71, rfl⟩
abbrev main_call4_v1 : Ref sig .tc := ⟨.hbm, 72, rfl⟩
abbrev main_call4_v2 : Ref sig .tc := ⟨.hbm, 73, rfl⟩
abbrev main_call4_v3 : Ref sig .tc := ⟨.hbm, 74, rfl⟩
abbrev main_call4_v4 : Ref sig .tc := ⟨.hbm, 75, rfl⟩
abbrev main_call4_v5 : Ref sig .tc := ⟨.hbm, 76, rfl⟩
abbrev main_call4_v6 : Ref sig .tc := ⟨.hbm, 77, rfl⟩
abbrev main_call4_cst_1 : Ref sig .tc := ⟨.hbm, 78, rfl⟩
abbrev main_call4_v7 : Ref sig .tc := ⟨.hbm, 79, rfl⟩
abbrev main_call4_v8 : Ref sig .tc := ⟨.hbm, 80, rfl⟩
abbrev main_call4_v9 : Ref sig .tc := ⟨.hbm, 81, rfl⟩
abbrev main_call4_v10 : Ref sig .tc := ⟨.hbm, 82, rfl⟩
abbrev main_v19 : Ref sig .tc := ⟨.hbm, 83, rfl⟩
abbrev main_v20 : Ref sig .tc := ⟨.hbm, 84, rfl⟩
abbrev main_call5_c : Ref sig .tc := ⟨.hbm, 85, rfl⟩
abbrev main_call5_v0 : Ref sig .tc := ⟨.hbm, 86, rfl⟩
abbrev main_call5_v1 : Ref sig .tc := ⟨.hbm, 87, rfl⟩
abbrev main_call5_c_0 : Ref sig .tc := ⟨.hbm, 88, rfl⟩
abbrev main_call5_v2 : Ref sig .tc := ⟨.hbm, 89, rfl⟩
abbrev main_call5_v3 : Ref sig .tc := ⟨.hbm, 90, rfl⟩
abbrev main_call5_v4 : Ref sig .tc := ⟨.hbm, 91, rfl⟩
abbrev main_call5_v5 : Ref sig .tc := ⟨.hbm, 92, rfl⟩
abbrev main_call5_c_1 : Ref sig .tc := ⟨.hbm, 93, rfl⟩
abbrev main_call5_c_2 : Ref sig .tc := ⟨.hbm, 94, rfl⟩
abbrev main_call5_v6 : Ref sig .tc := ⟨.hbm, 95, rfl⟩
abbrev main_call5_v7 : Ref sig .tc := ⟨.hbm, 96, rfl⟩
abbrev main_call5_v8 : Ref sig .tc := ⟨.hbm, 97, rfl⟩
abbrev main_call5_v9 : Ref sig .tc := ⟨.hbm, 98, rfl⟩
abbrev main_call5_v10 : Ref sig .tc := ⟨.hbm, 99, rfl⟩
abbrev main_call5_v11 : Ref sig .tc := ⟨.hbm, 100, rfl⟩
abbrev main_call5_c_3 : Ref sig .tc := ⟨.hbm, 101, rfl⟩
abbrev main_call5_v12 : Ref sig .tc := ⟨.hbm, 102, rfl⟩
abbrev main_call5_v13 : Ref sig .tc := ⟨.hbm, 103, rfl⟩
abbrev main_call5_cst : Ref sig .tc := ⟨.hbm, 104, rfl⟩
abbrev main_call5_v14 : Ref sig .tc := ⟨.hbm, 105, rfl⟩
abbrev main_v21 : Ref sig .tc := ⟨.hbm, 106, rfl⟩
abbrev main_v22 : Ref sig .tc := ⟨.hbm, 107, rfl⟩
abbrev main_v23 : Ref sig .tc := ⟨.hbm, 108, rfl⟩
abbrev main_v24 : Ref sig .tc := ⟨.hbm, 109, rfl⟩
abbrev main_cst_4 : Ref sig .tc := ⟨.hbm, 110, rfl⟩
abbrev main_v25 : Ref sig .tc := ⟨.hbm, 111, rfl⟩
abbrev main_cst_5 : Ref sig .tc := ⟨.hbm, 112, rfl⟩
abbrev main_v26 : Ref sig .tc := ⟨.hbm, 113, rfl⟩
abbrev main_v27 : Ref sig .tc := ⟨.hbm, 114, rfl⟩
abbrev main_v28 : Ref sig .tc := ⟨.hbm, 115, rfl⟩
abbrev main_v29 : Ref sig .tc := ⟨.hbm, 116, rfl⟩
abbrev main_v30 : Ref sig .tc := ⟨.hbm, 117, rfl⟩
abbrev main_v31 : Ref sig .tc := ⟨.hbm, 118, rfl⟩
abbrev main_cst_6 : Ref sig .tc := ⟨.hbm, 119, rfl⟩
abbrev main_v32 : Ref sig .tc := ⟨.hbm, 120, rfl⟩
abbrev main_v33 : Ref sig .tc := ⟨.hbm, 121, rfl⟩
abbrev main_cst_7 : Ref sig .tc := ⟨.hbm, 122, rfl⟩
abbrev main_v34 : Ref sig .tc := ⟨.hbm, 123, rfl⟩
abbrev main_v35 : Ref sig .tc := ⟨.hbm, 124, rfl⟩
abbrev main_cst_8 : Ref sig .tc := ⟨.hbm, 125, rfl⟩
abbrev main_v36 : Ref sig .tc := ⟨.hbm, 126, rfl⟩
abbrev main_v37 : Ref sig .tc := ⟨.hbm, 127, rfl⟩
abbrev main_v38 : Ref sig .tc := ⟨.hbm, 128, rfl⟩
abbrev main_cst_9 : Ref sig .tc := ⟨.hbm, 129, rfl⟩
abbrev main_v39 : Ref sig .tc := ⟨.hbm, 130, rfl⟩
abbrev main_v40 : Ref sig .tc := ⟨.hbm, 131, rfl⟩
abbrev main_v41 : Ref sig .tc := ⟨.hbm, 132, rfl⟩
abbrev main_v42 : Ref sig .tc := ⟨.hbm, 133, rfl⟩
abbrev main_cst_10 : Ref sig .tc := ⟨.hbm, 134, rfl⟩
abbrev main_cst_11 : Ref sig .tc := ⟨.hbm, 135, rfl⟩
abbrev main_v43 : Ref sig .tc := ⟨.hbm, 136, rfl⟩
abbrev main_cst_12 : Ref sig .tc := ⟨.hbm, 137, rfl⟩
abbrev main_v44 : Ref sig .tc := ⟨.hbm, 138, rfl⟩
abbrev main_cst_13 : Ref sig .tc := ⟨.hbm, 139, rfl⟩
abbrev main_v45 : Ref sig .tc := ⟨.hbm, 140, rfl⟩
abbrev main_v46 : Ref sig .tc := ⟨.hbm, 141, rfl⟩

abbrev nD : Nat := 1
abbrev τ : Topo := Topo.v7x

variable {F : FTy → Type} [FloatOps F]

class Facts₀ : Prop where
  bcast_S_S4x512 : S_.BroadcastsInDim S4x512 (![] : Fin 0 → Fin S4x512.rank)
  reducesTo_S4x512x32000_S4x512_d2 : S4x512x32000.ReducesTo [2] S4x512
  h_S_ : 0 < S_.numel
  bcast_S4x512_S4x512x1_0_1 : S4x512.BroadcastsInDim S4x512x1 (![0, 1] : Fin 2 → Fin S4x512x1.rank)
  bcast_S4x512x1_S4x512x32000_0_1_2 : S4x512x1.BroadcastsInDim S4x512x32000 (![0, 1, 2] : Fin 3 → Fin S4x512x32000.rank)
  bcast_S_S4x512x1 : S_.BroadcastsInDim S4x512x1 (![] : Fin 0 → Fin S4x512x1.rank)
  shapeCasts_S4x512x1_S4x512x1x1 : S4x512x1.ShapeCasts S4x512x1x1
  bcast_S_S4x512x1x1 : S_.BroadcastsInDim S4x512x1x1 (![] : Fin 0 → Fin S4x512x1x1.rank)
  bcast_S1_S1x1x1x1_3 : S1.BroadcastsInDim S1x1x1x1 (![3] : Fin 1 → Fin S1x1x1x1.rank)
  bcast_S1x1x1x1_S4x512x1x1_0_1_2_3 : S1x1x1x1.BroadcastsInDim S4x512x1x1 (![0, 1, 2, 3] : Fin 4 → Fin S4x512x1x1.rank)
  reducesTo_S4x512x1x1_S4x512x1_d3 : S4x512x1x1.ReducesTo [3] S4x512x1
  shapeCasts_S4x512x1_S4x512 : S4x512x1.ShapeCasts S4x512
  reducesTo_S4x512_S4_d1 : S4x512.ReducesTo [1] S4
  slices_S4_S2_0 : S4.Slices ![0] S2
  slices_S4_S2_2 : S4.Slices ![2] S2
  bcast_S_S2 : S_.BroadcastsInDim S2 (![] : Fin 0 → Fin S2.rank)
  reducesTo_S2_S_d0 : S2.ReducesTo [0] S_
  dot_S4x512x2048_S32000x2048_S4x512x32000_2_1_01_0_n_n_wf : DotDims.WF S4x512x2048 S32000x2048 S4x512x32000 [2] [1] [0, 1] [0] [] []
  gather_S4x512x32000_S4x512x1x1_S4x512x1_n_2_01_01_2_3_111_wf : GatherDims.WF S4x512x32000 S4x512x1x1 S4x512x1 [] [2] [0, 1] [2] [0, 1] 3 ![1, 1, 1]

variable [Facts₀]

def dot_S4x512x2048_S32000x2048_S4x512x32000_2_1_01_0_n_n : DotDims S4x512x2048 S32000x2048 S4x512x32000 where
  lhsContracting := [2]
  rhsContracting := [1]
  lhsNonContracting := [0, 1]
  rhsNonContracting := [0]
  lhsBatch := []
  rhsBatch := []
  wf := dot_S4x512x2048_S32000x2048_S4x512x32000_2_1_01_0_n_n_wf
def gather_S4x512x32000_S4x512x1x1_S4x512x1_n_2_01_01_2_3_111 : GatherDims S4x512x32000 S4x512x1x1 S4x512x1 where
  offsetDims := []
  collapsedSliceDims := [2]
  operandBatchingDims := [0, 1]
  startIndicesBatchingDims := [0, 1]
  startIndexMap := [2]
  indexVectorDim := 3
  sliceSizes := ![1, 1, 1]
  wf := gather_S4x512x32000_S4x512x1x1_S4x512x1_n_2_01_01_2_3_111_wf

class Facts : Prop extends Facts₀ where

variable [Facts]
-- ==== Proof.Kernel.Tile.Run.lean ====
import proofs.«405262_j58909771432351_3_alg».proof.Proof.Gen.Kernel.Launch
import proofs.«405262_j58909771432351_3_alg».proof.Proof.Gen.Kernel.Skeleton
import proofs.«405262_j58909771432351_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The body branches twice on the vocabulary tile alone: tile 0 resets the running columns, the last tile writes the result.
abbrev isFirst (i : grid0.Coords) : Prop := (Scalar.cmpi .ne (Scalar.extui (Scalar.cmpi .eq (BitVec.ofNat 32 (i 1).val) 0#32)) 0#32) = 1#1
abbrev isLast (i : grid0.Coords) : Prop := k0_cond2 i = 1#1

variable (c : Dev nD) (i : grid0.Coords) (arg2 : Memref sig .tc .vmem S1024x2048 .bf16) (harg2 : arg2.IsWhole) (arg3 : Memref sig .tc .vmem S1000x2048 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole)

-- Both calls run this one body: the second call's kernel unfolds to the first's.
noncomputable def body : Prog (TpuEff nD τ sig (Elt F) Λ₀ .tc) PUnit := cc0__lmhead_logp_kernel i arg2 harg2 arg3 harg3 arg4 harg4 arg5 harg5 arg6 harg6 arg7 harg7 arg8 harg8

theorem cc0_body : cc0__lmhead_logp_kernel i arg2 harg2 arg3 harg3 arg4 harg4 arg5 harg5 arg6 harg6 arg7 harg7 arg8 harg8 = body (F := F) i arg2 harg2 arg3 harg3 arg4 harg4 arg5 harg5 arg6 harg6 arg7 harg7 arg8 harg8 := rfl

theorem cc1_body : cc1__lmhead_logp_kernel i arg2 harg2 arg3 harg3 arg4 harg4 arg5 harg5 arg6 harg6 arg7 harg7 arg8 harg8 = body (F := F) i arg2 harg2 arg3 harg3 arg4 harg4 arg5 harg5 arg6 harg6 arg7 harg7 arg8 harg8 := rfl

-- At tile 0 the running columns are overwritten before they are read, so on entry they may hold anything.
set_option maxHeartbeats 4000000 in
noncomputable def runReset (hc0 : isFirst i) (hc1 : ¬isLast i)
    (x0 : Vec F S1024x2048 .bf16) (x1 : Vec F S1000x2048 .f32) (x2 : Vec F S1024x1 .i32) :
    Σ' (LM : List (View.Piece (Elt F) S1024x1 .f32)) (LS : List (View.Piece (Elt F) S1024x1 .f32)), { LT : List (View.Piece (Elt F) S1024x1 .f32) //
      ∀ (xo : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xo ∗ (∃ f, arg6.view.loc (c : Thread nD τ) ↦[arg6.view.set]{fullShare} arg6.view.writes (Elt F) f LM) ∗ (∃ f, arg7.view.loc (c : Thread nD τ) ↦[arg7.view.set]{fullShare} arg7.view.writes (Elt F) f LS) ∗ (∃ f, arg8.view.loc (c : Thread nD τ) ↦[arg8.view.set]{fullShare} arg8.view.writes (Elt F) f LT)) -∗ K ⟨⟩))
          ⊢ wp frame (wpE (defs₀ (F := F)) Variants.none c none) E (body i arg2 harg2 arg3 harg3 arg4 harg4 arg5 harg5 arg6 harg6 arg7 harg7 arg8 harg8) K } := by
  refine ⟨?_, ?_, ?_, fun xo E K => ?run⟩
  case run =>
    unfold body; simp only [cc0__lmhead_logp_kernel_eq_skeleton]; unfold cc0__lmhead_logp_kernel_skel
    simp only [k0_part1_eq_skeleton]
    unfold owns
    iintro ⟨⟨%f0, %hf0, H0⟩, ⟨%f1, %hf1, H1⟩, ⟨%f2, %hf2, H2⟩, ⟨%f3, %hf3, H3⟩, ⟨%dm, %fm, -, HM⟩, ⟨%dl, %fl, -, HL⟩, ⟨%dt, %ft, -, HT⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HM]; · iexists _; iexact HM
    isplitl [HL]; · iexists _; iexact HL
    iexists _; iexact HT

set_option maxHeartbeats 4000000 in
noncomputable def runStep (hc0 : ¬isFirst i) (hc1 : ¬isLast i)
    (x0 : Vec F S1024x2048 .bf16) (x1 : Vec F S1000x2048 .f32) (x2 : Vec F S1024x1 .i32) (xm xl xt : Vec F S1024x1 .f32) :
    Σ' (LM : List (View.Piece (Elt F) S1024x1 .f32)) (LS : List (View.Piece (Elt F) S1024x1 .f32)), { LT : List (View.Piece (Elt F) S1024x1 .f32) //
      ∀ (xo : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare xm ∗ owns (c : Thread nD τ) arg7 fullShare xl ∗ owns (c : Thread nD τ) arg8 fullShare xt
            ∗ (iprop(owns (c : Thread nD τ) arg2 fullShare x0 ∗ owns (c : Thread nD τ) arg3 fullShare x1 ∗ owns (c : Thread nD τ) arg4 fullShare x2 ∗ owns (c : Thread nD τ) arg5 fullShare xo ∗ (∃ f, arg6.view.loc (c : Thread nD τ) ↦[arg6.view.set]{fullShare} arg6.view.writes (Elt F) f LM) ∗ (∃ f, arg7.view.loc (c : Thread nD τ) ↦[arg7.view.set]{fullShare} arg7.view.writes (Elt F) f LS) ∗ (∃ f, arg8.view.loc (c : Thread nD τ) ↦[arg8.view.set]{fullShare} arg8.view.writes (Elt F) f LT)) -∗ K ⟨⟩))
          ⊢ wp frame (wpE (defs₀ (F := F)) Variants.none c none) E (body i arg2 harg2 arg3 harg3 arg4 harg4 arg5 harg5 arg6 harg6 arg7 harg7 arg8 harg8) K } := by
  refine ⟨?_, ?_, ?_, fun xo E K => ?run⟩
  case run =>
    unfold body; simp only [cc0__lmhead_logp_kernel_eq_skeleton]; unfold cc0__lmhead_logp_kernel_skel
    simp only [k0_part1_eq_skeleton]
    unfold owns
    iintro ⟨⟨%f0, %hf0, H0⟩, ⟨%f1, %hf1, H1⟩, ⟨%f2, %hf2, H2⟩, ⟨%f3, %hf3, H3⟩, ⟨%fm, %hfm, HM⟩, ⟨%fl, %hfl, HL⟩, ⟨%ft, %hft, HT⟩, Hk⟩
    obtain rfl := harg2.eq_unread hf0; obtain rfl := harg3.eq_unread hf1; obtain rfl := harg4.eq_unread hf2; obtain rfl := harg5.eq_unread hf3
    obtain rfl := harg6.eq_unread hfm; obtain rfl := harg7.eq_unread hfl; obtain rfl := harg8.eq_unread hft
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HM]; · iexists _; iexact HM
    isplitl [HL]; · iexists _; iexact HL
    iexists _; iexact HT

set_option maxHeartbeats 4000000 in
noncomputable def runFinish (hc0 : ¬isFirst i) (hc1 : isLast i)
    (x0 : Vec F S1024x2048 .bf16) (x1 : Vec F S1000x2048 .f32) (x2 : Vec F S1024x1 .i32) (xm xl xt : Vec F S1024x1 .f32) :
    Σ' (LO : List (View.Piece (Elt F) S1024x1 .f32)) (LM : List (View.Piece (Elt F) S1024x1 .f32)) (LS : List (View.Piece (Elt F) S1024x1 .f32)), { LT : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xm ∗ owns (c : Thread nD τ) arg7 fullShare xl ∗ owns (c : Thread nD τ) arg8 fullShare xt
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LM) ∗ (∃ f, arg7.view.loc (c : Thread nD τ) ↦[arg7.view.set]{fullShare} arg7.view.writes (Elt F) f LS) ∗ (∃ f, arg8.view.loc (c : Thread nD τ) ↦[arg8.view.set]{fullShare} arg8.view.writes (Elt F) f LT)) -∗ K ⟨⟩))
          ⊢ wp frame (wpE (defs₀ (F := F)) Variants.none c none) E (body i arg2 harg2 arg3 harg3 arg4 harg4 arg5 harg5 arg6 harg6 arg7 harg7 arg8 harg8) K } := by
  refine ⟨?_, ?_, ?_, ?_, fun E K => ?run⟩
  case run =>
    unfold body; simp only [cc0__lmhead_logp_kernel_eq_skeleton]; unfold cc0__lmhead_logp_kernel_skel
    simp only [k0_part1_eq_skeleton]
    unfold owns
    iintro ⟨⟨%f0, %hf0, H0⟩, ⟨%f1, %hf1, H1⟩, ⟨%f2, %hf2, H2⟩, ⟨%d3, %f3, -, H3⟩, ⟨%fm, %hfm, HM⟩, ⟨%fl, %hfl, HL⟩, ⟨%ft, %hft, HT⟩, Hk⟩
    obtain rfl := harg2.eq_unread hf0; obtain rfl := harg3.eq_unread hf1; obtain rfl := harg4.eq_unread hf2
    obtain rfl := harg6.eq_unread hfm; obtain rfl := harg7.eq_unread hfl; obtain rfl := harg8.eq_unread hft
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HM]; · iexists _; iexact HM
    isplitl [HL]; · iexists _; iexact HL
    iexists _; iexact HT

-- What a whole column holds after the stores `L`, read through `W`.
def back (W : View sig .tc .vmem S1024x1 .f32) (L : List (View.Piece (Elt F) S1024x1 .f32)) : Vec F S1024x1 .f32 :=
  W.read (Elt F) (W.writes (Elt F) W.junk L)

section
variable (hc0 : isFirst i) (hc1 : ¬isLast i) (x0 : Vec F S1024x2048 .bf16) (x1 : Vec F S1000x2048 .f32) (x2 : Vec F S1024x1 .i32)

theorem cover_maxReset (y : S1024x1.Idx) :
    ∃ pc ∈ (runReset c i arg2 harg2 arg3 harg3 arg4 harg4 arg5 harg5 arg6 harg6 arg7 harg7 arg8 harg8 hc0 hc1 x0 x1 x2).1, y ∈ pc.1.set :=
  View.cover_of_tiledL _ S1024x1.size (by sl_kernel_rfl) y

theorem cover_sumReset (y : S1024x1.Idx) :
    ∃ pc ∈ (runReset c i arg2 harg2 arg3 harg3 arg4 harg4 arg5 harg5 arg6 harg6 arg7 harg7 arg8 harg8 hc0 hc1 x0 x1 x2).2.1, y ∈ pc.1.set :=
  View.cover_of_tiledL _ S1024x1.size (by sl_kernel_rfl) y

theorem cover_labReset (y : S1024x1.Idx) :
    ∃ pc ∈ (runReset c i arg2 harg2 arg3 harg3 arg4 harg4 arg5 harg5 arg6 harg6 arg7 harg7 arg8 harg8 hc0 hc1 x0 x1 x2).2.2.1, y ∈ pc.1.set :=
  View.cover_of_tiledL _ S1024x1.size (by sl_kernel_rfl) y

end

section
variable (hc0 : ¬isFirst i) (hc1 : ¬isLast i) (x0 : Vec F S1024x2048 .bf16) (x1 : Vec F S1000x2048 .f32) (x2 : Vec F S1024x1 .i32) (xm xl xt : Vec F S1024x1 .f32)

theorem cover_maxStep (y : S1024x1.Idx) :
    ∃ pc ∈ (runStep c i arg2 harg2 arg3 harg3 arg4 harg4 arg5 harg5 arg6 harg6 arg7 harg7 arg8 harg8 hc0 hc1 x0 x1 x2 xm xl xt).1, y ∈ pc.1.set :=
  View.cover_of_tiledL _ S1024x1.size (by sl_kernel_rfl) y

theorem cover_sumStep (y : S1024x1.Idx) :
    ∃ pc ∈ (runStep c i arg2 harg2 arg3 harg3 arg4 harg4 arg5 harg5 arg6 harg6 arg7 harg7 arg8 harg8 hc0 hc1 x0 x1 x2 xm xl xt).2.1, y ∈ pc.1.set :=
  View.cover_of_tiledL _ S1024x1.size (by sl_kernel_rfl) y

theorem cover_labStep (y : S1024x1.Idx) :
    ∃ pc ∈ (runStep c i arg2 harg2 arg3 harg3 arg4 harg4 arg5 harg5 arg6 harg6 arg7 harg7 arg8 harg8 hc0 hc1 x0 x1 x2 xm xl xt).2.2.1, y ∈ pc.1.set :=
  View.cover_of_tiledL _ S1024x1.size (by sl_kernel_rfl) y

end

section
variable (hc0 : ¬isFirst i) (hc1 : isLast i) (x0 : Vec F S1024x2048 .bf16) (x1 : Vec F S1000x2048 .f32) (x2 : Vec F S1024x1 .i32) (xm xl xt : Vec F S1024x1 .f32)

theorem cover_outFinish (y : S1024x1.Idx) :
    ∃ pc ∈ (runFinish c i arg2 harg2 arg3 harg3 arg4 harg4 arg5 harg5 arg6 harg6 arg7 harg7 arg8 harg8 hc0 hc1 x0 x1 x2 xm xl xt).1, y ∈ pc.1.set :=
  View.cover_of_tiledL _ S1024x1.size (by sl_kernel_rfl) y

theorem cover_maxFinish (y : S1024x1.Idx) :
    ∃ pc ∈ (runFinish c i arg2 harg2 arg3 harg3 arg4 harg4 arg5 harg5 arg6 harg6 arg7 harg7 arg8 harg8 hc0 hc1 x0 x1 x2 xm xl xt).2.1, y ∈ pc.1.set :=
  View.cover_of_tiledL _ S1024x1.size (by sl_kernel_rfl) y

theorem cover_sumFinish (y : S1024x1.Idx) :
    ∃ pc ∈ (runFinish c i arg2 harg2 arg3 harg3 arg4 harg4 arg5 harg5 arg6 harg6 arg7 harg7 arg8 harg8 hc0 hc1 x0 x1 x2 xm xl xt).2.2.1, y ∈ pc.1.set :=
  View.cover_of_tiledL _ S1024x1.size (by sl_kernel_rfl) y

theorem cover_labFinish (y : S1024x1.Idx) :
    ∃ pc ∈ (runFinish c i arg2 harg2 arg3 harg3 arg4 harg4 arg5 harg5 arg6 harg6 arg7 harg7 arg8 harg8 hc0 hc1 x0 x1 x2 xm xl xt).2.2.2.1, y ∈ pc.1.set :=
  View.cover_of_tiledL _ S1024x1.size (by sl_kernel_rfl) y

end

end Cert.Kernel.Tile

end
-- ==== Proof.Kernel.Sweep0.Cases.lean ====
import proofs.«405262_j58909771432351_3_alg».proof.Proof.Kernel.Tile.Run

set_option maxRecDepth 16384

noncomputable section

namespace Cert.Kernel.Sweep0

open Cert.Kernel Cert.Kernel.Gen Cert.Kernel.Tile
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before_x_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_w_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_lab_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem isFirst_iff : ∀ t : Fin cfg0.N, isFirst (grid0.coords t) ↔ t.val % 32 = 0 :=
  (by decide +kernel : ∀ t : Fin grid0.N, isFirst (grid0.coords t) ↔ t.val % 32 = 0)

theorem isLast_iff : ∀ t : Fin cfg0.N, isLast (grid0.coords t) ↔ t.val % 32 = 31 :=
  (by decide +kernel : ∀ t : Fin grid0.N, isLast (grid0.coords t) ↔ t.val % 32 = 31)

theorem live_x : ∀ t : Fin cfg0.N, cfg0.idle 0 (grid0.coords t) = false := by decide +kernel
theorem live_w : ∀ t : Fin cfg0.N, cfg0.idle 1 (grid0.coords t) = false := by decide +kernel
theorem live_lab : ∀ t : Fin cfg0.N, cfg0.idle 2 (grid0.coords t) = false := by decide +kernel

theorem idle_out : ∀ t : Fin cfg0.N, ¬isLast (grid0.coords t) → cfg0.idle 3 (grid0.coords t) = true := by decide +kernel

theorem noFlush_out : ∀ t : Fin cfg0.N, ¬isLast (grid0.coords t) → (cfg0.win 3).flush t = false := by decide +kernel

theorem live_out : ∀ t : Fin cfg0.N, isLast (grid0.coords t) → cfg0.idle 3 (grid0.coords t) = false := by decide +kernel

abbrev VOut : View sig .tc .vmem S1024x1 .f32 := (Memref.whole cc0_stg3_0 : Memref sig .tc .vmem S1024x1 .f32).view

abbrev msX (t : Fin cfg0.N) : Memref sig .tc .vmem S1024x2048 .bf16 := win0_0.stage (cfg0.slots t 0)
abbrev hsX (t : Fin cfg0.N) : (msX t).IsWhole := hstage0_0 ((cfg0.slots t 0).cast nbuf0_0)
abbrev msW (t : Fin cfg0.N) : Memref sig .tc .vmem S1000x2048 .f32 := win0_1.stage (cfg0.slots t 1)
abbrev hsW (t : Fin cfg0.N) : (msW t).IsWhole := hstage0_1 ((cfg0.slots t 1).cast nbuf0_1)
abbrev msLab (t : Fin cfg0.N) : Memref sig .tc .vmem S1024x1 .i32 := win0_2.stage (cfg0.slots t 2)
abbrev hsLab (t : Fin cfg0.N) : (msLab t).IsWhole := hstage0_2 ((cfg0.slots t 2).cast nbuf0_2)
abbrev msOut (t : Fin cfg0.N) : Memref sig .tc .vmem S1024x1 .f32 := win0_3.stage (cfg0.slots t 3)
abbrev hsOut (t : Fin cfg0.N) : (msOut t).IsWhole := hstage0_3 ((cfg0.slots t 3).cast nbuf0_3)

abbrev scMax : Memref sig .tc .vmem S1024x1 .f32 := Memref.whole cc0_scratch0
abbrev scSum : Memref sig .tc .vmem S1024x1 .f32 := Memref.whole cc0_scratch1
abbrev scLab : Memref sig .tc .vmem S1024x1 .f32 := Memref.whole cc0_scratch2
abbrev VMax : View sig .tc .vmem S1024x1 .f32 := scMax.view
abbrev VSum : View sig .tc .vmem S1024x1 .f32 := scSum.view
abbrev VLab : View sig .tc .vmem S1024x1 .f32 := scLab.view

end Cert.Kernel.Sweep0

end
-- ==== Proof.Kernel.Sweep0.Scoped.lean ====
import proofs.«405262_j58909771432351_3_alg».proof.Proof.Kernel.Sweep0.Cases

set_option maxRecDepth 16384

noncomputable section

namespace Cert.Kernel.Sweep0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f))

theorem PhiA_eq (c : Dev nD) :
    (Pipeline.ΦA spec0 c : sProp 𝕄)
      = iprop(iprop((∃ d, owns (c : Thread nD τ) scMax fullShare d) ∗ (∃ d, owns (c : Thread nD τ) scSum fullShare d) ∗ (∃ d, owns (c : Thread nD τ) scLab fullShare d) ∗ others (F := F) c) ∗ (∃ r, prngReg c r)) := by
  unfold Pipeline.ΦA others; rw [scopedRest0_eq]; simp only [scMax, scSum, scLab, owns_whole]; try rfl

theorem PhiA_open (c : Dev nD) :
    (Pipeline.ΦA spec0 c : sProp 𝕄)
      ⊢ iprop(iprop((∃ d, owns (c : Thread nD τ) scMax fullShare d) ∗ (∃ d, owns (c : Thread nD τ) scSum fullShare d) ∗ (∃ d, owns (c : Thread nD τ) scLab fullShare d) ∗ others (F := F) c) ∗ (∃ r, prngReg c r)) := by
  rw [PhiA_eq]

theorem PhiA_close (c : Dev nD) :
    iprop(iprop((∃ d, owns (c : Thread nD τ) scMax fullShare d) ∗ (∃ d, owns (c : Thread nD τ) scSum fullShare d) ∗ (∃ d, owns (c : Thread nD τ) scLab fullShare d) ∗ others (F := F) c) ∗ (∃ r, prngReg c r))
      ⊢ (Pipeline.ΦA spec0 c : sProp 𝕄) := by
  rw [PhiA_eq]

end Cert.Kernel.Sweep0

end
-- ==== Proof.Kernel.Sweep0.Carry.lean ====
import proofs.«405262_j58909771432351_3_alg».proof.Proof.Kernel.Sweep0.Scoped

set_option maxRecDepth 16384

noncomputable section

namespace Cert.Kernel.Sweep0

open Cert.Kernel Cert.Kernel.Gen Cert.Kernel.Tile
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem first_of (t : Fin cfg0.N) (h0 : t.val % 32 = 0) : isFirst (grid0.coords t) := (isFirst_iff t).mpr h0
theorem notFirst_of (t : Fin cfg0.N) (h0 : ¬t.val % 32 = 0) : ¬isFirst (grid0.coords t) := fun h => h0 ((isFirst_iff t).mp h)
theorem last_of (t : Fin cfg0.N) (h1 : t.val % 32 = 31) : isLast (grid0.coords t) := (isLast_iff t).mpr h1
theorem notLast_of (t : Fin cfg0.N) (h1 : ¬t.val % 32 = 31) : ¬isLast (grid0.coords t) := fun h => h1 ((isLast_iff t).mp h)
theorem notLast_of_first (t : Fin cfg0.N) (h0 : t.val % 32 = 0) : ¬isLast (grid0.coords t) :=
  notLast_of t (by omega)

def noOut : Vec F S1024x1 .f32 := VOut.read (Elt F) VOut.junk

abbrev resetRun (c : Dev nD) (t : Fin cfg0.N) (h0 : t.val % 32 = 0) :=
  runReset c (grid0.coords t) (msX t) (hsX t) (msW t) (hsW t) (msLab t) (hsLab t) (msOut t) (hsOut t) scMax (Memref.isWhole_whole _) scSum (Memref.isWhole_whole _) scLab (Memref.isWhole_whole _) (first_of t h0) (notLast_of_first t h0) (iblk V c 0 t) (iblk V c 1 t) (iblk V c 2 t)

abbrev stepRun (c : Dev nD) (t : Fin cfg0.N) (h0 : ¬t.val % 32 = 0) (h1 : ¬t.val % 32 = 31) (p : Vec F S1024x1 .f32 × Vec F S1024x1 .f32 × Vec F S1024x1 .f32) :=
  runStep c (grid0.coords t) (msX t) (hsX t) (msW t) (hsW t) (msLab t) (hsLab t) (msOut t) (hsOut t) scMax (Memref.isWhole_whole _) scSum (Memref.isWhole_whole _) scLab (Memref.isWhole_whole _) (notFirst_of t h0) (notLast_of t h1) (iblk V c 0 t) (iblk V c 1 t) (iblk V c 2 t) p.1 p.2.1 p.2.2

abbrev finishRun (c : Dev nD) (t : Fin cfg0.N) (h0 : ¬t.val % 32 = 0) (h1 : t.val % 32 = 31) (p : Vec F S1024x1 .f32 × Vec F S1024x1 .f32 × Vec F S1024x1 .f32) :=
  runFinish c (grid0.coords t) (msX t) (hsX t) (msW t) (hsW t) (msLab t) (hsLab t) (msOut t) (hsOut t) scMax (Memref.isWhole_whole _) scSum (Memref.isWhole_whole _) scLab (Memref.isWhole_whole _) (notFirst_of t h0) (last_of t h1) (iblk V c 0 t) (iblk V c 1 t) (iblk V c 2 t) p.1 p.2.1 p.2.2

def caseAt (c : Dev nD) (t : Fin cfg0.N) (p : Vec F S1024x1 .f32 × Vec F S1024x1 .f32 × Vec F S1024x1 .f32) : Vec F S1024x1 .f32 × Vec F S1024x1 .f32 × Vec F S1024x1 .f32 × Vec F S1024x1 .f32 :=
  if h0 : t.val % 32 = 0 then (noOut, back VMax (resetRun V c t h0).1, back VSum (resetRun V c t h0).2.1, back VLab (resetRun V c t h0).2.2.1)
  else if h1 : t.val % 32 = 31 then (back VOut (finishRun V c t h0 h1 p).1, back VMax (finishRun V c t h0 h1 p).2.1, back VSum (finishRun V c t h0 h1 p).2.2.1, back VLab (finishRun V c t h0 h1 p).2.2.2.1)
  else (noOut, back VMax (stepRun V c t h0 h1 p).1, back VSum (stepRun V c t h0 h1 p).2.1, back VLab (stepRun V c t h0 h1 p).2.2.1)

-- The recursion over the 64 points: tile 0 resets, a later tile steps over what the point before left, the last tile also gives the output block.
def colsAt (c : Dev nD) : (n : ℕ) → n < cfg0.N → Vec F S1024x1 .f32 × Vec F S1024x1 .f32 × Vec F S1024x1 .f32 × Vec F S1024x1 .f32
  | 0, hn => caseAt V c ⟨0, hn⟩ (noOut, noOut, noOut)
  | n + 1, hn => caseAt V c ⟨n + 1, hn⟩ (colsAt c n (Nat.lt_of_succ_lt hn)).2

abbrev prevCols (c : Dev nD) (t : Fin cfg0.N) : Vec F S1024x1 .f32 × Vec F S1024x1 .f32 × Vec F S1024x1 .f32 :=
  (colsAt V c (t.val - 1) (Nat.lt_of_le_of_lt (Nat.sub_le _ _) t.isLt)).2

theorem colsAt_zero (c : Dev nD) (hn : 0 < cfg0.N) : colsAt V c 0 hn = caseAt V c ⟨0, hn⟩ (noOut, noOut, noOut) := rfl
theorem colsAt_succ (c : Dev nD) (n : ℕ) (hn : n + 1 < cfg0.N) :
    colsAt V c (n + 1) hn = caseAt V c ⟨n + 1, hn⟩ (colsAt V c n (Nat.lt_of_succ_lt hn)).2 := rfl

theorem colsAt_reset (c : Dev nD) (t : Fin cfg0.N) (h0 : t.val % 32 = 0) :
    colsAt V c t.val t.isLt = (noOut, back VMax (resetRun V c t h0).1, back VSum (resetRun V c t h0).2.1, back VLab (resetRun V c t h0).2.2.1) := by
  obtain ⟨n, hn⟩ := t
  cases n with
  | zero => exact (colsAt_zero V c hn).trans (by unfold caseAt; exact dif_pos h0)
  | succ n => exact (colsAt_succ V c n hn).trans (by unfold caseAt; exact dif_pos h0)

theorem colsAt_step (c : Dev nD) (t : Fin cfg0.N) (h0 : ¬t.val % 32 = 0) (h1 : ¬t.val % 32 = 31) :
    colsAt V c t.val t.isLt = (noOut, back VMax (stepRun V c t h0 h1 (prevCols V c t)).1, back VSum (stepRun V c t h0 h1 (prevCols V c t)).2.1, back VLab (stepRun V c t h0 h1 (prevCols V c t)).2.2.1) := by
  obtain ⟨n, hn⟩ := t
  cases n with
  | zero => exact absurd (Nat.zero_mod _) h0
  | succ n => exact (colsAt_succ V c n hn).trans (by unfold caseAt; exact (dif_neg h0).trans ((dif_neg h1).trans rfl))

theorem colsAt_finish (c : Dev nD) (t : Fin cfg0.N) (h0 : ¬t.val % 32 = 0) (h1 : t.val % 32 = 31) :
    colsAt V c t.val t.isLt = (back VOut (finishRun V c t h0 h1 (prevCols V c t)).1, back VMax (finishRun V c t h0 h1 (prevCols V c t)).2.1, back VSum (finishRun V c t h0 h1 (prevCols V c t)).2.2.1, back VLab (finishRun V c t h0 h1 (prevCols V c t)).2.2.2.1) := by
  obtain ⟨n, hn⟩ := t
  cases n with
  | zero => exact absurd (Nat.zero_mod _) h0
  | succ n => exact (colsAt_succ V c n hn).trans (by unfold caseAt; exact (dif_neg h0).trans ((dif_pos h1).trans rfl))

-- Between two points the three running columns hold exactly what the point before left (before the first point: anything).
def PhiS (c : Dev nD) : (n : ℕ) → n ≤ cfg0.N → sProp 𝕄
  | 0, _ => Pipeline.ΦA spec0 c
  | n + 1, hn => iprop(iprop(owns (c : Thread nD τ) scMax fullShare ((colsAt V c n hn).2.1) ∗ owns (c : Thread nD τ) scSum fullShare ((colsAt V c n hn).2.2.1) ∗ owns (c : Thread nD τ) scLab fullShare ((colsAt V c n hn).2.2.2) ∗ others (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scMax fullShare ((colsAt V c n hn).2.1) ∗ owns (c : Thread nD τ) scSum fullShare ((colsAt V c n hn).2.2.1) ∗ owns (c : Thread nD τ) scLab fullShare ((colsAt V c n hn).2.2.2) ∗ others (F := F) c) ∗ (∃ r, prngReg c r)) := rfl

theorem PhiS_pos (c : Dev nD) (n : ℕ) (h : n ≤ cfg0.N) (hz : n ≠ 0) :
    PhiS V c n h = iprop(iprop(owns (c : Thread nD τ) scMax fullShare ((colsAt V c (n - 1) (by omega)).2.1) ∗ owns (c : Thread nD τ) scSum fullShare ((colsAt V c (n - 1) (by omega)).2.2.1) ∗ owns (c : Thread nD τ) scLab fullShare ((colsAt V c (n - 1) (by omega)).2.2.2) ∗ others (F := F) c) ∗ (∃ r, prngReg c r)) := by
  cases n with
  | zero => exact absurd rfl hz
  | succ n => rfl

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => (colsAt V c t.val t.isLt).1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after_x (c : Dev nD) (t : Fin cfg0.N) : (dat V c).after 0 t = iblk V c 0 t := by dsimp only [dat]
theorem after_w (c : Dev nD) (t : Fin cfg0.N) : (dat V c).after 1 t = iblk V c 1 t := by dsimp only [dat]
theorem after_lab (c : Dev nD) (t : Fin cfg0.N) : (dat V c).after 2 t = iblk V c 2 t := by dsimp only [dat]
theorem after_out (c : Dev nD) (t : Fin cfg0.N) : (dat V c).after 3 t = (colsAt V c t.val t.isLt).1 := by dsimp only [dat]

theorem before_x (c : Dev nD) (t : Fin cfg0.N) (d) : (dat V c).before 0 t d = iblk V c 0 t :=
  before_x_of V (dat V c) (A_eq V c 0) (after_x V c) t d
theorem before_w (c : Dev nD) (t : Fin cfg0.N) (d) : (dat V c).before 1 t d = iblk V c 1 t :=
  before_w_of V (dat V c) (A_eq V c 1) (after_w V c) t d
theorem before_lab (c : Dev nD) (t : Fin cfg0.N) (d) : (dat V c).before 2 t d = iblk V c 2 t :=
  before_lab_of V (dat V c) (A_eq V c 2) (after_lab V c) t d

end Cert.Kernel.Sweep0

end
-- ==== Proof.Kernel.Sweep0.Body.lean ====
import proofs.«405262_j58909771432351_3_alg».proof.Proof.Kernel.Sweep0.Carry

set_option maxRecDepth 16384

noncomputable section

namespace Cert.Kernel.Sweep0

open Cert.Kernel Cert.Kernel.Gen Cert.Kernel.Tile
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem stores_back (c : Dev nD) (sc : Memref sig .tc .vmem S1024x1 .f32) (W : View sig .tc .vmem S1024x1 .f32)
    (L : List (View.Piece (Elt F) S1024x1 .f32)) (hcov : ∀ y : S1024x1.Idx, ∃ pc ∈ L, y ∈ pc.1.set) :
    (iprop(∃ f, sc.view.loc (c : Thread nD τ) ↦[sc.view.set]{fullShare} sc.view.writes (Elt F) f L) : sProp 𝕄)
      ⊢ owns (c : Thread nD τ) sc fullShare (back W L) := by
  iintro ⟨%e, H⟩
  unfold owns back; iexists _; isplitr
  swap; · iexact H
  ipureintro; exact View.read_writes_of_cover _ _ _ _ _ hcov

def bodyPre (c : Dev nD) (t : Fin cfg0.N) : sProp 𝕄 :=
  iprop((dat V c).Φ t.castSucc ∗ (dat V c).owesAt () t.castSucc
    ∗ (∃ d, owns (c : Thread nD τ) (msX t) fullShare ((dat V c).before 0 t d))
    ∗ (∃ d, owns (c : Thread nD τ) (msW t) fullShare ((dat V c).before 1 t d))
    ∗ (∃ d, owns (c : Thread nD τ) (msLab t) fullShare ((dat V c).before 2 t d))
    ∗ (∃ d, owns (c : Thread nD τ) (msOut t) fullShare ((dat V c).before 3 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

theorem Phi_any (c : Dev nD) (t : Fin cfg0.N) :
    (dat V c).Φ t.castSucc
      ⊢ iprop(iprop((∃ d, owns (c : Thread nD τ) scMax fullShare d) ∗ (∃ d, owns (c : Thread nD τ) scSum fullShare d) ∗ (∃ d, owns (c : Thread nD τ) scLab fullShare d) ∗ others (F := F) c) ∗ (∃ r, prngReg c r)) := by
  rw [PhiS_castSucc V c t]
  by_cases hz : t.val = 0
  · rw [PhiS_zero V c _ _ hz]; exact PhiA_open c
  · rw [PhiS_pos V c _ _ hz]
    iintro ⟨⟨HM, HL, HT, Hoth⟩, Hg⟩
    isplitl [HM HL HT Hoth]
    · isplitl [HM]; · iexists _; iexact HM
      isplitl [HL]; · iexists _; iexact HL
      isplitl [HT]; · iexists _; iexact HT
      iexact Hoth
    iexact Hg

set_option maxHeartbeats 8000000 in
theorem sound_reset (c : Dev nD) (t : Fin cfg0.N) (h0 : t.val % 32 = 0) :
    bodyPre V c t ⊢ wp frame (wpE (defs₀ (F := F)) Variants.none c none) Set.univ (bodyAt0 t) (fun _ => bodyPost V c t) := by
  unfold bodyPre bodyPost bodyAt0
  rw [cc0_body]
  simp only [before_x, before_w, before_lab]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (msX t) fullShare ((dat V c).after 0 t) from by
    unfold Dat.leavesExact; rw [live_x t], after_x]
  rw [show (dat V c).leavesExact 1 t = owns (c : Thread nD τ) (msW t) fullShare ((dat V c).after 1 t) from by
    unfold Dat.leavesExact; rw [live_w t], after_w]
  rw [show (dat V c).leavesExact 2 t = owns (c : Thread nD τ) (msLab t) fullShare ((dat V c).after 2 t) from by
    unfold Dat.leavesExact; rw [live_lab t], after_lab]
  rw [Dat.leavesExact_idle (dat V c) 3 t (idle_out t (notLast_of_first t h0)) (noFlush_out t (notLast_of_first t h0))]
  rw [colsAt_reset V c t h0]; dsimp only
  iintro ⟨HΦ, Ho, ⟨%d0, H0⟩, ⟨%d1, H1⟩, ⟨%d2, H2⟩, ⟨%d3, H3⟩⟩
  ihave HΦ' := (Phi_any V c t) $$ HΦ
  icases HΦ' with ⟨⟨HM, HL, HT, Hoth⟩, Hg⟩
  iapply ((resetRun V c t h0).2.2.2 _ Set.univ _)
  isplitl [H0]; · iexact H0
  isplitl [H1]; · iexact H1
  isplitl [H2]; · iexact H2
  isplitl [H3]; · iexact H3
  isplitl [HM]; · iexact HM
  isplitl [HL]; · iexact HL
  isplitl [HT]; · iexact HT
  iintro ⟨H0, H1, H2, H3, HM, HL, HT⟩
  isplitl [HM HL HT Hoth Hg]
  · isplitl [HM HL HT Hoth]
    · isplitl [HM]; · iapply (stores_back c scMax VMax _ (cover_maxReset c _ _ _ _ _ _ _ _ _ _ _ _ _ _ _ _ _ _ _ _)); iexact HM
      isplitl [HL]; · iapply (stores_back c scSum VSum _ (cover_sumReset c _ _ _ _ _ _ _ _ _ _ _ _ _ _ _ _ _ _ _ _)); iexact HL
      isplitl [HT]; · iapply (stores_back c scLab VLab _ (cover_labReset c _ _ _ _ _ _ _ _ _ _ _ _ _ _ _ _ _ _ _ _)); iexact HT
      iexact Hoth
    iexact Hg
  isplitl [Ho]; · iexact Ho
  isplitl [H0]; · iexact H0
  isplitl [H1]; · iexact H1
  isplitl [H2]; · iexact H2
  iexists _; iexact H3

set_option maxHeartbeats 8000000 in
theorem sound_step (c : Dev nD) (t : Fin cfg0.N) (h0 : ¬t.val % 32 = 0) (h1 : ¬t.val % 32 = 31) :
    bodyPre V c t ⊢ wp frame (wpE (defs₀ (F := F)) Variants.none c none) Set.univ (bodyAt0 t) (fun _ => bodyPost V c t) := by
  have hz : t.val ≠ 0 := fun h => h0 (by rw [h])
  unfold bodyPre bodyPost bodyAt0
  rw [cc0_body]
  simp only [before_x, before_w, before_lab]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (msX t) fullShare ((dat V c).after 0 t) from by
    unfold Dat.leavesExact; rw [live_x t], after_x]
  rw [show (dat V c).leavesExact 1 t = owns (c : Thread nD τ) (msW t) fullShare ((dat V c).after 1 t) from by
    unfold Dat.leavesExact; rw [live_w t], after_w]
  rw [show (dat V c).leavesExact 2 t = owns (c : Thread nD τ) (msLab t) fullShare ((dat V c).after 2 t) from by
    unfold Dat.leavesExact; rw [live_lab t], after_lab]
  rw [Dat.leavesExact_idle (dat V c) 3 t (idle_out t (notLast_of t h1)) (noFlush_out t (notLast_of t h1))]
  rw [colsAt_step V c t h0 h1]; dsimp only
  rw [PhiS_castSucc V c t, PhiS_pos V c _ _ hz]
  iintro ⟨⟨⟨HM, HL, HT, Hoth⟩, Hg⟩, Ho, ⟨%d0, H0⟩, ⟨%d1, H1⟩, ⟨%d2, H2⟩, ⟨%d3, H3⟩⟩
  iapply ((stepRun V c t h0 h1 (prevCols V c t)).2.2.2 _ Set.univ _)
  isplitl [H0]; · iexact H0
  isplitl [H1]; · iexact H1
  isplitl [H2]; · iexact H2
  isplitl [H3]; · iexact H3
  isplitl [HM]; · iexact HM
  isplitl [HL]; · iexact HL
  isplitl [HT]; · iexact HT
  iintro ⟨H0, H1, H2, H3, HM, HL, HT⟩
  isplitl [HM HL HT Hoth Hg]
  · isplitl [HM HL HT Hoth]
    · isplitl [HM]; · iapply (stores_back c scMax VMax _ (cover_maxStep c _ _ _ _ _ _ _ _ _ _ _ _ _ _ _ _ _ _ _ _ _ _ _)); iexact HM
      isplitl [HL]; · iapply (stores_back c scSum VSum _ (cover_sumStep c _ _ _ _ _ _ _ _ _ _ _ _ _ _ _ _ _ _ _ _ _ _ _)); iexact HL
      isplitl [HT]; · iapply (stores_back c scLab VLab _ (cover_labStep c _ _ _ _ _ _ _ _ _ _ _ _ _ _ _ _ _ _ _ _ _ _ _)); iexact HT
      iexact Hoth
    iexact Hg
  isplitl [Ho]; · iexact Ho
  isplitl [H0]; · iexact H0
  isplitl [H1]; · iexact H1
  isplitl [H2]; · iexact H2
  iexists _; iexact H3

set_option maxHeartbeats 8000000 in
theorem sound_finish (c : Dev nD) (t : Fin cfg0.N) (h0 : ¬t.val % 32 = 0) (h1 : t.val % 32 = 31) :
    bodyPre V c t ⊢ wp frame (wpE (defs₀ (F := F)) Variants.none c none) Set.univ (bodyAt0 t) (fun _ => bodyPost V c t) := by
  have hz : t.val ≠ 0 := fun h => h0 (by rw [h])
  unfold bodyPre bodyPost bodyAt0
  rw [cc0_body]
  simp only [before_x, before_w, before_lab]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (msX t) fullShare ((dat V c).after 0 t) from by
    unfold Dat.leavesExact; rw [live_x t], after_x]
  rw [show (dat V c).leavesExact 1 t = owns (c : Thread nD τ) (msW t) fullShare ((dat V c).after 1 t) from by
    unfold Dat.leavesExact; rw [live_w t], after_w]
  rw [show (dat V c).leavesExact 2 t = owns (c : Thread nD τ) (msLab t) fullShare ((dat V c).after 2 t) from by
    unfold Dat.leavesExact; rw [live_lab t], after_lab]
  rw [show (dat V c).leavesExact 3 t = owns (c : Thread nD τ) (msOut t) fullShare ((dat V c).after 3 t) from by
    unfold Dat.leavesExact; rw [live_out t (last_of t h1)], after_out]
  rw [colsAt_finish V c t h0 h1]; dsimp only
  rw [PhiS_castSucc V c t, PhiS_pos V c _ _ hz]
  iintro ⟨⟨⟨HM, HL, HT, Hoth⟩, Hg⟩, Ho, ⟨%d0, H0⟩, ⟨%d1, H1⟩, ⟨%d2, H2⟩, ⟨%d3, H3⟩⟩
  iapply ((finishRun V c t h0 h1 (prevCols V c t)).2.2.2.2 Set.univ _)
  isplitl [H0]; · iexact H0
  isplitl [H1]; · iexact H1
  isplitl [H2]; · iexact H2
  isplitl [H3]; · iexists _; iexact H3
  isplitl [HM]; · iexact HM
  isplitl [HL]; · iexact HL
  isplitl [HT]; · iexact HT
  iintro ⟨H0, H1, H2, H3, HM, HL, HT⟩
  isplitl [HM HL HT Hoth Hg]
  · isplitl [HM HL HT Hoth]
    · isplitl [HM]; · iapply (stores_back c scMax VMax _ (cover_maxFinish c _ _ _ _ _ _ _ _ _ _ _ _ _ _ _ _ _ _ _ _ _ _ _)); iexact HM
      isplitl [HL]; · iapply (stores_back c scSum VSum _ (cover_sumFinish c _ _ _ _ _ _ _ _ _ _ _ _ _ _ _ _ _ _ _ _ _ _ _)); iexact HL
      isplitl [HT]; · iapply (stores_back c scLab VLab _ (cover_labFinish c _ _ _ _ _ _ _ _ _ _ _ _ _ _ _ _ _ _ _ _ _ _ _)); iexact HT
      iexact Hoth
    iexact Hg
  isplitl [Ho]; · iexact Ho
  isplitl [H0]; · iexact H0
  isplitl [H1]; · iexact H1
  isplitl [H2]; · iexact H2
  iapply (stores_back c (msOut t) VOut _ (cover_outFinish c _ _ _ _ _ _ _ _ _ _ _ _ _ _ _ _ _ _ _ _ _ _ _)); iexact H3

-- By the tile number: reset, step or finish.
theorem body_obligation (c : Dev nD) : BodyObligation (dat (F := F) V c) (defs₀ (F := F)) Variants.none () Set.univ := fun t => by
  rw [bigSep_W0, bigSep_W0]
  by_cases h0 : t.val % 32 = 0
  · exact sound_reset V c t h0
  · by_cases h1 : t.val % 32 = 31
    · exact sound_finish V c t h0 h1
    · exact sound_step V c t h0 h1

theorem hin (c : Dev nD) : Pipeline.ΦA spec0 c ⊢ (dat V c).Φ 0 := by
  have h : (dat V c).Φ 0 = Pipeline.ΦA spec0 c := by
    dsimp only [dat]; exact PhiS_zero V c _ _ (Fin.val_zero _)
  rw [h]

theorem Phi_forget (c : Dev nD) (n : ℕ) (h : n ≤ cfg0.N) (hz : n ≠ 0) : PhiS V c n h ⊢ Pipeline.ΦA spec0 c := by
  rw [PhiS_pos V c n h hz]
  iintro ⟨⟨HM, HL, HT, Hoth⟩, Hg⟩
  iapply (PhiA_close c)
  isplitl [HM HL HT Hoth]
  · isplitl [HM]; · iexists _; iexact HM
    isplitl [HL]; · iexists _; iexact HL
    isplitl [HT]; · iexists _; iexact HT
    iexact Hoth
  iexact Hg

theorem hout (c : Dev nD) : (dat V c).Φ (Fin.last cfg0.N) ⊢ Pipeline.ΦA spec0 c := by
  have ht : (Fin.last cfg0.N).val ≠ 0 := by rw [Fin.val_last]; have : cfg0.N = 64 := N_0; omega
  have h : (dat V c).Φ (Fin.last cfg0.N) = PhiS V c (Fin.last cfg0.N).val (Nat.le_of_lt_succ (Fin.last cfg0.N).isLt) := by
    dsimp only [dat]
  rw [h]
  exact Phi_forget V c _ _ ht

end Cert.Kernel.Sweep0

end
-- ==== Proof.Kernel.Sweep1.Cases.lean ====
import proofs.«405262_j58909771432351_3_alg».proof.Proof.Kernel.Tile.Run

set_option maxRecDepth 16384

noncomputable section

namespace Cert.Kernel.Sweep1

open Cert.Kernel Cert.Kernel.Gen Cert.Kernel.Tile
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before_x_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_w_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_lab_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem isFirst_iff : ∀ t : Fin cfg1.N, isFirst (grid1.coords t) ↔ t.val % 32 = 0 :=
  (by decide +kernel : ∀ t : Fin grid1.N, isFirst (grid1.coords t) ↔ t.val % 32 = 0)

theorem isLast_iff : ∀ t : Fin cfg1.N, isLast (grid1.coords t) ↔ t.val % 32 = 31 :=
  (by decide +kernel : ∀ t : Fin grid1.N, isLast (grid1.coords t) ↔ t.val % 32 = 31)

theorem live_x : ∀ t : Fin cfg1.N, cfg1.idle 0 (grid1.coords t) = false := by decide +kernel
theorem live_w : ∀ t : Fin cfg1.N, cfg1.idle 1 (grid1.coords t) = false := by decide +kernel
theorem live_lab : ∀ t : Fin cfg1.N, cfg1.idle 2 (grid1.coords t) = false := by decide +kernel

theorem idle_out : ∀ t : Fin cfg1.N, ¬isLast (grid1.coords t) → cfg1.idle 3 (grid1.coords t) = true := by decide +kernel

theorem noFlush_out : ∀ t : Fin cfg1.N, ¬isLast (grid1.coords t) → (cfg1.win 3).flush t = false := by decide +kernel

theorem live_out : ∀ t : Fin cfg1.N, isLast (grid1.coords t) → cfg1.idle 3 (grid1.coords t) = false := by decide +kernel

abbrev VOut : View sig .tc .vmem S1024x1 .f32 := (Memref.whole cc1_stg3_0 : Memref sig .tc .vmem S1024x1 .f32).view

abbrev msX (t : Fin cfg1.N) : Memref sig .tc .vmem S1024x2048 .bf16 := win1_0.stage (cfg1.slots t 0)
abbrev hsX (t : Fin cfg1.N) : (msX t).IsWhole := hstage1_0 ((cfg1.slots t 0).cast nbuf1_0)
abbrev msW (t : Fin cfg1.N) : Memref sig .tc .vmem S1000x2048 .f32 := win1_1.stage (cfg1.slots t 1)
abbrev hsW (t : Fin cfg1.N) : (msW t).IsWhole := hstage1_1 ((cfg1.slots t 1).cast nbuf1_1)
abbrev msLab (t : Fin cfg1.N) : Memref sig .tc .vmem S1024x1 .i32 := win1_2.stage (cfg1.slots t 2)
abbrev hsLab (t : Fin cfg1.N) : (msLab t).IsWhole := hstage1_2 ((cfg1.slots t 2).cast nbuf1_2)
abbrev msOut (t : Fin cfg1.N) : Memref sig .tc .vmem S1024x1 .f32 := win1_3.stage (cfg1.slots t 3)
abbrev hsOut (t : Fin cfg1.N) : (msOut t).IsWhole := hstage1_3 ((cfg1.slots t 3).cast nbuf1_3)

abbrev scMax : Memref sig .tc .vmem S1024x1 .f32 := Memref.whole cc1_scratch0
abbrev scSum : Memref sig .tc .vmem S1024x1 .f32 := Memref.whole cc1_scratch1
abbrev scLab : Memref sig .tc .vmem S1024x1 .f32 := Memref.whole cc1_scratch2
abbrev VMax : View sig .tc .vmem S1024x1 .f32 := scMax.view
abbrev VSum : View sig .tc .vmem S1024x1 .f32 := scSum.view
abbrev VLab : View sig .tc .vmem S1024x1 .f32 := scLab.view

end Cert.Kernel.Sweep1

end
-- ==== Proof.Kernel.Sweep1.Scoped.lean ====
import proofs.«405262_j58909771432351_3_alg».proof.Proof.Kernel.Sweep1.Cases

set_option maxRecDepth 16384

noncomputable section

namespace Cert.Kernel.Sweep1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f))

theorem PhiA_open (c : Dev nD) :
    (Pipeline.ΦA spec1 c : sProp 𝕄) ⊢ iprop(iprop((∃ d, owns (c : Thread nD τ) scMax fullShare d) ∗ (∃ d, owns (c : Thread nD τ) scSum fullShare d) ∗ (∃ d, owns (c : Thread nD τ) scLab fullShare d) ∗ others (F := F) c) ∗ (∃ r, prngReg c r)) := by
  unfold Pipeline.ΦA others; rw [scopedRest1_eq]; simp only [scMax, scSum, scLab, owns_whole]
  iintro ⟨⟨H1, H2, H3, H4, H5, H6, H7, H8, H9, H10, HM, HL, HT⟩, Hg⟩
  isplitr [Hg]
  · isplitl [HM]; · iexact HM
    isplitl [HL]; · iexact HL
    isplitl [HT]; · iexact HT
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  iexact Hg

theorem PhiA_close (c : Dev nD) :
    iprop(iprop((∃ d, owns (c : Thread nD τ) scMax fullShare d) ∗ (∃ d, owns (c : Thread nD τ) scSum fullShare d) ∗ (∃ d, owns (c : Thread nD τ) scLab fullShare d) ∗ others (F := F) c) ∗ (∃ r, prngReg c r)) ⊢ (Pipeline.ΦA spec1 c : sProp 𝕄) := by
  unfold Pipeline.ΦA others; rw [scopedRest1_eq]; simp only [scMax, scSum, scLab, owns_whole]
  iintro ⟨⟨HM, HL, HT, H1, H2, H3, H4, H5, H6, H7, H8, H9, H10⟩, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HM]; · iexact HM
    isplitl [HL]; · iexact HL
    iexact HT
  iexact Hg

end Cert.Kernel.Sweep1

end
-- ==== Proof.Kernel.Sweep1.Carry.lean ====
import proofs.«405262_j58909771432351_3_alg».proof.Proof.Kernel.Sweep1.Scoped

set_option maxRecDepth 16384

noncomputable section

namespace Cert.Kernel.Sweep1

open Cert.Kernel Cert.Kernel.Gen Cert.Kernel.Tile
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem first_of (t : Fin cfg1.N) (h0 : t.val % 32 = 0) : isFirst (grid1.coords t) := (isFirst_iff t).mpr h0
theorem notFirst_of (t : Fin cfg1.N) (h0 : ¬t.val % 32 = 0) : ¬isFirst (grid1.coords t) := fun h => h0 ((isFirst_iff t).mp h)
theorem last_of (t : Fin cfg1.N) (h1 : t.val % 32 = 31) : isLast (grid1.coords t) := (isLast_iff t).mpr h1
theorem notLast_of (t : Fin cfg1.N) (h1 : ¬t.val % 32 = 31) : ¬isLast (grid1.coords t) := fun h => h1 ((isLast_iff t).mp h)
theorem notLast_of_first (t : Fin cfg1.N) (h0 : t.val % 32 = 0) : ¬isLast (grid1.coords t) :=
  notLast_of t (by omega)

def noOut : Vec F S1024x1 .f32 := VOut.read (Elt F) VOut.junk

abbrev resetRun (c : Dev nD) (t : Fin cfg1.N) (h0 : t.val % 32 = 0) :=
  runReset c (grid1.coords t) (msX t) (hsX t) (msW t) (hsW t) (msLab t) (hsLab t) (msOut t) (hsOut t) scMax (Memref.isWhole_whole _) scSum (Memref.isWhole_whole _) scLab (Memref.isWhole_whole _) (first_of t h0) (notLast_of_first t h0) (iblk V c 0 t) (iblk V c 1 t) (iblk V c 2 t)

abbrev stepRun (c : Dev nD) (t : Fin cfg1.N) (h0 : ¬t.val % 32 = 0) (h1 : ¬t.val % 32 = 31) (p : Vec F S1024x1 .f32 × Vec F S1024x1 .f32 × Vec F S1024x1 .f32) :=
  runStep c (grid1.coords t) (msX t) (hsX t) (msW t) (hsW t) (msLab t) (hsLab t) (msOut t) (hsOut t) scMax (Memref.isWhole_whole _) scSum (Memref.isWhole_whole _) scLab (Memref.isWhole_whole _) (notFirst_of t h0) (notLast_of t h1) (iblk V c 0 t) (iblk V c 1 t) (iblk V c 2 t) p.1 p.2.1 p.2.2

abbrev finishRun (c : Dev nD) (t : Fin cfg1.N) (h0 : ¬t.val % 32 = 0) (h1 : t.val % 32 = 31) (p : Vec F S1024x1 .f32 × Vec F S1024x1 .f32 × Vec F S1024x1 .f32) :=
  runFinish c (grid1.coords t) (msX t) (hsX t) (msW t) (hsW t) (msLab t) (hsLab t) (msOut t) (hsOut t) scMax (Memref.isWhole_whole _) scSum (Memref.isWhole_whole _) scLab (Memref.isWhole_whole _) (notFirst_of t h0) (last_of t h1) (iblk V c 0 t) (iblk V c 1 t) (iblk V c 2 t) p.1 p.2.1 p.2.2

def caseAt (c : Dev nD) (t : Fin cfg1.N) (p : Vec F S1024x1 .f32 × Vec F S1024x1 .f32 × Vec F S1024x1 .f32) : Vec F S1024x1 .f32 × Vec F S1024x1 .f32 × Vec F S1024x1 .f32 × Vec F S1024x1 .f32 :=
  if h0 : t.val % 32 = 0 then (noOut, back VMax (resetRun V c t h0).1, back VSum (resetRun V c t h0).2.1, back VLab (resetRun V c t h0).2.2.1)
  else if h1 : t.val % 32 = 31 then (back VOut (finishRun V c t h0 h1 p).1, back VMax (finishRun V c t h0 h1 p).2.1, back VSum (finishRun V c t h0 h1 p).2.2.1, back VLab (finishRun V c t h0 h1 p).2.2.2.1)
  else (noOut, back VMax (stepRun V c t h0 h1 p).1, back VSum (stepRun V c t h0 h1 p).2.1, back VLab (stepRun V c t h0 h1 p).2.2.1)

-- The recursion over the 64 points: tile 0 resets, a later tile steps over what the point before left, the last tile also gives the output block.
def colsAt (c : Dev nD) : (n : ℕ) → n < cfg1.N → Vec F S1024x1 .f32 × Vec F S1024x1 .f32 × Vec F S1024x1 .f32 × Vec F S1024x1 .f32
  | 0, hn => caseAt V c ⟨0, hn⟩ (noOut, noOut, noOut)
  | n + 1, hn => caseAt V c ⟨n + 1, hn⟩ (colsAt c n (Nat.lt_of_succ_lt hn)).2

abbrev prevCols (c : Dev nD) (t : Fin cfg1.N) : Vec F S1024x1 .f32 × Vec F S1024x1 .f32 × Vec F S1024x1 .f32 :=
  (colsAt V c (t.val - 1) (Nat.lt_of_le_of_lt (Nat.sub_le _ _) t.isLt)).2

theorem colsAt_zero (c : Dev nD) (hn : 0 < cfg1.N) : colsAt V c 0 hn = caseAt V c ⟨0, hn⟩ (noOut, noOut, noOut) := rfl
theorem colsAt_succ (c : Dev nD) (n : ℕ) (hn : n + 1 < cfg1.N) :
    colsAt V c (n + 1) hn = caseAt V c ⟨n + 1, hn⟩ (colsAt V c n (Nat.lt_of_succ_lt hn)).2 := rfl

theorem colsAt_reset (c : Dev nD) (t : Fin cfg1.N) (h0 : t.val % 32 = 0) :
    colsAt V c t.val t.isLt = (noOut, back VMax (resetRun V c t h0).1, back VSum (resetRun V c t h0).2.1, back VLab (resetRun V c t h0).2.2.1) := by
  obtain ⟨n, hn⟩ := t
  cases n with
  | zero => exact (colsAt_zero V c hn).trans (by unfold caseAt; exact dif_pos h0)
  | succ n => exact (colsAt_succ V c n hn).trans (by unfold caseAt; exact dif_pos h0)

theorem colsAt_step (c : Dev nD) (t : Fin cfg1.N) (h0 : ¬t.val % 32 = 0) (h1 : ¬t.val % 32 = 31) :
    colsAt V c t.val t.isLt = (noOut, back VMax (stepRun V c t h0 h1 (prevCols V c t)).1, back VSum (stepRun V c t h0 h1 (prevCols V c t)).2.1, back VLab (stepRun V c t h0 h1 (prevCols V c t)).2.2.1) := by
  obtain ⟨n, hn⟩ := t
  cases n with
  | zero => exact absurd (Nat.zero_mod _) h0
  | succ n => exact (colsAt_succ V c n hn).trans (by unfold caseAt; exact (dif_neg h0).trans ((dif_neg h1).trans rfl))

theorem colsAt_finish (c : Dev nD) (t : Fin cfg1.N) (h0 : ¬t.val % 32 = 0) (h1 : t.val % 32 = 31) :
    colsAt V c t.val t.isLt = (back VOut (finishRun V c t h0 h1 (prevCols V c t)).1, back VMax (finishRun V c t h0 h1 (prevCols V c t)).2.1, back VSum (finishRun V c t h0 h1 (prevCols V c t)).2.2.1, back VLab (finishRun V c t h0 h1 (prevCols V c t)).2.2.2.1) := by
  obtain ⟨n, hn⟩ := t
  cases n with
  | zero => exact absurd (Nat.zero_mod _) h0
  | succ n => exact (colsAt_succ V c n hn).trans (by unfold caseAt; exact (dif_neg h0).trans ((dif_pos h1).trans rfl))

-- Between two points the three running columns hold exactly what the point before left (before the first point: anything).
def PhiS (c : Dev nD) : (n : ℕ) → n ≤ cfg1.N → sProp 𝕄
  | 0, _ => Pipeline.ΦA spec1 c
  | n + 1, hn => iprop(iprop(owns (c : Thread nD τ) scMax fullShare ((colsAt V c n hn).2.1) ∗ owns (c : Thread nD τ) scSum fullShare ((colsAt V c n hn).2.2.1) ∗ owns (c : Thread nD τ) scLab fullShare ((colsAt V c n hn).2.2.2) ∗ others (F := F) c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) scMax fullShare ((colsAt V c n hn).2.1) ∗ owns (c : Thread nD τ) scSum fullShare ((colsAt V c n hn).2.2.1) ∗ owns (c : Thread nD τ) scLab fullShare ((colsAt V c n hn).2.2.2) ∗ others (F := F) c) ∗ (∃ r, prngReg c r)) := rfl

theorem PhiS_pos (c : Dev nD) (n : ℕ) (h : n ≤ cfg1.N) (hz : n ≠ 0) :
    PhiS V c n h = iprop(iprop(owns (c : Thread nD τ) scMax fullShare ((colsAt V c (n - 1) (by omega)).2.1) ∗ owns (c : Thread nD τ) scSum fullShare ((colsAt V c (n - 1) (by omega)).2.2.1) ∗ owns (c : Thread nD τ) scLab fullShare ((colsAt V c (n - 1) (by omega)).2.2.2) ∗ others (F := F) c) ∗ (∃ r, prngReg c r)) := by
  cases n with
  | zero => exact absurd rfl hz
  | succ n => rfl

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => (colsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after_x (c : Dev nD) (t : Fin cfg1.N) : (dat V c).after 0 t = iblk V c 0 t := by dsimp only [dat]
theorem after_w (c : Dev nD) (t : Fin cfg1.N) : (dat V c).after 1 t = iblk V c 1 t := by dsimp only [dat]
theorem after_lab (c : Dev nD) (t : Fin cfg1.N) : (dat V c).after 2 t = iblk V c 2 t := by dsimp only [dat]
theorem after_out (c : Dev nD) (t : Fin cfg1.N) : (dat V c).after 3 t = (colsAt V c t.val t.isLt).1 := by dsimp only [dat]

theorem before_x (c : Dev nD) (t : Fin cfg1.N) (d) : (dat V c).before 0 t d = iblk V c 0 t :=
  before_x_of V (dat V c) (A_eq V c 0) (after_x V c) t d
theorem before_w (c : Dev nD) (t : Fin cfg1.N) (d) : (dat V c).before 1 t d = iblk V c 1 t :=
  before_w_of V (dat V c) (A_eq V c 1) (after_w V c) t d
theorem before_lab (c : Dev nD) (t : Fin cfg1.N) (d) : (dat V c).before 2 t d = iblk V c 2 t :=
  before_lab_of V (dat V c) (A_eq V c 2) (after_lab V c) t d

end Cert.Kernel.Sweep1

end
-- ==== Proof.Kernel.Sweep1.Body.lean ====
import proofs.«405262_j58909771432351_3_alg».proof.Proof.Kernel.Sweep1.Carry

set_option maxRecDepth 16384

noncomputable section

namespace Cert.Kernel.Sweep1

open Cert.Kernel Cert.Kernel.Gen Cert.Kernel.Tile
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem stores_back (c : Dev nD) (sc : Memref sig .tc .vmem S1024x1 .f32) (W : View sig .tc .vmem S1024x1 .f32)
    (L : List (View.Piece (Elt F) S1024x1 .f32)) (hcov : ∀ y : S1024x1.Idx, ∃ pc ∈ L, y ∈ pc.1.set) :
    (iprop(∃ f, sc.view.loc (c : Thread nD τ) ↦[sc.view.set]{fullShare} sc.view.writes (Elt F) f L) : sProp 𝕄)
      ⊢ owns (c : Thread nD τ) sc fullShare (back W L) := by
  iintro ⟨%e, H⟩
  unfold owns back; iexists _; isplitr
  swap; · iexact H
  ipureintro; exact View.read_writes_of_cover _ _ _ _ _ hcov

def bodyPre (c : Dev nD) (t : Fin cfg1.N) : sProp 𝕄 :=
  iprop((dat V c).Φ t.castSucc ∗ (dat V c).owesAt () t.castSucc
    ∗ (∃ d, owns (c : Thread nD τ) (msX t) fullShare ((dat V c).before 0 t d))
    ∗ (∃ d, owns (c : Thread nD τ) (msW t) fullShare ((dat V c).before 1 t d))
    ∗ (∃ d, owns (c : Thread nD τ) (msLab t) fullShare ((dat V c).before 2 t d))
    ∗ (∃ d, owns (c : Thread nD τ) (msOut t) fullShare ((dat V c).before 3 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

theorem Phi_any (c : Dev nD) (t : Fin cfg1.N) :
    (dat V c).Φ t.castSucc
      ⊢ iprop(iprop((∃ d, owns (c : Thread nD τ) scMax fullShare d) ∗ (∃ d, owns (c : Thread nD τ) scSum fullShare d) ∗ (∃ d, owns (c : Thread nD τ) scLab fullShare d) ∗ others (F := F) c) ∗ (∃ r, prngReg c r)) := by
  rw [PhiS_castSucc V c t]
  by_cases hz : t.val = 0
  · rw [PhiS_zero V c _ _ hz]; exact PhiA_open c
  · rw [PhiS_pos V c _ _ hz]
    iintro ⟨⟨HM, HL, HT, Hoth⟩, Hg⟩
    isplitl [HM HL HT Hoth]
    · isplitl [HM]; · iexists _; iexact HM
      isplitl [HL]; · iexists _; iexact HL
      isplitl [HT]; · iexists _; iexact HT
      iexact Hoth
    iexact Hg

set_option maxHeartbeats 8000000 in
theorem sound_reset (c : Dev nD) (t : Fin cfg1.N) (h0 : t.val % 32 = 0) :
    bodyPre V c t ⊢ wp frame (wpE (defs₀ (F := F)) Variants.none c none) Set.univ (bodyAt1 t) (fun _ => bodyPost V c t) := by
  unfold bodyPre bodyPost bodyAt1
  rw [cc1_body]
  simp only [before_x, before_w, before_lab]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (msX t) fullShare ((dat V c).after 0 t) from by
    unfold Dat.leavesExact; rw [live_x t], after_x]
  rw [show (dat V c).leavesExact 1 t = owns (c : Thread nD τ) (msW t) fullShare ((dat V c).after 1 t) from by
    unfold Dat.leavesExact; rw [live_w t], after_w]
  rw [show (dat V c).leavesExact 2 t = owns (c : Thread nD τ) (msLab t) fullShare ((dat V c).after 2 t) from by
    unfold Dat.leavesExact; rw [live_lab t], after_lab]
  rw [Dat.leavesExact_idle (dat V c) 3 t (idle_out t (notLast_of_first t h0)) (noFlush_out t (notLast_of_first t h0))]
  rw [colsAt_reset V c t h0]; dsimp only
  iintro ⟨HΦ, Ho, ⟨%d0, H0⟩, ⟨%d1, H1⟩, ⟨%d2, H2⟩, ⟨%d3, H3⟩⟩
  ihave HΦ' := (Phi_any V c t) $$ HΦ
  icases HΦ' with ⟨⟨HM, HL, HT, Hoth⟩, Hg⟩
  iapply ((resetRun V c t h0).2.2.2 _ Set.univ _)
  isplitl [H0]; · iexact H0
  isplitl [H1]; · iexact H1
  isplitl [H2]; · iexact H2
  isplitl [H3]; · iexact H3
  isplitl [HM]; · iexact HM
  isplitl [HL]; · iexact HL
  isplitl [HT]; · iexact HT
  iintro ⟨H0, H1, H2, H3, HM, HL, HT⟩
  isplitl [HM HL HT Hoth Hg]
  · isplitl [HM HL HT Hoth]
    · isplitl [HM]; · iapply (stores_back c scMax VMax _ (cover_maxReset c _ _ _ _ _ _ _ _ _ _ _ _ _ _ _ _ _ _ _ _)); iexact HM
      isplitl [HL]; · iapply (stores_back c scSum VSum _ (cover_sumReset c _ _ _ _ _ _ _ _ _ _ _ _ _ _ _ _ _ _ _ _)); iexact HL
      isplitl [HT]; · iapply (stores_back c scLab VLab _ (cover_labReset c _ _ _ _ _ _ _ _ _ _ _ _ _ _ _ _ _ _ _ _)); iexact HT
      iexact Hoth
    iexact Hg
  isplitl [Ho]; · iexact Ho
  isplitl [H0]; · iexact H0
  isplitl [H1]; · iexact H1
  isplitl [H2]; · iexact H2
  iexists _; iexact H3

set_option maxHeartbeats 8000000 in
theorem sound_step (c : Dev nD) (t : Fin cfg1.N) (h0 : ¬t.val % 32 = 0) (h1 : ¬t.val % 32 = 31) :
    bodyPre V c t ⊢ wp frame (wpE (defs₀ (F := F)) Variants.none c none) Set.univ (bodyAt1 t) (fun _ => bodyPost V c t) := by
  have hz : t.val ≠ 0 := fun h => h0 (by rw [h])
  unfold bodyPre bodyPost bodyAt1
  rw [cc1_body]
  simp only [before_x, before_w, before_lab]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (msX t) fullShare ((dat V c).after 0 t) from by
    unfold Dat.leavesExact; rw [live_x t], after_x]
  rw [show (dat V c).leavesExact 1 t = owns (c : Thread nD τ) (msW t) fullShare ((dat V c).after 1 t) from by
    unfold Dat.leavesExact; rw [live_w t], after_w]
  rw [show (dat V c).leavesExact 2 t = owns (c : Thread nD τ) (msLab t) fullShare ((dat V c).after 2 t) from by
    unfold Dat.leavesExact; rw [live_lab t], after_lab]
  rw [Dat.leavesExact_idle (dat V c) 3 t (idle_out t (notLast_of t h1)) (noFlush_out t (notLast_of t h1))]
  rw [colsAt_step V c t h0 h1]; dsimp only
  rw [PhiS_castSucc V c t, PhiS_pos V c _ _ hz]
  iintro ⟨⟨⟨HM, HL, HT, Hoth⟩, Hg⟩, Ho, ⟨%d0, H0⟩, ⟨%d1, H1⟩, ⟨%d2, H2⟩, ⟨%d3, H3⟩⟩
  iapply ((stepRun V c t h0 h1 (prevCols V c t)).2.2.2 _ Set.univ _)
  isplitl [H0]; · iexact H0
  isplitl [H1]; · iexact H1
  isplitl [H2]; · iexact H2
  isplitl [H3]; · iexact H3
  isplitl [HM]; · iexact HM
  isplitl [HL]; · iexact HL
  isplitl [HT]; · iexact HT
  iintro ⟨H0, H1, H2, H3, HM, HL, HT⟩
  isplitl [HM HL HT Hoth Hg]
  · isplitl [HM HL HT Hoth]
    · isplitl [HM]; · iapply (stores_back c scMax VMax _ (cover_maxStep c _ _ _ _ _ _ _ _ _ _ _ _ _ _ _ _ _ _ _ _ _ _ _)); iexact HM
      isplitl [HL]; · iapply (stores_back c scSum VSum _ (cover_sumStep c _ _ _ _ _ _ _ _ _ _ _ _ _ _ _ _ _ _ _ _ _ _ _)); iexact HL
      isplitl [HT]; · iapply (stores_back c scLab VLab _ (cover_labStep c _ _ _ _ _ _ _ _ _ _ _ _ _ _ _ _ _ _ _ _ _ _ _)); iexact HT
      iexact Hoth
    iexact Hg
  isplitl [Ho]; · iexact Ho
  isplitl [H0]; · iexact H0
  isplitl [H1]; · iexact H1
  isplitl [H2]; · iexact H2
  iexists _; iexact H3

set_option maxHeartbeats 8000000 in
theorem sound_finish (c : Dev nD) (t : Fin cfg1.N) (h0 : ¬t.val % 32 = 0) (h1 : t.val % 32 = 31) :
    bodyPre V c t ⊢ wp frame (wpE (defs₀ (F := F)) Variants.none c none) Set.univ (bodyAt1 t) (fun _ => bodyPost V c t) := by
  have hz : t.val ≠ 0 := fun h => h0 (by rw [h])
  unfold bodyPre bodyPost bodyAt1
  rw [cc1_body]
  simp only [before_x, before_w, before_lab]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (msX t) fullShare ((dat V c).after 0 t) from by
    unfold Dat.leavesExact; rw [live_x t], after_x]
  rw [show (dat V c).leavesExact 1 t = owns (c : Thread nD τ) (msW t) fullShare ((dat V c).after 1 t) from by
    unfold Dat.leavesExact; rw [live_w t], after_w]
  rw [show (dat V c).leavesExact 2 t = owns (c : Thread nD τ) (msLab t) fullShare ((dat V c).after 2 t) from by
    unfold Dat.leavesExact; rw [live_lab t], after_lab]
  rw [show (dat V c).leavesExact 3 t = owns (c : Thread nD τ) (msOut t) fullShare ((dat V c).after 3 t) from by
    unfold Dat.leavesExact; rw [live_out t (last_of t h1)], after_out]
  rw [colsAt_finish V c t h0 h1]; dsimp only
  rw [PhiS_castSucc V c t, PhiS_pos V c _ _ hz]
  iintro ⟨⟨⟨HM, HL, HT, Hoth⟩, Hg⟩, Ho, ⟨%d0, H0⟩, ⟨%d1, H1⟩, ⟨%d2, H2⟩, ⟨%d3, H3⟩⟩
  iapply ((finishRun V c t h0 h1 (prevCols V c t)).2.2.2.2 Set.univ _)
  isplitl [H0]; · iexact H0
  isplitl [H1]; · iexact H1
  isplitl [H2]; · iexact H2
  isplitl [H3]; · iexists _; iexact H3
  isplitl [HM]; · iexact HM
  isplitl [HL]; · iexact HL
  isplitl [HT]; · iexact HT
  iintro ⟨H0, H1, H2, H3, HM, HL, HT⟩
  isplitl [HM HL HT Hoth Hg]
  · isplitl [HM HL HT Hoth]
    · isplitl [HM]; · iapply (stores_back c scMax VMax _ (cover_maxFinish c _ _ _ _ _ _ _ _ _ _ _ _ _ _ _ _ _ _ _ _ _ _ _)); iexact HM
      isplitl [HL]; · iapply (stores_back c scSum VSum _ (cover_sumFinish c _ _ _ _ _ _ _ _ _ _ _ _ _ _ _ _ _ _ _ _ _ _ _)); iexact HL
      isplitl [HT]; · iapply (stores_back c scLab VLab _ (cover_labFinish c _ _ _ _ _ _ _ _ _ _ _ _ _ _ _ _ _ _ _ _ _ _ _)); iexact HT
      iexact Hoth
    iexact Hg
  isplitl [Ho]; · iexact Ho
  isplitl [H0]; · iexact H0
  isplitl [H1]; · iexact H1
  isplitl [H2]; · iexact H2
  iapply (stores_back c (msOut t) VOut _ (cover_outFinish c _ _ _ _ _ _ _ _ _ _ _ _ _ _ _ _ _ _ _ _ _ _ _)); iexact H3

-- By the tile number: reset, step or finish.
theorem body_obligation (c : Dev nD) : BodyObligation (dat (F := F) V c) (defs₀ (F := F)) Variants.none () Set.univ := fun t => by
  rw [bigSep_W1, bigSep_W1]
  by_cases h0 : t.val % 32 = 0
  · exact sound_reset V c t h0
  · by_cases h1 : t.val % 32 = 31
    · exact sound_finish V c t h0 h1
    · exact sound_step V c t h0 h1

theorem hin (c : Dev nD) : Pipeline.ΦA spec1 c ⊢ (dat V c).Φ 0 := by
  have h : (dat V c).Φ 0 = Pipeline.ΦA spec1 c := by
    dsimp only [dat]; exact PhiS_zero V c _ _ (Fin.val_zero _)
  rw [h]

theorem Phi_forget (c : Dev nD) (n : ℕ) (h : n ≤ cfg1.N) (hz : n ≠ 0) : PhiS V c n h ⊢ Pipeline.ΦA spec1 c := by
  rw [PhiS_pos V c n h hz]
  iintro ⟨⟨HM, HL, HT, Hoth⟩, Hg⟩
  iapply (PhiA_close c)
  isplitl [HM HL HT Hoth]
  · isplitl [HM]; · iexists _; iexact HM
    isplitl [HL]; · iexists _; iexact HL
    isplitl [HT]; · iexists _; iexact HT
    iexact Hoth
  iexact Hg

theorem hout (c : Dev nD) : (dat V c).Φ (Fin.last cfg1.N) ⊢ Pipeline.ΦA spec1 c := by
  have ht : (Fin.last cfg1.N).val ≠ 0 := by rw [Fin.val_last]; have : cfg1.N = 64 := N_1; omega
  have h : (dat V c).Φ (Fin.last cfg1.N) = PhiS V c (Fin.last cfg1.N).val (Nat.le_of_lt_succ (Fin.last cfg1.N).isLt) := by
    dsimp only [dat]
  rw [h]
  exact Phi_forget V c _ _ ht

end Cert.Kernel.Sweep1

end
-- ==== Proof.Kernel.Whole.lean ====
import proofs.«405262_j58909771432351_3_alg».proof.Proof.Kernel.Sweep0.Body
import proofs.«405262_j58909771432351_3_alg».proof.Proof.Kernel.Sweep1.Body
import proofs.«405262_j58909771432351_3_alg».proof.Proof.Gen.Kernel.Regions

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (Sweep0.dat (V1 m ρ) c).arrAt w cfg0.N
theorem W2_arr (c : Dev nD) (w : Fin cfg0.W) :
    W2 m ρ c (Proc.devRef .tc (Pipeline.arrRef spec0 w)) = (Sweep0.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (Sweep0.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (Sweep1.dat (V3 m ρ) c).arrAt w cfg1.N
theorem W4_arr (c : Dev nD) (w : Fin cfg1.W) :
    W4 m ρ c (Proc.devRef .tc (Pipeline.arrRef spec1 w)) = (Sweep1.dat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (Sweep1.dat (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)

-- A buffer no host operation writes and no sweep changes ends as launched.
theorem W5_keep (c : Dev nD) (b : Ref sig .tc) (h2 : b ∉ hostOps2_W) (h1 : b ∉ hostOps1_W) (h0 : b ∉ hostOps0_W)
    (e4 : W4 m ρ c (Proc.devRef .tc b) = W3 m ρ c (Proc.devRef .tc b)) (e2 : W2 m ρ c (Proc.devRef .tc b) = W1 m ρ c (Proc.devRef .tc b)) :
    W5 m ρ c (Proc.devRef .tc b) = m ((c : Thread nD τ).loc b) :=
  (StableHlo.after_of_writes_sub hostOps2 _ hostOps2_writes h2).trans <| e4.trans <|
    (StableHlo.after_of_writes_sub hostOps1 _ hostOps1_writes h1).trans <| e2.trans <|
      (StableHlo.after_of_writes_sub hostOps0 _ hostOps0_writes h0).trans rfl

theorem W5_main_arg0 (c : Dev nD) : W5 m ρ c (Proc.devRef .tc main_arg0) = m ((c : Thread nD τ).loc main_arg0) :=
  W5_keep m ρ c main_arg0 (by decide) (by decide) (by decide) (W4_of_ne m ρ c main_arg0 (by decide)) (W2_of_ne m ρ c main_arg0 (by decide))

theorem W5_main_arg1 (c : Dev nD) : W5 m ρ c (Proc.devRef .tc main_arg1) = m ((c : Thread nD τ).loc main_arg1) :=
  W5_keep m ρ c main_arg1 (by decide) (by decide) (by decide) (W4_of_ne m ρ c main_arg1 (by decide)) (W2_of_ne m ρ c main_arg1 (by decide))

theorem W5_main_arg2 (c : Dev nD) : W5 m ρ c (Proc.devRef .tc main_arg2) = m ((c : Thread nD τ).loc main_arg2) :=
  W5_keep m ρ c main_arg2 (by decide) (by decide) (by decide) (W4_of_ne m ρ c main_arg2 (by decide)) (W2_of_ne m ρ c main_arg2 (by decide))

theorem W5_main_arg3 (c : Dev nD) : W5 m ρ c (Proc.devRef .tc main_arg3) = m ((c : Thread nD τ).loc main_arg3) :=
  W5_keep m ρ c main_arg3 (by decide) (by decide) (by decide) (W4_of_ne m ρ c main_arg3 (by decide))
    ((W2_arr m ρ c 1).trans (((Sweep0.dat (V1 m ρ) c).arrAt_in 1 rfl _).trans (Sweep0.A_eq (V1 m ρ) c 1)))

theorem W5_main_arg4 (c : Dev nD) : W5 m ρ c (Proc.devRef .tc main_arg4) = m ((c : Thread nD τ).loc main_arg4) :=
  W5_keep m ρ c main_arg4 (by decide) (by decide) (by decide)
    ((W4_arr m ρ c 1).trans (((Sweep1.dat (V3 m ρ) c).arrAt_in 1 rfl _).trans (Sweep1.A_eq (V3 m ρ) c 1))) (W2_of_ne m ρ c main_arg4 (by decide))

abbrev adm : (p : Fin 2) → (pcfgs (F := F) p).Adm := fun p => (cfgs p).toPCfg_adm

def pdats : (p : Fin 2) → (c : Dev nD) → Dat τ (Elt F) Unit ℕ (UR sig nD τ) ℕ (Pipeline.pin (pcfgs (F := F)) adm p) c
  | ⟨0, _⟩ => fun c => Sweep0.dat (V1 m ρ) c
  | ⟨1, _⟩ => fun c => Sweep1.dat (V3 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W5 m ρ c) ∗ ∃ r, prngReg c r)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Sweep0.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (pdats m ρ 0 c).Φ 0 = (Sweep0.dat (V1 m ρ) c).Φ 0 := rfl
    rw [h]
    iintro ⟨Hp, -, Hr⟩
    iapply (Sweep0.hin (V1 m ρ) c)
    unfold Pipeline.ΦA
    isplitl [Hr]; · iexact Hr
    iexact Hp
  hout c := by
    have h : (pdats m ρ 0 c).Φ (Fin.last _) = (Sweep0.dat (V1 m ρ) c).Φ (Fin.last cfg0.N) := rfl
    rw [Pipeline.ownSems0_none, h]
    iintro HΦ
    ihave H := (Sweep0.hout (V1 m ρ) c) $$ HΦ
    unfold Pipeline.ΦA
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Sweep1.body_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (pdats m ρ 1 c).Φ 0 = (Sweep1.dat (V3 m ρ) c).Φ 0 := rfl
    rw [h]
    iintro ⟨Hp, -, Hr⟩
    iapply (Sweep1.hin (V3 m ρ) c)
    unfold Pipeline.ΦA
    isplitl [Hr]; · iexact Hr
    iexact Hp
  hout c := by
    have h : (pdats m ρ 1 c).Φ (Fin.last _) = (Sweep1.dat (V3 m ρ) c).Φ (Fin.last cfg1.N) := rfl
    rw [Pipeline.ownSems0_none, h]
    iintro HΦ
    ihave H := (Sweep1.hout (V3 m ρ) c) $$ HΦ
    unfold Pipeline.ΦA
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

-- @main is host operations, the first sweep, host operations, the second sweep, host operations.
theorem main_run (c : Dev nD) : main (F := F) c = Pipeline.Seg.run (segs m ρ) := (main_chain c).trans (by chain_rfl)

set_option backward.isDefEq.respectTransparency.types false in
theorem run : θ_run defs (onTc (τ := τ) (main (F := F))) ⟨m, fun _ => 0, ρ⟩ (fun r => ∀ c : Dev nD,
      r.2.mem ((c.tc : Thread nD τ).loc main_v0) = W5 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v0 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run m ρ)

end Cert.Kernel.Whole

end
-- ==== Proof.KernelIdeal.Tile.Run.lean ====
import proofs.«405262_j58909771432351_3_alg».proof.Proof.Gen.KernelIdeal.Launch
import proofs.«405262_j58909771432351_3_alg».proof.Proof.Gen.KernelIdeal.Skeleton
import proofs.«405262_j58909771432351_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The body branches twice on the vocabulary tile alone: tile 0 resets the running columns, the last tile writes the result.
abbrev isFirst (i : grid0.Coords) : Prop := (Scalar.cmpi .ne (Scalar.extui (Scalar.cmpi .eq (BitVec.ofNat 32 (i 1).val) 0#32)) 0#32) = 1#1
abbrev isLast (i : grid0.Coords) : Prop := k0_cond2 i = 1#1

variable (c : Dev nD) (i : grid0.Coords) (arg2 : Memref sig .tc .vmem S1024x2048 .bf16) (harg2 : arg2.IsWhole) (arg3 : Memref sig .tc .vmem S1000x2048 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole)

-- Both calls run this one body: the second call's kernel unfolds to the first's.
noncomputable def body : Prog (TpuEff nD τ sig (Elt F) Λ₀ .tc) PUnit := cc0__lmhead_logp_kernel i arg2 harg2 arg3 harg3 arg4 harg4 arg5 harg5 arg6 harg6 arg7 harg7 arg8 harg8

theorem cc0_body : cc0__lmhead_logp_kernel i arg2 harg2 arg3 harg3 arg4 harg4 arg5 harg5 arg6 harg6 arg7 harg7 arg8 harg8 = body (F := F) i arg2 harg2 arg3 harg3 arg4 harg4 arg5 harg5 arg6 harg6 arg7 harg7 arg8 harg8 := rfl

theorem cc1_body : cc1__lmhead_logp_kernel i arg2 harg2 arg3 harg3 arg4 harg4 arg5 harg5 arg6 harg6 arg7 harg7 arg8 harg8 = body (F := F) i arg2 harg2 arg3 harg3 arg4 harg4 arg5 harg5 arg6 harg6 arg7 harg7 arg8 harg8 := rfl

-- At tile 0 the running columns are overwritten before they are read, so on entry they may hold anything.
set_option maxHeartbeats 4000000 in
noncomputable def runReset (hc0 : isFirst i) (hc1 : ¬isLast i)
    (x0 : Vec F S1024x2048 .bf16) (x1 : Vec F S1000x2048 .f32) (x2 : Vec F S1024x1 .i32) :
    Σ' (LM : List (View.Piece (Elt F) S1024x1 .f32)) (LS : List (View.Piece (Elt F) S1024x1 .f32)), { LT : List (View.Piece (Elt F) S1024x1 .f32) //
      ∀ (xo : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xo ∗ (∃ f, arg6.view.loc (c : Thread nD τ) ↦[arg6.view.set]{fullShare} arg6.view.writes (Elt F) f LM) ∗ (∃ f, arg7.view.loc (c : Thread nD τ) ↦[arg7.view.set]{fullShare} arg7.view.writes (Elt F) f LS) ∗ (∃ f, arg8.view.loc (c : Thread nD τ) ↦[arg8.view.set]{fullShare} arg8.view.writes (Elt F) f LT)) -∗ K ⟨⟩))
          ⊢ wp frame (wpE (defs₀ (F := F)) Variants.none c none) E (body i arg2 harg2 arg3 harg3 arg4 harg4 arg5 harg5 arg6 harg6 arg7 harg7 arg8 harg8) K } := by
  refine ⟨?_, ?_, ?_, fun xo E K => ?run⟩
  case run =>
    unfold body; simp only [cc0__lmhead_logp_kernel_eq_skeleton]; unfold cc0__lmhead_logp_kernel_skel
    simp only [k0_part1_eq_skeleton]
    unfold owns
    iintro ⟨⟨%f0, %hf0, H0⟩, ⟨%f1, %hf1, H1⟩, ⟨%f2, %hf2, H2⟩, ⟨%f3, %hf3, H3⟩, ⟨%dm, %fm, -, HM⟩, ⟨%dl, %fl, -, HL⟩, ⟨%dt, %ft, -, HT⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HM]; · iexists _; iexact HM
    isplitl [HL]; · iexists _; iexact HL
    iexists _; iexact HT

set_option maxHeartbeats 4000000 in
noncomputable def runStep (hc0 : ¬isFirst i) (hc1 : ¬isLast i)
    (x0 : Vec F S1024x2048 .bf16) (x1 : Vec F S1000x2048 .f32) (x2 : Vec F S1024x1 .i32) (xm xl xt : Vec F S1024x1 .f32) :
    Σ' (LM : List (View.Piece (Elt F) S1024x1 .f32)) (LS : List (View.Piece (Elt F) S1024x1 .f32)), { LT : List (View.Piece (Elt F) S1024x1 .f32) //
      ∀ (xo : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare xm ∗ owns (c : Thread nD τ) arg7 fullShare xl ∗ owns (c : Thread nD τ) arg8 fullShare xt
            ∗ (iprop(owns (c : Thread nD τ) arg2 fullShare x0 ∗ owns (c : Thread nD τ) arg3 fullShare x1 ∗ owns (c : Thread nD τ) arg4 fullShare x2 ∗ owns (c : Thread nD τ) arg5 fullShare xo ∗ (∃ f, arg6.view.loc (c : Thread nD τ) ↦[arg6.view.set]{fullShare} arg6.view.writes (Elt F) f LM) ∗ (∃ f, arg7.view.loc (c : Thread nD τ) ↦[arg7.view.set]{fullShare} arg7.view.writes (Elt F) f LS) ∗ (∃ f, arg8.view.loc (c : Thread nD τ) ↦[arg8.view.set]{fullShare} arg8.view.writes (Elt F) f LT)) -∗ K ⟨⟩))
          ⊢ wp frame (wpE (defs₀ (F := F)) Variants.none c none) E (body i arg2 harg2 arg3 harg3 arg4 harg4 arg5 harg5 arg6 harg6 arg7 harg7 arg8 harg8) K } := by
  refine ⟨?_, ?_, ?_, fun xo E K => ?run⟩
  case run =>
    unfold body; simp only [cc0__lmhead_logp_kernel_eq_skeleton]; unfold cc0__lmhead_logp_kernel_skel
    simp only [k0_part1_eq_skeleton]
    unfold owns
    iintro ⟨⟨%f0, %hf0, H0⟩, ⟨%f1, %hf1, H1⟩, ⟨%f2, %hf2, H2⟩, ⟨%f3, %hf3, H3⟩, ⟨%fm, %hfm, HM⟩, ⟨%fl, %hfl, HL⟩, ⟨%ft, %hft, HT⟩, Hk⟩
    obtain rfl := harg2.eq_unread hf0; obtain rfl := harg3.eq_unread hf1; obtain rfl := harg4.eq_unread hf2; obtain rfl := harg5.eq_unread hf3
    obtain rfl := harg6.eq_unread hfm; obtain rfl := harg7.eq_unread hfl; obtain rfl := harg8.eq_unread hft
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HM]; · iexists _; iexact HM
    isplitl [HL]; · iexists _; iexact HL
    iexists _; iexact HT

set_option maxHeartbeats 4000000 in
noncomputable def runFinish (hc0 : ¬isFirst i) (hc1 : isLast i)
    (x0 : Vec F S1024x2048 .bf16) (x1 : Vec F S1000x2048 .f32) (x2 : Vec F S1024x1 .i32) (xm xl xt : Vec F S1024x1 .f32) :
    Σ' (LO : List (View.Piece (Elt F) S1024x1 .f32)) (LM : List (View.Piece (Elt F) S1024x1 .f32)) (LS : List (View.Piece (Elt F) S1024x1 .f32)), { LT : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xm ∗ owns (c : Thread nD τ) arg7 fullShare xl ∗ owns (c : Thread nD τ) arg8 fullShare xt
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LM) ∗ (∃ f, arg7.view.loc (c : Thread nD τ) ↦[arg7.view.set]{fullShare} arg7.view.writes (Elt F) f LS) ∗ (∃ f, arg8.view.loc (c : Thread nD τ) ↦[arg8.view.set]{fullShare} arg8.view.writes (Elt F) f LT)) -∗ K ⟨⟩))
          ⊢ wp frame (wpE (defs₀ (F := F)) Variants.none c none) E (body i arg2 harg2 arg3 harg3 arg4 harg4 arg5 harg5 arg6 harg6 arg7 harg7 arg8 harg8) K } := by
  refine ⟨?_, ?_, ?_, ?_, fun E K => ?run⟩
  case run =>
    unfold body; simp only [cc0__lmhead_logp_kernel_eq_skeleton]; unfold cc0__lmhead_logp_kernel_skel
    simp only [k0_part1_eq_skeleton]
    unfold owns
    iintro ⟨⟨%f0, %hf0, H0⟩, ⟨%f1, %hf1, H1⟩, ⟨%f2, %hf2, H2⟩, ⟨%d3, %f3, -, H3⟩, ⟨%fm, %hfm, HM⟩, ⟨%fl, %hfl, HL⟩, ⟨%ft, %hft, HT⟩, Hk⟩
    obtain rfl := harg2.eq_unread hf0; obtain rfl := harg3.eq_unread hf1; obtain rfl := harg4.eq_unread hf2
    obtain rfl := harg6.eq_unread hfm; obtain rfl := harg7.eq_unread hfl; obtain rfl := harg8.eq_unread hft
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HM]; · iexists _; iexact HM
    isplitl [HL]; · iexists _; iexact HL
    iexists _; iexact HT

-- What a whole column holds after the stores `L`, read through `W`.
def back (W : View sig .tc .vmem S1024x1 .f32) (L : List (View.Piece (Elt F) S1024x1 .f32)) : Vec F S1024x1 .f32 :=
  W.read (Elt F) (W.writes (Elt F) W.junk L)

section
variable (hc0 : isFirst i) (hc1 : ¬isLast i) (x0 : Vec F S1024x2048 .bf16) (x1 : Vec F S1000x2048 .f32) (x2 : Vec F S1024x1 .i32)

theorem cover_maxReset (y : S1024x1.Idx) :
    ∃ pc ∈ (runReset c i arg2 harg2 arg3 harg3 arg4 harg4 arg5 harg5 arg6 harg6 arg7 harg7 arg8 harg8 hc0 hc1 x0 x1 x2).1, y ∈ pc.1.set :=
  View.cover_of_tiledL _ S1024x1.size (by sl_kernel_rfl) y

theorem cover_sumReset (y : S1024x1.Idx) :
    ∃ pc ∈ (runReset c i arg2 harg2 arg3 harg3 arg4 harg4 arg5 harg5 arg6 harg6 arg7 harg7 arg8 harg8 hc0 hc1 x0 x1 x2).2.1, y ∈ pc.1.set :=
  View.cover_of_tiledL _ S1024x1.size (by sl_kernel_rfl) y

theorem cover_labReset (y : S1024x1.Idx) :
    ∃ pc ∈ (runReset c i arg2 harg2 arg3 harg3 arg4 harg4 arg5 harg5 arg6 harg6 arg7 harg7 arg8 harg8 hc0 hc1 x0 x1 x2).2.2.1, y ∈ pc.1.set :=
  View.cover_of_tiledL _ S1024x1.size (by sl_kernel_rfl) y

end

section
variable (hc0 : ¬isFirst i) (hc1 : ¬isLast i) (x0 : Vec F S1024x2048 .bf16) (x1 : Vec F S1000x2048 .f32) (x2 : Vec F S1024x1 .i32) (xm xl xt : Vec F S1024x1 .f32)

theorem cover_maxStep (y : S1024x1.Idx) :
    ∃ pc ∈ (runStep c i arg2 harg2 arg3 harg3 arg4 harg4 arg5 harg5 arg6 harg6 arg7 harg7 arg8 harg8 hc0 hc1 x0 x1 x2 xm xl xt).1, y ∈ pc.1.set :=
  View.cover_of_tiledL _ S1024x1.size (by sl_kernel_rfl) y

theorem cover_sumStep (y : S1024x1.Idx) :
    ∃ pc ∈ (runStep c i arg2 harg2 arg3 harg3 arg4 harg4 arg5 harg5 arg6 harg6 arg7 harg7 arg8 harg8 hc0 hc1 x0 x1 x2 xm xl xt).2.1, y ∈ pc.1.set :=
  View.cover_of_tiledL _ S1024x1.size (by sl_kernel_rfl) y

theorem cover_labStep (y : S1024x1.Idx) :
    ∃ pc ∈ (runStep c i arg2 harg2 arg3 harg3 arg4 harg4 arg5 harg5 arg6 harg6 arg7 harg7 arg8 harg8 hc0 hc1 x0 x1 x2 xm xl xt).2.2.1, y ∈ pc.1.set :=
  View.cover_of_tiledL _ S1024x1.size (by sl_kernel_rfl) y

end

section
variable (hc0 : ¬isFirst i) (hc1 : isLast i) (x0 : Vec F S1024x2048 .bf16) (x1 : Vec F S1000x2048 .f32) (x2 : Vec F S1024x1 .i32) (xm xl xt : Vec F S1024x1 .f32)

theorem cover_outFinish (y : S1024x1.Idx) :
    ∃ pc ∈ (runFinish c i arg2 harg2 arg3 harg3 arg4 harg4 arg5 harg5 arg6 harg6 arg7 harg7 arg8 harg8 hc0 hc1 x0 x1 x2 xm xl xt).1, y ∈ pc.1.set :=
  View.cover_of_tiledL _ S1024x1.size (by sl_kernel_rfl) y

theorem cover_maxFinish (y : S1024x1.Idx) :
    ∃ pc ∈ (runFinish c i arg2 harg2 arg3 harg3 arg4 harg4 arg5 harg5 arg6 harg6 arg7 harg7 arg8 harg8 hc0 hc1 x0 x1 x2 xm xl xt).2.1, y ∈ pc.1.set :=
  View.cover_of_tiledL _ S1024x1.size (by sl_kernel_rfl) y

theorem cover_sumFinish (y : S1024x1.Idx) :
    ∃ pc ∈ (runFinish c i arg2 harg2 arg3 harg3 arg4 harg4 arg5 harg5 arg6 harg6 arg7 harg7 arg8 harg8 hc0 hc1 x0 x1 x2 xm xl xt).2.2.1, y ∈ pc.1.set :=
  View.cover_of_tiledL _ S1024x1.size (by sl_kernel_rfl) y

theorem cover_labFinish (y : S1024x1.Idx) :
    ∃ pc ∈ (runFinish c i arg2 harg2 arg3 harg3 arg4 harg4 arg5 harg5 arg6 harg6 arg7 harg7 arg8 harg8 hc0 hc1 x0 x1 x2 xm xl xt).2.2.2.1, y ∈ pc.1.set :=
  View.cover_of_tiledL _ S1024x1.size (by sl_kernel_rfl) y

end

end Cert.KernelIdeal.Tile

end
-- ==== Proof.KernelIdeal.Sweep0.Cases.lean ====
import proofs.«405262_j58909771432351_3_alg».proof.Proof.KernelIdeal.Tile.Run

set_option maxRecDepth 16384

noncomputable section

namespace Cert.KernelIdeal.Sweep0

open Cert.KernelIdeal Cert.KernelIdeal.Gen Cert.KernelIdeal.Tile
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before_x_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_w_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_lab_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem isFirst_iff : ∀ t : Fin cfg0.N, isFirst (grid0.coords t) ↔ t.val % 32 = 0 :=
  (by decide +kernel : ∀ t : Fin grid0.N, isFirst (grid0.coords t) ↔ t.val % 32 = 0)

theorem isLast_iff : ∀ t : Fin cfg0.N, isLast (grid0.coords t) ↔ t.val % 32 = 31 :=
  (by decide +kernel : ∀ t : Fin grid0.N, isLast (grid0.coords t) ↔ t.val % 32 = 31)

theorem live_x : ∀ t : Fin cfg0.N, cfg0.idle 0 (grid0.coords t) = false := by decide +kernel
theorem live_w : ∀ t : Fin cfg0.N, cfg0.idle 1 (grid0.coords t) = false := by decide +kernel
theorem live_lab : ∀ t : Fin cfg0.N, cfg0.idle 2 (grid0.coords t) = false := by decide +kernel

theorem idle_out : ∀ t : Fin cfg0.N, ¬isLast (grid0.coords t) → cfg0.idle 3 (grid0.coords t) = true := by decide +kernel

theorem noFlush_out : ∀ t : Fin cfg0.N, ¬isLast (grid0.coords t) → (cfg0.win 3).flush t = false := by decide +kernel

theorem live_out : ∀ t : Fin cfg0.N, isLast (grid0.coords t) → cfg0.idle 3 (grid0.coords t) = false := by decide +kernel

abbrev VOut : View sig .tc .vmem S1024x1 .f32 := (Memref.whole cc0_stg3_0 : Memref sig .tc .vmem S1024x1 .f32).view

abbrev msX (t : Fin cfg0.N) : Memref sig .tc .vmem S1024x2048 .bf16 := win0_0.stage (cfg0.slots t 0)
abbrev hsX (t : Fin cfg0.N) : (msX t).IsWhole := hstage0_0 ((cfg0.slots t 0).cast nbuf0_0)
abbrev msW (t : Fin cfg0.N) : Memref sig .tc .vmem S1000x2048 .f32 := win0_1.stage (cfg0.slots t 1)
abbrev hsW (t : Fin cfg0.N) : (msW t).IsWhole := hstage0_1 ((cfg0.slots t 1).cast nbuf0_1)
abbrev msLab (t : Fin cfg0.N) : Memref sig .tc .vmem S1024x1 .i32 := win0_2.stage (cfg0.slots t 2)
abbrev hsLab (t : Fin cfg0.N) : (msLab t).IsWhole := hstage0_2 ((cfg0.slots t 2).cast nbuf0_2)
abbrev msOut (t : Fin cfg0.N) : Memref sig .tc .vmem S1024x1 .f32 := win0_3.stage (cfg0.slots t 3)
abbrev hsOut (t : Fin cfg0.N) : (msOut t).IsWhole := hstage0_3 ((cfg0.slots t 3).cast nbuf0_3)

abbrev scMax : Memref sig .tc .vmem S1024x1 .f32 := Memref.whole cc0_scratch0
abbrev scSum : Memref sig .tc .vmem S1024x1 .f32 := Memref.whole cc0_scratch1
abbrev scLab : Memref sig .tc .vmem S1024x1 .f32 := Memref.whole cc0_scratch2
abbrev VMax : View sig .tc .vmem S1024x1 .f32 := scMax.view
abbrev VSum : View sig .tc .vmem S1024x1 .f32 := scSum.view
abbrev VLab : View sig .tc .vmem S1024x1 .f32 := scLab.view

end Cert.KernelIdeal.Sweep0

end
-- ==== Proof.KernelIdeal.Sweep0.Scoped.lean ====
import proofs.«405262_j58909771432351_3_alg».proof.Proof.KernelIdeal.Sweep0.Cases

set_option maxRecDepth 16384

noncomputable section

namespace Cert.KernelIdeal.Sweep0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f))

theorem PhiA_eq (c : Dev nD) :
    (Pipeline.ΦA spec0 c : sProp 𝕄)
      = iprop(iprop((∃ d, owns (c : Thread nD τ) scMax fullShare d) ∗ (∃ d, owns (c : Thread nD τ) scSum fullShare d) ∗ (∃ d, owns (c : Thread nD τ) scLab fullShare d) ∗ others (F := F) c) ∗ (∃ r, prngReg c r)) := by
  unfold Pipeline.ΦA others; rw [scopedRest0_eq]; simp only [scMax, scSum, scLab, owns_whole]; try rfl

theorem PhiA_open (c : Dev nD) :
    (Pipeline.ΦA spec0 c : sProp 𝕄)
      ⊢ iprop(iprop((∃ d, owns (c : Thread nD τ) scMax fullShare d) ∗ (∃ d, owns (c : Thread nD τ) scSum fullShare d) ∗ (∃ d, owns (c : Thread nD τ) scLab fullShare d) ∗ others (F := F) c) ∗ (∃ r, prngReg c r)) := by
  rw [PhiA_eq]

theorem PhiA_close (c : Dev nD) :
    iprop(iprop((∃ d, owns (c : Thread nD τ) scMax fullShare d) ∗ (∃ d, owns (c : Thread nD τ) scSum fullShare d) ∗ (∃ d, owns (c : Thread nD τ) scLab fullShare d) ∗ others (F := F) c) ∗ (∃ r, prngReg c r))
      ⊢ (Pipeline.ΦA spec0 c : sProp 𝕄) := by
  rw [PhiA_eq]

end Cert.KernelIdeal.Sweep0

end
-- ==== Proof.KernelIdeal.Sweep0.Carry.lean ====
import proofs.«405262_j58909771432351_3_alg».proof.Proof.KernelIdeal.Sweep0.Scoped

set_option maxRecDepth 16384

noncomputable section

namespace Cert.KernelIdeal.Sweep0

open Cert.KernelIdeal Cert.KernelIdeal.Gen Cert.KernelIdeal.Tile
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem first_of (t : Fin cfg0.N) (h0 : t.val % 32 = 0) : isFirst (grid0.coords t) := (isFirst_iff t).mpr h0
theorem notFirst_of (t : Fin cfg0.N) (h0 : ¬t.val % 32 = 0) : ¬isFirst (grid0.coords t) := fun h => h0 ((isFirst_iff t).mp h)
theorem last_of (t : Fin cfg0.N) (h1 : t.val % 32 = 31) : isLast (grid0.coords t) := (isLast_iff t).mpr h1
theorem notLast_of (t : Fin cfg0.N) (h1 : ¬t.val % 32 = 31) : ¬isLast (grid0.coords t) := fun h => h1 ((isLast_iff t).mp h)
theorem notLast_of_first (t : Fin cfg0.N) (h0 : t.val % 32 = 0) : ¬isLast (grid0.coords t) :=
  notLast_of t (by omega)

def noOut : Vec F S1024x1 .f32 := VOut.read (Elt F) VOut.junk

abbrev resetRun (c : Dev nD) (t : Fin cfg0.N) (h0 : t.val % 32 = 0) :=
  runReset c (grid0.coords t) (msX t) (hsX t) (msW t) (hsW t) (msLab t) (hsLab t) (msOut t) (hsOut t) scMax (Memref.isWhole_whole _) scSum (Memref.isWhole_whole _) scLab (Memref.isWhole_whole _) (first_of t h0) (notLast_of_first t h0) (iblk V c 0 t) (iblk V c 1 t) (iblk V c 2 t)

abbrev stepRun (c : Dev nD) (t : Fin cfg0.N) (h0 : ¬t.val % 32 = 0) (h1 : ¬t.val % 32 = 31) (p : Vec F S1024x1 .f32 × Vec F S1024x1 .f32 × Vec F S1024x1 .f32) :=
  runStep c (grid0.coords t) (msX t) (hsX t) (msW t) (hsW t) (msLab t) (hsLab t) (msOut t) (hsOut t) scMax (Memref.isWhole_whole _) scSum (Memref.isWhole_whole _) scLab (Memref.isWhole_whole _) (notFirst_of t h0) (notLast_of t h1) (iblk V c 0 t) (iblk V c 1 t) (iblk V c 2 t) p.1 p.2.1 p.2.2

abbrev finishRun (c : Dev nD) (t : Fin cfg0.N) (h0 : ¬t.val % 32 = 0) (h1 : t.val % 32 = 31) (p : Vec F S1024x1 .f32 × Vec F S1024x1 .f32 × Vec F S1024x1 .f32) :=
  runFinish c (grid0.coords t) (msX t) (hsX t) (msW t) (hsW t) (msLab t) (hsLab t) (msOut t) (hsOut t) scMax (Memref.isWhole_whole _) scSum (Memref.isWhole_whole _) scLab (Memref.isWhole_whole _) (notFirst_of t h0) (last_of t h1) (iblk V c 0 t) (iblk V c 1 t) (iblk V c 2 t) p.1 p.2.1 p.2.2

def caseAt (c : Dev nD) (t : Fin cfg0.N) (p : Vec F S1024x1 .f32 × Vec F S1024x1 .f32 × Vec F S1024x1 .f32) : Vec F S1024x1 .f32 × Vec F S1024x1 .f32 × Vec F S1024x1 .f32 × Vec F S1024x1 .f32 :=
  if h0 : t.val % 32 = 0 then (noOut, back VMax (resetRun V c t h0).1, back VSum (resetRun V c t h0).2.1, back VLab (resetRun V c t h0).2.2.1)
  else if h1 : t.val % 32 = 31 then (back VOut (finishRun V c t h0 h1 p).1, back VMax (finishRun V c t h0 h1 p).2.1, back VSum (finishRun V c t h0 h1 p).2.2.1, back VLab (finishRun V c t h0 h1 p).2.2.2.1)
  else (noOut, back VMax (stepRun V c t h0 h1 p).1, back VSum (stepRun V c t h0 h1 p).2.1, back VLab (stepRun V c t h0 h1 p).2.2.1)

-- The recursion over the 64 points: tile 0 resets, a later tile steps over what the point before left, the last tile also gives the output block.
def colsAt (c : Dev nD) : (n : ℕ) → n < cfg0.N → Vec F S1024x1 .f32 × Vec F S1024x1 .f32 × Vec F S1024x1 .f32 × Vec F S1024x1 .f32
  | 0, hn => caseAt V c ⟨0, hn⟩ (noOut, noOut, noOut)
  | n + 1, hn => caseAt V c ⟨n + 1, hn⟩ (colsAt c n (Nat.lt_of_succ_lt hn)).2

abbrev prevCols (c : Dev nD) (t : Fin cfg0.N) : Vec F S1024x1 .f32 × Vec F S1024x1 .f32 × Vec F S1024x1 .f32 :=
  (colsAt V c (t.val - 1) (Nat.lt_of_le_of_lt (Nat.sub_le _ _) t.isLt)).2

theorem colsAt_zero (c : Dev nD) (hn : 0 < cfg0.N) : colsAt V c 0 hn = caseAt V c ⟨0, hn⟩ (noOut, noOut, noOut) := rfl
theorem colsAt_succ (c : Dev nD) (n : ℕ) (hn : n + 1 < cfg0.N) :
    colsAt V c (n + 1) hn = caseAt V c ⟨n + 1, hn⟩ (colsAt V c n (Nat.lt_of_succ_lt hn)).2 := rfl

theorem colsAt_reset (c : Dev nD) (t : Fin cfg0.N) (h0 : t.val % 32 = 0) :
    colsAt V c t.val t.isLt = (noOut, back VMax (resetRun V c t h0).1, back VSum (resetRun V c t h0).2.1, back VLab (resetRun V c t h0).2.2.1) := by
  obtain ⟨n, hn⟩ := t
  cases n with
  | zero => exact (colsAt_zero V c hn).trans (by unfold caseAt; exact dif_pos h0)
  | succ n => exact (colsAt_succ V c n hn).trans (by unfold caseAt; exact dif_pos h0)

theorem colsAt_step (c : Dev nD) (t : Fin cfg0.N) (h0 : ¬t.val % 32 = 0) (h1 : ¬t.val % 32 = 31) :
    colsAt V c t.val t.isLt = (noOut, back VMax (stepRun V c t h0 h1 (prevCols V c t)).1, back VSum (stepRun V c t h0 h1 (prevCols V c t)).2.1, back VLab (stepRun V c t h0 h1 (prevCols V c t)).2.2.1) := by
  obtain ⟨n, hn⟩ := t
  cases n with
  | zero => exact absurd (Nat.zero_mod _) h0
  | succ n => exact (colsAt_succ V c n hn).trans (by unfold caseAt; exact (dif_neg h0).trans ((dif_neg h1).trans rfl))

theorem colsAt_finish (c : Dev nD) (t : Fin cfg0.N) (h0 : ¬t.val % 32 = 0) (h1 : t.val % 32 = 31) :
    colsAt V c t.val t.isLt = (back VOut (finishRun V c t h0 h1 (prevCols V c t)).1, back VMax (finishRun V c t h0 h1 (prevCols V c t)).2.1, back VSum (finishRun V c t h0 h1 (prevCols V c t)).2.2.1, back VLab (finishRun V c t h0 h1 (prevCols V c t)).2.2.2.1) := by
  obtain ⟨n, hn⟩ := t
  cases n with
  | zero => exact absurd (Nat.zero_mod _) h0
  | succ n => exact (colsAt_succ V c n hn).trans (by unfold caseAt; exact (dif_neg h0).trans ((dif_pos h1).trans rfl))

-- Between two points the three running columns hold exactly what the point before left (before the first point: anything).
def PhiS (c : Dev nD) : (n : ℕ) → n ≤ cfg0.N → sProp 𝕄
  | 0, _ => Pipeline.ΦA spec0 c
  | n + 1, hn => iprop(iprop(owns (c : Thread nD τ) scMax fullShare ((colsAt V c n hn).2.1) ∗ owns (c : Thread nD τ) scSum fullShare ((colsAt V c n hn).2.2.1) ∗ owns (c : Thread nD τ) scLab fullShare ((colsAt V c n hn).2.2.2) ∗ others (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scMax fullShare ((colsAt V c n hn).2.1) ∗ owns (c : Thread nD τ) scSum fullShare ((colsAt V c n hn).2.2.1) ∗ owns (c : Thread nD τ) scLab fullShare ((colsAt V c n hn).2.2.2) ∗ others (F := F) c) ∗ (∃ r, prngReg c r)) := rfl

theorem PhiS_pos (c : Dev nD) (n : ℕ) (h : n ≤ cfg0.N) (hz : n ≠ 0) :
    PhiS V c n h = iprop(iprop(owns (c : Thread nD τ) scMax fullShare ((colsAt V c (n - 1) (by omega)).2.1) ∗ owns (c : Thread nD τ) scSum fullShare ((colsAt V c (n - 1) (by omega)).2.2.1) ∗ owns (c : Thread nD τ) scLab fullShare ((colsAt V c (n - 1) (by omega)).2.2.2) ∗ others (F := F) c) ∗ (∃ r, prngReg c r)) := by
  cases n with
  | zero => exact absurd rfl hz
  | succ n => rfl

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => (colsAt V c t.val t.isLt).1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after_x (c : Dev nD) (t : Fin cfg0.N) : (dat V c).after 0 t = iblk V c 0 t := by dsimp only [dat]
theorem after_w (c : Dev nD) (t : Fin cfg0.N) : (dat V c).after 1 t = iblk V c 1 t := by dsimp only [dat]
theorem after_lab (c : Dev nD) (t : Fin cfg0.N) : (dat V c).after 2 t = iblk V c 2 t := by dsimp only [dat]
theorem after_out (c : Dev nD) (t : Fin cfg0.N) : (dat V c).after 3 t = (colsAt V c t.val t.isLt).1 := by dsimp only [dat]

theorem before_x (c : Dev nD) (t : Fin cfg0.N) (d) : (dat V c).before 0 t d = iblk V c 0 t :=
  before_x_of V (dat V c) (A_eq V c 0) (after_x V c) t d
theorem before_w (c : Dev nD) (t : Fin cfg0.N) (d) : (dat V c).before 1 t d = iblk V c 1 t :=
  before_w_of V (dat V c) (A_eq V c 1) (after_w V c) t d
theorem before_lab (c : Dev nD) (t : Fin cfg0.N) (d) : (dat V c).before 2 t d = iblk V c 2 t :=
  before_lab_of V (dat V c) (A_eq V c 2) (after_lab V c) t d

end Cert.KernelIdeal.Sweep0

end
-- ==== Proof.KernelIdeal.Sweep0.Body.lean ====
import proofs.«405262_j58909771432351_3_alg».proof.Proof.KernelIdeal.Sweep0.Carry

set_option maxRecDepth 16384

noncomputable section

namespace Cert.KernelIdeal.Sweep0

open Cert.KernelIdeal Cert.KernelIdeal.Gen Cert.KernelIdeal.Tile
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem stores_back (c : Dev nD) (sc : Memref sig .tc .vmem S1024x1 .f32) (W : View sig .tc .vmem S1024x1 .f32)
    (L : List (View.Piece (Elt F) S1024x1 .f32)) (hcov : ∀ y : S1024x1.Idx, ∃ pc ∈ L, y ∈ pc.1.set) :
    (iprop(∃ f, sc.view.loc (c : Thread nD τ) ↦[sc.view.set]{fullShare} sc.view.writes (Elt F) f L) : sProp 𝕄)
      ⊢ owns (c : Thread nD τ) sc fullShare (back W L) := by
  iintro ⟨%e, H⟩
  unfold owns back; iexists _; isplitr
  swap; · iexact H
  ipureintro; exact View.read_writes_of_cover _ _ _ _ _ hcov

def bodyPre (c : Dev nD) (t : Fin cfg0.N) : sProp 𝕄 :=
  iprop((dat V c).Φ t.castSucc ∗ (dat V c).owesAt () t.castSucc
    ∗ (∃ d, owns (c : Thread nD τ) (msX t) fullShare ((dat V c).before 0 t d))
    ∗ (∃ d, owns (c : Thread nD τ) (msW t) fullShare ((dat V c).before 1 t d))
    ∗ (∃ d, owns (c : Thread nD τ) (msLab t) fullShare ((dat V c).before 2 t d))
    ∗ (∃ d, owns (c : Thread nD τ) (msOut t) fullShare ((dat V c).before 3 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

theorem Phi_any (c : Dev nD) (t : Fin cfg0.N) :
    (dat V c).Φ t.castSucc
      ⊢ iprop(iprop((∃ d, owns (c : Thread nD τ) scMax fullShare d) ∗ (∃ d, owns (c : Thread nD τ) scSum fullShare d) ∗ (∃ d, owns (c : Thread nD τ) scLab fullShare d) ∗ others (F := F) c) ∗ (∃ r, prngReg c r)) := by
  rw [PhiS_castSucc V c t]
  by_cases hz : t.val = 0
  · rw [PhiS_zero V c _ _ hz]; exact PhiA_open c
  · rw [PhiS_pos V c _ _ hz]
    iintro ⟨⟨HM, HL, HT, Hoth⟩, Hg⟩
    isplitl [HM HL HT Hoth]
    · isplitl [HM]; · iexists _; iexact HM
      isplitl [HL]; · iexists _; iexact HL
      isplitl [HT]; · iexists _; iexact HT
      iexact Hoth
    iexact Hg

set_option maxHeartbeats 8000000 in
theorem sound_reset (c : Dev nD) (t : Fin cfg0.N) (h0 : t.val % 32 = 0) :
    bodyPre V c t ⊢ wp frame (wpE (defs₀ (F := F)) Variants.none c none) Set.univ (bodyAt0 t) (fun _ => bodyPost V c t) := by
  unfold bodyPre bodyPost bodyAt0
  rw [cc0_body]
  simp only [before_x, before_w, before_lab]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (msX t) fullShare ((dat V c).after 0 t) from by
    unfold Dat.leavesExact; rw [live_x t], after_x]
  rw [show (dat V c).leavesExact 1 t = owns (c : Thread nD τ) (msW t) fullShare ((dat V c).after 1 t) from by
    unfold Dat.leavesExact; rw [live_w t], after_w]
  rw [show (dat V c).leavesExact 2 t = owns (c : Thread nD τ) (msLab t) fullShare ((dat V c).after 2 t) from by
    unfold Dat.leavesExact; rw [live_lab t], after_lab]
  rw [Dat.leavesExact_idle (dat V c) 3 t (idle_out t (notLast_of_first t h0)) (noFlush_out t (notLast_of_first t h0))]
  rw [colsAt_reset V c t h0]; dsimp only
  iintro ⟨HΦ, Ho, ⟨%d0, H0⟩, ⟨%d1, H1⟩, ⟨%d2, H2⟩, ⟨%d3, H3⟩⟩
  ihave HΦ' := (Phi_any V c t) $$ HΦ
  icases HΦ' with ⟨⟨HM, HL, HT, Hoth⟩, Hg⟩
  iapply ((resetRun V c t h0).2.2.2 _ Set.univ _)
  isplitl [H0]; · iexact H0
  isplitl [H1]; · iexact H1
  isplitl [H2]; · iexact H2
  isplitl [H3]; · iexact H3
  isplitl [HM]; · iexact HM
  isplitl [HL]; · iexact HL
  isplitl [HT]; · iexact HT
  iintro ⟨H0, H1, H2, H3, HM, HL, HT⟩
  isplitl [HM HL HT Hoth Hg]
  · isplitl [HM HL HT Hoth]
    · isplitl [HM]; · iapply (stores_back c scMax VMax _ (cover_maxReset c _ _ _ _ _ _ _ _ _ _ _ _ _ _ _ _ _ _ _ _)); iexact HM
      isplitl [HL]; · iapply (stores_back c scSum VSum _ (cover_sumReset c _ _ _ _ _ _ _ _ _ _ _ _ _ _ _ _ _ _ _ _)); iexact HL
      isplitl [HT]; · iapply (stores_back c scLab VLab _ (cover_labReset c _ _ _ _ _ _ _ _ _ _ _ _ _ _ _ _ _ _ _ _)); iexact HT
      iexact Hoth
    iexact Hg
  isplitl [Ho]; · iexact Ho
  isplitl [H0]; · iexact H0
  isplitl [H1]; · iexact H1
  isplitl [H2]; · iexact H2
  iexists _; iexact H3

set_option maxHeartbeats 8000000 in
theorem sound_step (c : Dev nD) (t : Fin cfg0.N) (h0 : ¬t.val % 32 = 0) (h1 : ¬t.val % 32 = 31) :
    bodyPre V c t ⊢ wp frame (wpE (defs₀ (F := F)) Variants.none c none) Set.univ (bodyAt0 t) (fun _ => bodyPost V c t) := by
  have hz : t.val ≠ 0 := fun h => h0 (by rw [h])
  unfold bodyPre bodyPost bodyAt0
  rw [cc0_body]
  simp only [before_x, before_w, before_lab]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (msX t) fullShare ((dat V c).after 0 t) from by
    unfold Dat.leavesExact; rw [live_x t], after_x]
  rw [show (dat V c).leavesExact 1 t = owns (c : Thread nD τ) (msW t) fullShare ((dat V c).after 1 t) from by
    unfold Dat.leavesExact; rw [live_w t], after_w]
  rw [show (dat V c).leavesExact 2 t = owns (c : Thread nD τ) (msLab t) fullShare ((dat V c).after 2 t) from by
    unfold Dat.leavesExact; rw [live_lab t], after_lab]
  rw [Dat.leavesExact_idle (dat V c) 3 t (idle_out t (notLast_of t h1)) (noFlush_out t (notLast_of t h1))]
  rw [colsAt_step V c t h0 h1]; dsimp only
  rw [PhiS_castSucc V c t, PhiS_pos V c _ _ hz]
  iintro ⟨⟨⟨HM, HL, HT, Hoth⟩, Hg⟩, Ho, ⟨%d0, H0⟩, ⟨%d1, H1⟩, ⟨%d2, H2⟩, ⟨%d3, H3⟩⟩
  iapply ((stepRun V c t h0 h1 (prevCols V c t)).2.2.2 _ Set.univ _)
  isplitl [H0]; · iexact H0
  isplitl [H1]; · iexact H1
  isplitl [H2]; · iexact H2
  isplitl [H3]; · iexact H3
  isplitl [HM]; · iexact HM
  isplitl [HL]; · iexact HL
  isplitl [HT]; · iexact HT
  iintro ⟨H0, H1, H2, H3, HM, HL, HT⟩
  isplitl [HM HL HT Hoth Hg]
  · isplitl [HM HL HT Hoth]
    · isplitl [HM]; · iapply (stores_back c scMax VMax _ (cover_maxStep c _ _ _ _ _ _ _ _ _ _ _ _ _ _ _ _ _ _ _ _ _ _ _)); iexact HM
      isplitl [HL]; · iapply (stores_back c scSum VSum _ (cover_sumStep c _ _ _ _ _ _ _ _ _ _ _ _ _ _ _ _ _ _ _ _ _ _ _)); iexact HL
      isplitl [HT]; · iapply (stores_back c scLab VLab _ (cover_labStep c _ _ _ _ _ _ _ _ _ _ _ _ _ _ _ _ _ _ _ _ _ _ _)); iexact HT
      iexact Hoth
    iexact Hg
  isplitl [Ho]; · iexact Ho
  isplitl [H0]; · iexact H0
  isplitl [H1]; · iexact H1
  isplitl [H2]; · iexact H2
  iexists _; iexact H3

set_option maxHeartbeats 8000000 in
theorem sound_finish (c : Dev nD) (t : Fin cfg0.N) (h0 : ¬t.val % 32 = 0) (h1 : t.val % 32 = 31) :
    bodyPre V c t ⊢ wp frame (wpE (defs₀ (F := F)) Variants.none c none) Set.univ (bodyAt0 t) (fun _ => bodyPost V c t) := by
  have hz : t.val ≠ 0 := fun h => h0 (by rw [h])
  unfold bodyPre bodyPost bodyAt0
  rw [cc0_body]
  simp only [before_x, before_w, before_lab]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (msX t) fullShare ((dat V c).after 0 t) from by
    unfold Dat.leavesExact; rw [live_x t], after_x]
  rw [show (dat V c).leavesExact 1 t = owns (c : Thread nD τ) (msW t) fullShare ((dat V c).after 1 t) from by
    unfold Dat.leavesExact; rw [live_w t], after_w]
  rw [show (dat V c).leavesExact 2 t = owns (c : Thread nD τ) (msLab t) fullShare ((dat V c).after 2 t) from by
    unfold Dat.leavesExact; rw [live_lab t], after_lab]
  rw [show (dat V c).leavesExact 3 t = owns (c : Thread nD τ) (msOut t) fullShare ((dat V c).after 3 t) from by
    unfold Dat.leavesExact; rw [live_out t (last_of t h1)], after_out]
  rw [colsAt_finish V c t h0 h1]; dsimp only
  rw [PhiS_castSucc V c t, PhiS_pos V c _ _ hz]
  iintro ⟨⟨⟨HM, HL, HT, Hoth⟩, Hg⟩, Ho, ⟨%d0, H0⟩, ⟨%d1, H1⟩, ⟨%d2, H2⟩, ⟨%d3, H3⟩⟩
  iapply ((finishRun V c t h0 h1 (prevCols V c t)).2.2.2.2 Set.univ _)
  isplitl [H0]; · iexact H0
  isplitl [H1]; · iexact H1
  isplitl [H2]; · iexact H2
  isplitl [H3]; · iexists _; iexact H3
  isplitl [HM]; · iexact HM
  isplitl [HL]; · iexact HL
  isplitl [HT]; · iexact HT
  iintro ⟨H0, H1, H2, H3, HM, HL, HT⟩
  isplitl [HM HL HT Hoth Hg]
  · isplitl [HM HL HT Hoth]
    · isplitl [HM]; · iapply (stores_back c scMax VMax _ (cover_maxFinish c _ _ _ _ _ _ _ _ _ _ _ _ _ _ _ _ _ _ _ _ _ _ _)); iexact HM
      isplitl [HL]; · iapply (stores_back c scSum VSum _ (cover_sumFinish c _ _ _ _ _ _ _ _ _ _ _ _ _ _ _ _ _ _ _ _ _ _ _)); iexact HL
      isplitl [HT]; · iapply (stores_back c scLab VLab _ (cover_labFinish c _ _ _ _ _ _ _ _ _ _ _ _ _ _ _ _ _ _ _ _ _ _ _)); iexact HT
      iexact Hoth
    iexact Hg
  isplitl [Ho]; · iexact Ho
  isplitl [H0]; · iexact H0
  isplitl [H1]; · iexact H1
  isplitl [H2]; · iexact H2
  iapply (stores_back c (msOut t) VOut _ (cover_outFinish c _ _ _ _ _ _ _ _ _ _ _ _ _ _ _ _ _ _ _ _ _ _ _)); iexact H3

-- By the tile number: reset, step or finish.
theorem body_obligation (c : Dev nD) : BodyObligation (dat (F := F) V c) (defs₀ (F := F)) Variants.none () Set.univ := fun t => by
  rw [bigSep_W0, bigSep_W0]
  by_cases h0 : t.val % 32 = 0
  · exact sound_reset V c t h0
  · by_cases h1 : t.val % 32 = 31
    · exact sound_finish V c t h0 h1
    · exact sound_step V c t h0 h1

theorem hin (c : Dev nD) : Pipeline.ΦA spec0 c ⊢ (dat V c).Φ 0 := by
  have h : (dat V c).Φ 0 = Pipeline.ΦA spec0 c := by
    dsimp only [dat]; exact PhiS_zero V c _ _ (Fin.val_zero _)
  rw [h]

theorem Phi_forget (c : Dev nD) (n : ℕ) (h : n ≤ cfg0.N) (hz : n ≠ 0) : PhiS V c n h ⊢ Pipeline.ΦA spec0 c := by
  rw [PhiS_pos V c n h hz]
  iintro ⟨⟨HM, HL, HT, Hoth⟩, Hg⟩
  iapply (PhiA_close c)
  isplitl [HM HL HT Hoth]
  · isplitl [HM]; · iexists _; iexact HM
    isplitl [HL]; · iexists _; iexact HL
    isplitl [HT]; · iexists _; iexact HT
    iexact Hoth
  iexact Hg

theorem hout (c : Dev nD) : (dat V c).Φ (Fin.last cfg0.N) ⊢ Pipeline.ΦA spec0 c := by
  have ht : (Fin.last cfg0.N).val ≠ 0 := by rw [Fin.val_last]; have : cfg0.N = 64 := N_0; omega
  have h : (dat V c).Φ (Fin.last cfg0.N) = PhiS V c (Fin.last cfg0.N).val (Nat.le_of_lt_succ (Fin.last cfg0.N).isLt) := by
    dsimp only [dat]
  rw [h]
  exact Phi_forget V c _ _ ht

end Cert.KernelIdeal.Sweep0

end
-- ==== Proof.KernelIdeal.Sweep1.Cases.lean ====
import proofs.«405262_j58909771432351_3_alg».proof.Proof.KernelIdeal.Tile.Run

set_option maxRecDepth 16384

noncomputable section

namespace Cert.KernelIdeal.Sweep1

open Cert.KernelIdeal Cert.KernelIdeal.Gen Cert.KernelIdeal.Tile
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before_x_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_w_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_lab_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem isFirst_iff : ∀ t : Fin cfg1.N, isFirst (grid1.coords t) ↔ t.val % 32 = 0 :=
  (by decide +kernel : ∀ t : Fin grid1.N, isFirst (grid1.coords t) ↔ t.val % 32 = 0)

theorem isLast_iff : ∀ t : Fin cfg1.N, isLast (grid1.coords t) ↔ t.val % 32 = 31 :=
  (by decide +kernel : ∀ t : Fin grid1.N, isLast (grid1.coords t) ↔ t.val % 32 = 31)

theorem live_x : ∀ t : Fin cfg1.N, cfg1.idle 0 (grid1.coords t) = false := by decide +kernel
theorem live_w : ∀ t : Fin cfg1.N, cfg1.idle 1 (grid1.coords t) = false := by decide +kernel
theorem live_lab : ∀ t : Fin cfg1.N, cfg1.idle 2 (grid1.coords t) = false := by decide +kernel

theorem idle_out : ∀ t : Fin cfg1.N, ¬isLast (grid1.coords t) → cfg1.idle 3 (grid1.coords t) = true := by decide +kernel

theorem noFlush_out : ∀ t : Fin cfg1.N, ¬isLast (grid1.coords t) → (cfg1.win 3).flush t = false := by decide +kernel

theorem live_out : ∀ t : Fin cfg1.N, isLast (grid1.coords t) → cfg1.idle 3 (grid1.coords t) = false := by decide +kernel

abbrev VOut : View sig .tc .vmem S1024x1 .f32 := (Memref.whole cc1_stg3_0 : Memref sig .tc .vmem S1024x1 .f32).view

abbrev msX (t : Fin cfg1.N) : Memref sig .tc .vmem S1024x2048 .bf16 := win1_0.stage (cfg1.slots t 0)
abbrev hsX (t : Fin cfg1.N) : (msX t).IsWhole := hstage1_0 ((cfg1.slots t 0).cast nbuf1_0)
abbrev msW (t : Fin cfg1.N) : Memref sig .tc .vmem S1000x2048 .f32 := win1_1.stage (cfg1.slots t 1)
abbrev hsW (t : Fin cfg1.N) : (msW t).IsWhole := hstage1_1 ((cfg1.slots t 1).cast nbuf1_1)
abbrev msLab (t : Fin cfg1.N) : Memref sig .tc .vmem S1024x1 .i32 := win1_2.stage (cfg1.slots t 2)
abbrev hsLab (t : Fin cfg1.N) : (msLab t).IsWhole := hstage1_2 ((cfg1.slots t 2).cast nbuf1_2)
abbrev msOut (t : Fin cfg1.N) : Memref sig .tc .vmem S1024x1 .f32 := win1_3.stage (cfg1.slots t 3)
abbrev hsOut (t : Fin cfg1.N) : (msOut t).IsWhole := hstage1_3 ((cfg1.slots t 3).cast nbuf1_3)

abbrev scMax : Memref sig .tc .vmem S1024x1 .f32 := Memref.whole cc1_scratch0
abbrev scSum : Memref sig .tc .vmem S1024x1 .f32 := Memref.whole cc1_scratch1
abbrev scLab : Memref sig .tc .vmem S1024x1 .f32 := Memref.whole cc1_scratch2
abbrev VMax : View sig .tc .vmem S1024x1 .f32 := scMax.view
abbrev VSum : View sig .tc .vmem S1024x1 .f32 := scSum.view
abbrev VLab : View sig .tc .vmem S1024x1 .f32 := scLab.view

end Cert.KernelIdeal.Sweep1

end
-- ==== Proof.KernelIdeal.Sweep1.Scoped.lean ====
import proofs.«405262_j58909771432351_3_alg».proof.Proof.KernelIdeal.Sweep1.Cases

set_option maxRecDepth 16384

noncomputable section

namespace Cert.KernelIdeal.Sweep1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f))

theorem PhiA_open (c : Dev nD) :
    (Pipeline.ΦA spec1 c : sProp 𝕄) ⊢ iprop(iprop((∃ d, owns (c : Thread nD τ) scMax fullShare d) ∗ (∃ d, owns (c : Thread nD τ) scSum fullShare d) ∗ (∃ d, owns (c : Thread nD τ) scLab fullShare d) ∗ others (F := F) c) ∗ (∃ r, prngReg c r)) := by
  unfold Pipeline.ΦA others; rw [scopedRest1_eq]; simp only [scMax, scSum, scLab, owns_whole]
  iintro ⟨⟨H1, H2, H3, H4, H5, H6, H7, H8, H9, H10, HM, HL, HT⟩, Hg⟩
  isplitr [Hg]
  · isplitl [HM]; · iexact HM
    isplitl [HL]; · iexact HL
    isplitl [HT]; · iexact HT
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  iexact Hg

theorem PhiA_close (c : Dev nD) :
    iprop(iprop((∃ d, owns (c : Thread nD τ) scMax fullShare d) ∗ (∃ d, owns (c : Thread nD τ) scSum fullShare d) ∗ (∃ d, owns (c : Thread nD τ) scLab fullShare d) ∗ others (F := F) c) ∗ (∃ r, prngReg c r)) ⊢ (Pipeline.ΦA spec1 c : sProp 𝕄) := by
  unfold Pipeline.ΦA others; rw [scopedRest1_eq]; simp only [scMax, scSum, scLab, owns_whole]
  iintro ⟨⟨HM, HL, HT, H1, H2, H3, H4, H5, H6, H7, H8, H9, H10⟩, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HM]; · iexact HM
    isplitl [HL]; · iexact HL
    iexact HT
  iexact Hg

end Cert.KernelIdeal.Sweep1

end
-- ==== Proof.KernelIdeal.Sweep1.Carry.lean ====
import proofs.«405262_j58909771432351_3_alg».proof.Proof.KernelIdeal.Sweep1.Scoped

set_option maxRecDepth 16384

noncomputable section

namespace Cert.KernelIdeal.Sweep1

open Cert.KernelIdeal Cert.KernelIdeal.Gen Cert.KernelIdeal.Tile
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem first_of (t : Fin cfg1.N) (h0 : t.val % 32 = 0) : isFirst (grid1.coords t) := (isFirst_iff t).mpr h0
theorem notFirst_of (t : Fin cfg1.N) (h0 : ¬t.val % 32 = 0) : ¬isFirst (grid1.coords t) := fun h => h0 ((isFirst_iff t).mp h)
theorem last_of (t : Fin cfg1.N) (h1 : t.val % 32 = 31) : isLast (grid1.coords t) := (isLast_iff t).mpr h1
theorem notLast_of (t : Fin cfg1.N) (h1 : ¬t.val % 32 = 31) : ¬isLast (grid1.coords t) := fun h => h1 ((isLast_iff t).mp h)
theorem notLast_of_first (t : Fin cfg1.N) (h0 : t.val % 32 = 0) : ¬isLast (grid1.coords t) :=
  notLast_of t (by omega)

def noOut : Vec F S1024x1 .f32 := VOut.read (Elt F) VOut.junk

abbrev resetRun (c : Dev nD) (t : Fin cfg1.N) (h0 : t.val % 32 = 0) :=
  runReset c (grid1.coords t) (msX t) (hsX t) (msW t) (hsW t) (msLab t) (hsLab t) (msOut t) (hsOut t) scMax (Memref.isWhole_whole _) scSum (Memref.isWhole_whole _) scLab (Memref.isWhole_whole _) (first_of t h0) (notLast_of_first t h0) (iblk V c 0 t) (iblk V c 1 t) (iblk V c 2 t)

abbrev stepRun (c : Dev nD) (t : Fin cfg1.N) (h0 : ¬t.val % 32 = 0) (h1 : ¬t.val % 32 = 31) (p : Vec F S1024x1 .f32 × Vec F S1024x1 .f32 × Vec F S1024x1 .f32) :=
  runStep c (grid1.coords t) (msX t) (hsX t) (msW t) (hsW t) (msLab t) (hsLab t) (msOut t) (hsOut t) scMax (Memref.isWhole_whole _) scSum (Memref.isWhole_whole _) scLab (Memref.isWhole_whole _) (notFirst_of t h0) (notLast_of t h1) (iblk V c 0 t) (iblk V c 1 t) (iblk V c 2 t) p.1 p.2.1 p.2.2

abbrev finishRun (c : Dev nD) (t : Fin cfg1.N) (h0 : ¬t.val % 32 = 0) (h1 : t.val % 32 = 31) (p : Vec F S1024x1 .f32 × Vec F S1024x1 .f32 × Vec F S1024x1 .f32) :=
  runFinish c (grid1.coords t) (msX t) (hsX t) (msW t) (hsW t) (msLab t) (hsLab t) (msOut t) (hsOut t) scMax (Memref.isWhole_whole _) scSum (Memref.isWhole_whole _) scLab (Memref.isWhole_whole _) (notFirst_of t h0) (last_of t h1) (iblk V c 0 t) (iblk V c 1 t) (iblk V c 2 t) p.1 p.2.1 p.2.2

def caseAt (c : Dev nD) (t : Fin cfg1.N) (p : Vec F S1024x1 .f32 × Vec F S1024x1 .f32 × Vec F S1024x1 .f32) : Vec F S1024x1 .f32 × Vec F S1024x1 .f32 × Vec F S1024x1 .f32 × Vec F S1024x1 .f32 :=
  if h0 : t.val % 32 = 0 then (noOut, back VMax (resetRun V c t h0).1, back VSum (resetRun V c t h0).2.1, back VLab (resetRun V c t h0).2.2.1)
  else if h1 : t.val % 32 = 31 then (back VOut (finishRun V c t h0 h1 p).1, back VMax (finishRun V c t h0 h1 p).2.1, back VSum (finishRun V c t h0 h1 p).2.2.1, back VLab (finishRun V c t h0 h1 p).2.2.2.1)
  else (noOut, back VMax (stepRun V c t h0 h1 p).1, back VSum (stepRun V c t h0 h1 p).2.1, back VLab (stepRun V c t h0 h1 p).2.2.1)

-- The recursion over the 64 points: tile 0 resets, a later tile steps over what the point before left, the last tile also gives the output block.
def colsAt (c : Dev nD) : (n : ℕ) → n < cfg1.N → Vec F S1024x1 .f32 × Vec F S1024x1 .f32 × Vec F S1024x1 .f32 × Vec F S1024x1 .f32
  | 0, hn => caseAt V c ⟨0, hn⟩ (noOut, noOut, noOut)
  | n + 1, hn => caseAt V c ⟨n + 1, hn⟩ (colsAt c n (Nat.lt_of_succ_lt hn)).2

abbrev prevCols (c : Dev nD) (t : Fin cfg1.N) : Vec F S1024x1 .f32 × Vec F S1024x1 .f32 × Vec F S1024x1 .f32 :=
  (colsAt V c (t.val - 1) (Nat.lt_of_le_of_lt (Nat.sub_le _ _) t.isLt)).2

theorem colsAt_zero (c : Dev nD) (hn : 0 < cfg1.N) : colsAt V c 0 hn = caseAt V c ⟨0, hn⟩ (noOut, noOut, noOut) := rfl
theorem colsAt_succ (c : Dev nD) (n : ℕ) (hn : n + 1 < cfg1.N) :
    colsAt V c (n + 1) hn = caseAt V c ⟨n + 1, hn⟩ (colsAt V c n (Nat.lt_of_succ_lt hn)).2 := rfl

theorem colsAt_reset (c : Dev nD) (t : Fin cfg1.N) (h0 : t.val % 32 = 0) :
    colsAt V c t.val t.isLt = (noOut, back VMax (resetRun V c t h0).1, back VSum (resetRun V c t h0).2.1, back VLab (resetRun V c t h0).2.2.1) := by
  obtain ⟨n, hn⟩ := t
  cases n with
  | zero => exact (colsAt_zero V c hn).trans (by unfold caseAt; exact dif_pos h0)
  | succ n => exact (colsAt_succ V c n hn).trans (by unfold caseAt; exact dif_pos h0)

theorem colsAt_step (c : Dev nD) (t : Fin cfg1.N) (h0 : ¬t.val % 32 = 0) (h1 : ¬t.val % 32 = 31) :
    colsAt V c t.val t.isLt = (noOut, back VMax (stepRun V c t h0 h1 (prevCols V c t)).1, back VSum (stepRun V c t h0 h1 (prevCols V c t)).2.1, back VLab (stepRun V c t h0 h1 (prevCols V c t)).2.2.1) := by
  obtain ⟨n, hn⟩ := t
  cases n with
  | zero => exact absurd (Nat.zero_mod _) h0
  | succ n => exact (colsAt_succ V c n hn).trans (by unfold caseAt; exact (dif_neg h0).trans ((dif_neg h1).trans rfl))

theorem colsAt_finish (c : Dev nD) (t : Fin cfg1.N) (h0 : ¬t.val % 32 = 0) (h1 : t.val % 32 = 31) :
    colsAt V c t.val t.isLt = (back VOut (finishRun V c t h0 h1 (prevCols V c t)).1, back VMax (finishRun V c t h0 h1 (prevCols V c t)).2.1, back VSum (finishRun V c t h0 h1 (prevCols V c t)).2.2.1, back VLab (finishRun V c t h0 h1 (prevCols V c t)).2.2.2.1) := by
  obtain ⟨n, hn⟩ := t
  cases n with
  | zero => exact absurd (Nat.zero_mod _) h0
  | succ n => exact (colsAt_succ V c n hn).trans (by unfold caseAt; exact (dif_neg h0).trans ((dif_pos h1).trans rfl))

-- Between two points the three running columns hold exactly what the point before left (before the first point: anything).
def PhiS (c : Dev nD) : (n : ℕ) → n ≤ cfg1.N → sProp 𝕄
  | 0, _ => Pipeline.ΦA spec1 c
  | n + 1, hn => iprop(iprop(owns (c : Thread nD τ) scMax fullShare ((colsAt V c n hn).2.1) ∗ owns (c : Thread nD τ) scSum fullShare ((colsAt V c n hn).2.2.1) ∗ owns (c : Thread nD τ) scLab fullShare ((colsAt V c n hn).2.2.2) ∗ others (F := F) c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) scMax fullShare ((colsAt V c n hn).2.1) ∗ owns (c : Thread nD τ) scSum fullShare ((colsAt V c n hn).2.2.1) ∗ owns (c : Thread nD τ) scLab fullShare ((colsAt V c n hn).2.2.2) ∗ others (F := F) c) ∗ (∃ r, prngReg c r)) := rfl

theorem PhiS_pos (c : Dev nD) (n : ℕ) (h : n ≤ cfg1.N) (hz : n ≠ 0) :
    PhiS V c n h = iprop(iprop(owns (c : Thread nD τ) scMax fullShare ((colsAt V c (n - 1) (by omega)).2.1) ∗ owns (c : Thread nD τ) scSum fullShare ((colsAt V c (n - 1) (by omega)).2.2.1) ∗ owns (c : Thread nD τ) scLab fullShare ((colsAt V c (n - 1) (by omega)).2.2.2) ∗ others (F := F) c) ∗ (∃ r, prngReg c r)) := by
  cases n with
  | zero => exact absurd rfl hz
  | succ n => rfl

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => (colsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after_x (c : Dev nD) (t : Fin cfg1.N) : (dat V c).after 0 t = iblk V c 0 t := by dsimp only [dat]
theorem after_w (c : Dev nD) (t : Fin cfg1.N) : (dat V c).after 1 t = iblk V c 1 t := by dsimp only [dat]
theorem after_lab (c : Dev nD) (t : Fin cfg1.N) : (dat V c).after 2 t = iblk V c 2 t := by dsimp only [dat]
theorem after_out (c : Dev nD) (t : Fin cfg1.N) : (dat V c).after 3 t = (colsAt V c t.val t.isLt).1 := by dsimp only [dat]

theorem before_x (c : Dev nD) (t : Fin cfg1.N) (d) : (dat V c).before 0 t d = iblk V c 0 t :=
  before_x_of V (dat V c) (A_eq V c 0) (after_x V c) t d
theorem before_w (c : Dev nD) (t : Fin cfg1.N) (d) : (dat V c).before 1 t d = iblk V c 1 t :=
  before_w_of V (dat V c) (A_eq V c 1) (after_w V c) t d
theorem before_lab (c : Dev nD) (t : Fin cfg1.N) (d) : (dat V c).before 2 t d = iblk V c 2 t :=
  before_lab_of V (dat V c) (A_eq V c 2) (after_lab V c) t d

end Cert.KernelIdeal.Sweep1

end
-- ==== Proof.KernelIdeal.Sweep1.Body.lean ====
import proofs.«405262_j58909771432351_3_alg».proof.Proof.KernelIdeal.Sweep1.Carry

set_option maxRecDepth 16384

noncomputable section

namespace Cert.KernelIdeal.Sweep1

open Cert.KernelIdeal Cert.KernelIdeal.Gen Cert.KernelIdeal.Tile
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem stores_back (c : Dev nD) (sc : Memref sig .tc .vmem S1024x1 .f32) (W : View sig .tc .vmem S1024x1 .f32)
    (L : List (View.Piece (Elt F) S1024x1 .f32)) (hcov : ∀ y : S1024x1.Idx, ∃ pc ∈ L, y ∈ pc.1.set) :
    (iprop(∃ f, sc.view.loc (c : Thread nD τ) ↦[sc.view.set]{fullShare} sc.view.writes (Elt F) f L) : sProp 𝕄)
      ⊢ owns (c : Thread nD τ) sc fullShare (back W L) := by
  iintro ⟨%e, H⟩
  unfold owns back; iexists _; isplitr
  swap; · iexact H
  ipureintro; exact View.read_writes_of_cover _ _ _ _ _ hcov

def bodyPre (c : Dev nD) (t : Fin cfg1.N) : sProp 𝕄 :=
  iprop((dat V c).Φ t.castSucc ∗ (dat V c).owesAt () t.castSucc
    ∗ (∃ d, owns (c : Thread nD τ) (msX t) fullShare ((dat V c).before 0 t d))
    ∗ (∃ d, owns (c : Thread nD τ) (msW t) fullShare ((dat V c).before 1 t d))
    ∗ (∃ d, owns (c : Thread nD τ) (msLab t) fullShare ((dat V c).before 2 t d))
    ∗ (∃ d, owns (c : Thread nD τ) (msOut t) fullShare ((dat V c).before 3 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

theorem Phi_any (c : Dev nD) (t : Fin cfg1.N) :
    (dat V c).Φ t.castSucc
      ⊢ iprop(iprop((∃ d, owns (c : Thread nD τ) scMax fullShare d) ∗ (∃ d, owns (c : Thread nD τ) scSum fullShare d) ∗ (∃ d, owns (c : Thread nD τ) scLab fullShare d) ∗ others (F := F) c) ∗ (∃ r, prngReg c r)) := by
  rw [PhiS_castSucc V c t]
  by_cases hz : t.val = 0
  · rw [PhiS_zero V c _ _ hz]; exact PhiA_open c
  · rw [PhiS_pos V c _ _ hz]
    iintro ⟨⟨HM, HL, HT, Hoth⟩, Hg⟩
    isplitl [HM HL HT Hoth]
    · isplitl [HM]; · iexists _; iexact HM
      isplitl [HL]; · iexists _; iexact HL
      isplitl [HT]; · iexists _; iexact HT
      iexact Hoth
    iexact Hg

set_option maxHeartbeats 8000000 in
theorem sound_reset (c : Dev nD) (t : Fin cfg1.N) (h0 : t.val % 32 = 0) :
    bodyPre V c t ⊢ wp frame (wpE (defs₀ (F := F)) Variants.none c none) Set.univ (bodyAt1 t) (fun _ => bodyPost V c t) := by
  unfold bodyPre bodyPost bodyAt1
  rw [cc1_body]
  simp only [before_x, before_w, before_lab]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (msX t) fullShare ((dat V c).after 0 t) from by
    unfold Dat.leavesExact; rw [live_x t], after_x]
  rw [show (dat V c).leavesExact 1 t = owns (c : Thread nD τ) (msW t) fullShare ((dat V c).after 1 t) from by
    unfold Dat.leavesExact; rw [live_w t], after_w]
  rw [show (dat V c).leavesExact 2 t = owns (c : Thread nD τ) (msLab t) fullShare ((dat V c).after 2 t) from by
    unfold Dat.leavesExact; rw [live_lab t], after_lab]
  rw [Dat.leavesExact_idle (dat V c) 3 t (idle_out t (notLast_of_first t h0)) (noFlush_out t (notLast_of_first t h0))]
  rw [colsAt_reset V c t h0]; dsimp only
  iintro ⟨HΦ, Ho, ⟨%d0, H0⟩, ⟨%d1, H1⟩, ⟨%d2, H2⟩, ⟨%d3, H3⟩⟩
  ihave HΦ' := (Phi_any V c t) $$ HΦ
  icases HΦ' with ⟨⟨HM, HL, HT, Hoth⟩, Hg⟩
  iapply ((resetRun V c t h0).2.2.2 _ Set.univ _)
  isplitl [H0]; · iexact H0
  isplitl [H1]; · iexact H1
  isplitl [H2]; · iexact H2
  isplitl [H3]; · iexact H3
  isplitl [HM]; · iexact HM
  isplitl [HL]; · iexact HL
  isplitl [HT]; · iexact HT
  iintro ⟨H0, H1, H2, H3, HM, HL, HT⟩
  isplitl [HM HL HT Hoth Hg]
  · isplitl [HM HL HT Hoth]
    · isplitl [HM]; · iapply (stores_back c scMax VMax _ (cover_maxReset c _ _ _ _ _ _ _ _ _ _ _ _ _ _ _ _ _ _ _ _)); iexact HM
      isplitl [HL]; · iapply (stores_back c scSum VSum _ (cover_sumReset c _ _ _ _ _ _ _ _ _ _ _ _ _ _ _ _ _ _ _ _)); iexact HL
      isplitl [HT]; · iapply (stores_back c scLab VLab _ (cover_labReset c _ _ _ _ _ _ _ _ _ _ _ _ _ _ _ _ _ _ _ _)); iexact HT
      iexact Hoth
    iexact Hg
  isplitl [Ho]; · iexact Ho
  isplitl [H0]; · iexact H0
  isplitl [H1]; · iexact H1
  isplitl [H2]; · iexact H2
  iexists _; iexact H3

set_option maxHeartbeats 8000000 in
theorem sound_step (c : Dev nD) (t : Fin cfg1.N) (h0 : ¬t.val % 32 = 0) (h1 : ¬t.val % 32 = 31) :
    bodyPre V c t ⊢ wp frame (wpE (defs₀ (F := F)) Variants.none c none) Set.univ (bodyAt1 t) (fun _ => bodyPost V c t) := by
  have hz : t.val ≠ 0 := fun h => h0 (by rw [h])
  unfold bodyPre bodyPost bodyAt1
  rw [cc1_body]
  simp only [before_x, before_w, before_lab]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (msX t) fullShare ((dat V c).after 0 t) from by
    unfold Dat.leavesExact; rw [live_x t], after_x]
  rw [show (dat V c).leavesExact 1 t = owns (c : Thread nD τ) (msW t) fullShare ((dat V c).after 1 t) from by
    unfold Dat.leavesExact; rw [live_w t], after_w]
  rw [show (dat V c).leavesExact 2 t = owns (c : Thread nD τ) (msLab t) fullShare ((dat V c).after 2 t) from by
    unfold Dat.leavesExact; rw [live_lab t], after_lab]
  rw [Dat.leavesExact_idle (dat V c) 3 t (idle_out t (notLast_of t h1)) (noFlush_out t (notLast_of t h1))]
  rw [colsAt_step V c t h0 h1]; dsimp only
  rw [PhiS_castSucc V c t, PhiS_pos V c _ _ hz]
  iintro ⟨⟨⟨HM, HL, HT, Hoth⟩, Hg⟩, Ho, ⟨%d0, H0⟩, ⟨%d1, H1⟩, ⟨%d2, H2⟩, ⟨%d3, H3⟩⟩
  iapply ((stepRun V c t h0 h1 (prevCols V c t)).2.2.2 _ Set.univ _)
  isplitl [H0]; · iexact H0
  isplitl [H1]; · iexact H1
  isplitl [H2]; · iexact H2
  isplitl [H3]; · iexact H3
  isplitl [HM]; · iexact HM
  isplitl [HL]; · iexact HL
  isplitl [HT]; · iexact HT
  iintro ⟨H0, H1, H2, H3, HM, HL, HT⟩
  isplitl [HM HL HT Hoth Hg]
  · isplitl [HM HL HT Hoth]
    · isplitl [HM]; · iapply (stores_back c scMax VMax _ (cover_maxStep c _ _ _ _ _ _ _ _ _ _ _ _ _ _ _ _ _ _ _ _ _ _ _)); iexact HM
      isplitl [HL]; · iapply (stores_back c scSum VSum _ (cover_sumStep c _ _ _ _ _ _ _ _ _ _ _ _ _ _ _ _ _ _ _ _ _ _ _)); iexact HL
      isplitl [HT]; · iapply (stores_back c scLab VLab _ (cover_labStep c _ _ _ _ _ _ _ _ _ _ _ _ _ _ _ _ _ _ _ _ _ _ _)); iexact HT
      iexact Hoth
    iexact Hg
  isplitl [Ho]; · iexact Ho
  isplitl [H0]; · iexact H0
  isplitl [H1]; · iexact H1
  isplitl [H2]; · iexact H2
  iexists _; iexact H3

set_option maxHeartbeats 8000000 in
theorem sound_finish (c : Dev nD) (t : Fin cfg1.N) (h0 : ¬t.val % 32 = 0) (h1 : t.val % 32 = 31) :
    bodyPre V c t ⊢ wp frame (wpE (defs₀ (F := F)) Variants.none c none) Set.univ (bodyAt1 t) (fun _ => bodyPost V c t) := by
  have hz : t.val ≠ 0 := fun h => h0 (by rw [h])
  unfold bodyPre bodyPost bodyAt1
  rw [cc1_body]
  simp only [before_x, before_w, before_lab]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (msX t) fullShare ((dat V c).after 0 t) from by
    unfold Dat.leavesExact; rw [live_x t], after_x]
  rw [show (dat V c).leavesExact 1 t = owns (c : Thread nD τ) (msW t) fullShare ((dat V c).after 1 t) from by
    unfold Dat.leavesExact; rw [live_w t], after_w]
  rw [show (dat V c).leavesExact 2 t = owns (c : Thread nD τ) (msLab t) fullShare ((dat V c).after 2 t) from by
    unfold Dat.leavesExact; rw [live_lab t], after_lab]
  rw [show (dat V c).leavesExact 3 t = owns (c : Thread nD τ) (msOut t) fullShare ((dat V c).after 3 t) from by
    unfold Dat.leavesExact; rw [live_out t (last_of t h1)], after_out]
  rw [colsAt_finish V c t h0 h1]; dsimp only
  rw [PhiS_castSucc V c t, PhiS_pos V c _ _ hz]
  iintro ⟨⟨⟨HM, HL, HT, Hoth⟩, Hg⟩, Ho, ⟨%d0, H0⟩, ⟨%d1, H1⟩, ⟨%d2, H2⟩, ⟨%d3, H3⟩⟩
  iapply ((finishRun V c t h0 h1 (prevCols V c t)).2.2.2.2 Set.univ _)
  isplitl [H0]; · iexact H0
  isplitl [H1]; · iexact H1
  isplitl [H2]; · iexact H2
  isplitl [H3]; · iexists _; iexact H3
  isplitl [HM]; · iexact HM
  isplitl [HL]; · iexact HL
  isplitl [HT]; · iexact HT
  iintro ⟨H0, H1, H2, H3, HM, HL, HT⟩
  isplitl [HM HL HT Hoth Hg]
  · isplitl [HM HL HT Hoth]
    · isplitl [HM]; · iapply (stores_back c scMax VMax _ (cover_maxFinish c _ _ _ _ _ _ _ _ _ _ _ _ _ _ _ _ _ _ _ _ _ _ _)); iexact HM
      isplitl [HL]; · iapply (stores_back c scSum VSum _ (cover_sumFinish c _ _ _ _ _ _ _ _ _ _ _ _ _ _ _ _ _ _ _ _ _ _ _)); iexact HL
      isplitl [HT]; · iapply (stores_back c scLab VLab _ (cover_labFinish c _ _ _ _ _ _ _ _ _ _ _ _ _ _ _ _ _ _ _ _ _ _ _)); iexact HT
      iexact Hoth
    iexact Hg
  isplitl [Ho]; · iexact Ho
  isplitl [H0]; · iexact H0
  isplitl [H1]; · iexact H1
  isplitl [H2]; · iexact H2
  iapply (stores_back c (msOut t) VOut _ (cover_outFinish c _ _ _ _ _ _ _ _ _ _ _ _ _ _ _ _ _ _ _ _ _ _ _)); iexact H3

-- By the tile number: reset, step or finish.
theorem body_obligation (c : Dev nD) : BodyObligation (dat (F := F) V c) (defs₀ (F := F)) Variants.none () Set.univ := fun t => by
  rw [bigSep_W1, bigSep_W1]
  by_cases h0 : t.val % 32 = 0
  · exact sound_reset V c t h0
  · by_cases h1 : t.val % 32 = 31
    · exact sound_finish V c t h0 h1
    · exact sound_step V c t h0 h1

theorem hin (c : Dev nD) : Pipeline.ΦA spec1 c ⊢ (dat V c).Φ 0 := by
  have h : (dat V c).Φ 0 = Pipeline.ΦA spec1 c := by
    dsimp only [dat]; exact PhiS_zero V c _ _ (Fin.val_zero _)
  rw [h]

theorem Phi_forget (c : Dev nD) (n : ℕ) (h : n ≤ cfg1.N) (hz : n ≠ 0) : PhiS V c n h ⊢ Pipeline.ΦA spec1 c := by
  rw [PhiS_pos V c n h hz]
  iintro ⟨⟨HM, HL, HT, Hoth⟩, Hg⟩
  iapply (PhiA_close c)
  isplitl [HM HL HT Hoth]
  · isplitl [HM]; · iexists _; iexact HM
    isplitl [HL]; · iexists _; iexact HL
    isplitl [HT]; · iexists _; iexact HT
    iexact Hoth
  iexact Hg

theorem hout (c : Dev nD) : (dat V c).Φ (Fin.last cfg1.N) ⊢ Pipeline.ΦA spec1 c := by
  have ht : (Fin.last cfg1.N).val ≠ 0 := by rw [Fin.val_last]; have : cfg1.N = 64 := N_1; omega
  have h : (dat V c).Φ (Fin.last cfg1.N) = PhiS V c (Fin.last cfg1.N).val (Nat.le_of_lt_succ (Fin.last cfg1.N).isLt) := by
    dsimp only [dat]
  rw [h]
  exact Phi_forget V c _ _ ht

end Cert.KernelIdeal.Sweep1

end
-- ==== Proof.KernelIdeal.Whole.lean ====
import proofs.«405262_j58909771432351_3_alg».proof.Proof.KernelIdeal.Sweep0.Body
import proofs.«405262_j58909771432351_3_alg».proof.Proof.KernelIdeal.Sweep1.Body
import proofs.«405262_j58909771432351_3_alg».proof.Proof.Gen.KernelIdeal.Regions

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (Sweep0.dat (V1 m ρ) c).arrAt w cfg0.N
theorem W2_arr (c : Dev nD) (w : Fin cfg0.W) :
    W2 m ρ c (Proc.devRef .tc (Pipeline.arrRef spec0 w)) = (Sweep0.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (Sweep0.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (Sweep1.dat (V3 m ρ) c).arrAt w cfg1.N
theorem W4_arr (c : Dev nD) (w : Fin cfg1.W) :
    W4 m ρ c (Proc.devRef .tc (Pipeline.arrRef spec1 w)) = (Sweep1.dat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (Sweep1.dat (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)

-- A buffer no host operation writes and no sweep changes ends as launched.
theorem W5_keep (c : Dev nD) (b : Ref sig .tc) (h2 : b ∉ hostOps2_W) (h1 : b ∉ hostOps1_W) (h0 : b ∉ hostOps0_W)
    (e4 : W4 m ρ c (Proc.devRef .tc b) = W3 m ρ c (Proc.devRef .tc b)) (e2 : W2 m ρ c (Proc.devRef .tc b) = W1 m ρ c (Proc.devRef .tc b)) :
    W5 m ρ c (Proc.devRef .tc b) = m ((c : Thread nD τ).loc b) :=
  (StableHlo.after_of_writes_sub hostOps2 _ hostOps2_writes h2).trans <| e4.trans <|
    (StableHlo.after_of_writes_sub hostOps1 _ hostOps1_writes h1).trans <| e2.trans <|
      (StableHlo.after_of_writes_sub hostOps0 _ hostOps0_writes h0).trans rfl

theorem W5_main_arg0 (c : Dev nD) : W5 m ρ c (Proc.devRef .tc main_arg0) = m ((c : Thread nD τ).loc main_arg0) :=
  W5_keep m ρ c main_arg0 (by decide) (by decide) (by decide) (W4_of_ne m ρ c main_arg0 (by decide)) (W2_of_ne m ρ c main_arg0 (by decide))

theorem W5_main_arg1 (c : Dev nD) : W5 m ρ c (Proc.devRef .tc main_arg1) = m ((c : Thread nD τ).loc main_arg1) :=
  W5_keep m ρ c main_arg1 (by decide) (by decide) (by decide) (W4_of_ne m ρ c main_arg1 (by decide)) (W2_of_ne m ρ c main_arg1 (by decide))

theorem W5_main_arg2 (c : Dev nD) : W5 m ρ c (Proc.devRef .tc main_arg2) = m ((c : Thread nD τ).loc main_arg2) :=
  W5_keep m ρ c main_arg2 (by decide) (by decide) (by decide) (W4_of_ne m ρ c main_arg2 (by decide)) (W2_of_ne m ρ c main_arg2 (by decide))

theorem W5_main_arg3 (c : Dev nD) : W5 m ρ c (Proc.devRef .tc main_arg3) = m ((c : Thread nD τ).loc main_arg3) :=
  W5_keep m ρ c main_arg3 (by decide) (by decide) (by decide) (W4_of_ne m ρ c main_arg3 (by decide))
    ((W2_arr m ρ c 1).trans (((Sweep0.dat (V1 m ρ) c).arrAt_in 1 rfl _).trans (Sweep0.A_eq (V1 m ρ) c 1)))

theorem W5_main_arg4 (c : Dev nD) : W5 m ρ c (Proc.devRef .tc main_arg4) = m ((c : Thread nD τ).loc main_arg4) :=
  W5_keep m ρ c main_arg4 (by decide) (by decide) (by decide)
    ((W4_arr m ρ c 1).trans (((Sweep1.dat (V3 m ρ) c).arrAt_in 1 rfl _).trans (Sweep1.A_eq (V3 m ρ) c 1))) (W2_of_ne m ρ c main_arg4 (by decide))

abbrev adm : (p : Fin 2) → (pcfgs (F := F) p).Adm := fun p => (cfgs p).toPCfg_adm

def pdats : (p : Fin 2) → (c : Dev nD) → Dat τ (Elt F) Unit ℕ (UR sig nD τ) ℕ (Pipeline.pin (pcfgs (F := F)) adm p) c
  | ⟨0, _⟩ => fun c => Sweep0.dat (V1 m ρ) c
  | ⟨1, _⟩ => fun c => Sweep1.dat (V3 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W5 m ρ c) ∗ ∃ r, prngReg c r)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Sweep0.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (pdats m ρ 0 c).Φ 0 = (Sweep0.dat (V1 m ρ) c).Φ 0 := rfl
    rw [h]
    iintro ⟨Hp, -, Hr⟩
    iapply (Sweep0.hin (V1 m ρ) c)
    unfold Pipeline.ΦA
    isplitl [Hr]; · iexact Hr
    iexact Hp
  hout c := by
    have h : (pdats m ρ 0 c).Φ (Fin.last _) = (Sweep0.dat (V1 m ρ) c).Φ (Fin.last cfg0.N) := rfl
    rw [Pipeline.ownSems0_none, h]
    iintro HΦ
    ihave H := (Sweep0.hout (V1 m ρ) c) $$ HΦ
    unfold Pipeline.ΦA
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Sweep1.body_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (pdats m ρ 1 c).Φ 0 = (Sweep1.dat (V3 m ρ) c).Φ 0 := rfl
    rw [h]
    iintro ⟨Hp, -, Hr⟩
    iapply (Sweep1.hin (V3 m ρ) c)
    unfold Pipeline.ΦA
    isplitl [Hr]; · iexact Hr
    iexact Hp
  hout c := by
    have h : (pdats m ρ 1 c).Φ (Fin.last _) = (Sweep1.dat (V3 m ρ) c).Φ (Fin.last cfg1.N) := rfl
    rw [Pipeline.ownSems0_none, h]
    iintro HΦ
    ihave H := (Sweep1.hout (V3 m ρ) c) $$ HΦ
    unfold Pipeline.ΦA
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

-- @main is host operations, the first sweep, host operations, the second sweep, host operations.
theorem main_run (c : Dev nD) : main (F := F) c = Pipeline.Seg.run (segs m ρ) := (main_chain c).trans (by chain_rfl)

set_option backward.isDefEq.respectTransparency.types false in
theorem run : θ_run defs (onTc (τ := τ) (main (F := F))) ⟨m, fun _ => 0, ρ⟩ (fun r => ∀ c : Dev nD,
      r.2.mem ((c.tc : Thread nD τ).loc main_v0) = W5 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v0 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run m ρ)

end Cert.KernelIdeal.Whole

end
-- ==== Proof.RefRead.lean ====
import proofs.«405262_j58909771432351_3_alg».proof.Proof.Gen.ReferenceIdeal
import Idealize.ShloMosaic.Lib.Pipeline.Value
import Idealize.ShloMosaic.Lib.ValueIdx
import Idealize.ShloMosaic.PureOps.Ideal.Laws

noncomputable section

namespace Cert.ReferenceIdeal.ReadP

open Cert.ReferenceIdeal Cert.ReferenceIdeal.Gen Idealize.ShloMosaic Idealize.ShloMosaic.TcCoe Idealize.SL.Sem Idealize.ShloMosaic.StableHlo

variable {F : FTy → Type} [FloatOps F]

variable (x0 x1 : (⟨S4x512x2048, .f32⟩ : BufTy).Contents (Elt F)) (x2 : (⟨S4x512, .i32⟩ : BufTy).Contents (Elt F)) (x3 x4 : (⟨S32000x2048, .f32⟩ : BufTy).Contents (Elt F))

-- Each host operation of the reference as a stage of earlier stages, and the stage read at an index.
def val_main_v0 : (⟨S4x512x32000, .f32⟩ : BufTy).Contents (Elt F) :=
  Host.dotGeneral dot_S4x512x2048_S32000x2048_S4x512x32000_2_1_01_0_n_n none (x0) (x3)
theorem lhs_main_v0_0 (i : S4x512x32000.Idx) (q : dot_S4x512x2048_S32000x2048_S4x512x32000_2_1_01_0_n_n.contr.Idx) :
    (dot_S4x512x2048_S32000x2048_S4x512x32000_2_1_01_0_n_n.lhsIdx i q 0).val = (i 0).val := by
  unfold DotDims.lhsIdx
  rw [dif_neg (show ¬(0 : Fin S4x512x2048.rank) ∈ dot_S4x512x2048_S32000x2048_S4x512x32000_2_1_01_0_n_n.lhsBatch by decide), dif_pos (show (0 : Fin S4x512x2048.rank) ∈ dot_S4x512x2048_S32000x2048_S4x512x32000_2_1_01_0_n_n.lhsNonContracting by decide)]
  rfl
theorem lhs_main_v0_1 (i : S4x512x32000.Idx) (q : dot_S4x512x2048_S32000x2048_S4x512x32000_2_1_01_0_n_n.contr.Idx) :
    (dot_S4x512x2048_S32000x2048_S4x512x32000_2_1_01_0_n_n.lhsIdx i q 1).val = (i 1).val := by
  unfold DotDims.lhsIdx
  rw [dif_neg (show ¬(1 : Fin S4x512x2048.rank) ∈ dot_S4x512x2048_S32000x2048_S4x512x32000_2_1_01_0_n_n.lhsBatch by decide), dif_pos (show (1 : Fin S4x512x2048.rank) ∈ dot_S4x512x2048_S32000x2048_S4x512x32000_2_1_01_0_n_n.lhsNonContracting by decide)]
  rfl
theorem lhs_main_v0_2 (i : S4x512x32000.Idx) (q : dot_S4x512x2048_S32000x2048_S4x512x32000_2_1_01_0_n_n.contr.Idx) :
    (dot_S4x512x2048_S32000x2048_S4x512x32000_2_1_01_0_n_n.lhsIdx i q 2).val = (q ⟨0, by decide⟩).val :=
  dot_S4x512x2048_S32000x2048_S4x512x32000_2_1_01_0_n_n.lhsIdx_val_of_single rfl i q
theorem rhs_main_v0_0 (i : S4x512x32000.Idx) (q : dot_S4x512x2048_S32000x2048_S4x512x32000_2_1_01_0_n_n.contr.Idx) :
    (dot_S4x512x2048_S32000x2048_S4x512x32000_2_1_01_0_n_n.rhsIdx i q 0).val = (i 2).val := by
  unfold DotDims.rhsIdx
  rw [dif_neg (show ¬(0 : Fin S32000x2048.rank) ∈ dot_S4x512x2048_S32000x2048_S4x512x32000_2_1_01_0_n_n.rhsBatch by decide), dif_pos (show (0 : Fin S32000x2048.rank) ∈ dot_S4x512x2048_S32000x2048_S4x512x32000_2_1_01_0_n_n.rhsNonContracting by decide)]
  rfl
theorem rhs_main_v0_1 (i : S4x512x32000.Idx) (q : dot_S4x512x2048_S32000x2048_S4x512x32000_2_1_01_0_n_n.contr.Idx) :
    (dot_S4x512x2048_S32000x2048_S4x512x32000_2_1_01_0_n_n.rhsIdx i q 1).val = (q ⟨0, by decide⟩).val :=
  dot_S4x512x2048_S32000x2048_S4x512x32000_2_1_01_0_n_n.rhsIdx_val_of_single rfl i q
abbrev lidx_main_v0 (i : S4x512x32000.Idx) (k : Fin 2048) : S4x512x2048.Idx := fun a => match a with
  | ⟨0, _⟩ => ⟨(i 0).val, (i 0).isLt⟩
  | ⟨1, _⟩ => ⟨(i 1).val, (i 1).isLt⟩
  | ⟨2, _⟩ => ⟨k.val, k.isLt⟩
abbrev ridx_main_v0 (i : S4x512x32000.Idx) (k : Fin 2048) : S32000x2048.Idx := fun a => match a with
  | ⟨0, _⟩ => ⟨(i 2).val, (i 2).isLt⟩
  | ⟨1, _⟩ => ⟨k.val, k.isLt⟩

theorem val_main_v0_apply (x0 : (⟨S4x512x2048, .f32⟩ : BufTy).Contents (Elt Ideal)) (x3 : (⟨S32000x2048, .f32⟩ : BufTy).Contents (Elt Ideal)) (i : S4x512x32000.Idx) :
    val_main_v0 (F := Ideal) x0 x3 i = ∑ k : Fin 2048, x0 (lidx_main_v0 i k) * x3 (ridx_main_v0 i k) := by
  unfold val_main_v0
  simp only [Host.dotGeneral]
  rw [Ideal.dotGeneral_apply, ← Equiv.sum_comp (ValueIdx.contrEquiv1 dot_S4x512x2048_S32000x2048_S4x512x32000_2_1_01_0_n_n 2048 rfl rfl).symm]
  refine Finset.sum_congr rfl fun k _ => ?_
  have hk := ValueIdx.contrEquiv1_symm_val dot_S4x512x2048_S32000x2048_S4x512x32000_2_1_01_0_n_n 2048 rfl rfl k
  have el : dot_S4x512x2048_S32000x2048_S4x512x32000_2_1_01_0_n_n.lhsIdx i ((ValueIdx.contrEquiv1 dot_S4x512x2048_S32000x2048_S4x512x32000_2_1_01_0_n_n 2048 rfl rfl).symm k) = lidx_main_v0 i k := funext fun a => Fin.ext (by
    match a with
    | ⟨0, _⟩ => exact lhs_main_v0_0 _ _
    | ⟨1, _⟩ => exact lhs_main_v0_1 _ _
    | ⟨2, _⟩ => exact (lhs_main_v0_2 _ _).trans hk)
  have er : dot_S4x512x2048_S32000x2048_S4x512x32000_2_1_01_0_n_n.rhsIdx i ((ValueIdx.contrEquiv1 dot_S4x512x2048_S32000x2048_S4x512x32000_2_1_01_0_n_n 2048 rfl rfl).symm k) = ridx_main_v0 i k := funext fun a => Fin.ext (by
    match a with
    | ⟨0, _⟩ => exact rhs_main_v0_0 _ _
    | ⟨1, _⟩ => exact (rhs_main_v0_1 _ _).trans hk)
  rw [el, er]

def val_main_c : (⟨S_, .i32⟩ : BufTy).Contents (Elt F) :=
  constantI S_ 32 4294967196#32
def val_main_v1 : (⟨S4x512, .i32⟩ : BufTy).Contents (Elt F) :=
  broadcastInDim S4x512 ![] bcast_S_S4x512 (val_main_c (F := F))
def val_main_v2 : (⟨S4x512, .i1⟩ : BufTy).Contents (Elt F) :=
  cmpi .ne (x2) (val_main_v1 (F := F))
def val_main_c_0 : (⟨S_, .i32⟩ : BufTy).Contents (Elt F) :=
  constantI S_ 32 0#32
def val_main_call0_v0 : (⟨S_, .i32⟩ : BufTy).Contents (Elt F) :=
  id (val_main_c_0 (F := F))
def val_main_call0_v1 : (⟨S4x512, .i32⟩ : BufTy).Contents (Elt F) :=
  broadcastInDim S4x512 ![] bcast_S_S4x512 (val_main_call0_v0 (F := F))
def val_main_v3 : (⟨S4x512, .i32⟩ : BufTy).Contents (Elt F) :=
  select (val_main_v2 (F := F) x2) (x2) (val_main_call0_v1 (F := F))
def val_main_call1_cst : (⟨S_, .f32⟩ : BufTy).Contents (Elt F) :=
  constant S_ .f32 0xFF800000#32
def val_main_call1_v0 : (⟨S4x512, .f32⟩ : BufTy).Contents (Elt F) :=
  Host.reduce FloatOps.maximumf (val_main_v0 (F := F) x0 x3) (val_main_call1_cst (F := F)) reducesTo_S4x512x32000_S4x512_d2 h_S_

def val_main_call1_cst_0 : (⟨S_, .f32⟩ : BufTy).Contents (Elt F) :=
  constant S_ .f32 0xFF800000#32
theorem val_main_call1_cst_0_apply (i : S_.Idx) :
    val_main_call1_cst_0 (F := F) i = FloatOps.ofBits .f32 0xFF800000#32 := rfl

def val_main_call1_v1 : (⟨S4x512, .f32⟩ : BufTy).Contents (Elt F) :=
  broadcastInDim S4x512 ![] bcast_S_S4x512 (val_main_call1_cst_0 (F := F))
abbrev idx_main_call1_v1 (i : S4x512.Idx) : S_.Idx := fun a => a.elim0
theorem val_main_call1_v1_apply (i : S4x512.Idx) :
    val_main_call1_v1 (F := F) i = val_main_call1_cst_0 (F := F) (idx_main_call1_v1 i) := by
  unfold val_main_call1_v1
  generalize val_main_call1_cst_0 (F := F) = y
  exact broadcastInDim_apply _ bcast_S_S4x512 y i (idx_main_call1_v1 i) (fun a => a.elim0)

def val_main_call1_v2 : (⟨S4x512, .f32⟩ : BufTy).Contents (Elt F) :=
  maximumf (val_main_call1_v1 (F := F)) (val_main_call1_v0 (F := F) x0 x3)
theorem val_main_call1_v2_apply (i : S4x512.Idx) :
    val_main_call1_v2 (F := F) x0 x3 i = FloatOps.maximumf (val_main_call1_v1 (F := F) i) (val_main_call1_v0 (F := F) x0 x3 i) := rfl

def val_main_call1_v3 : (⟨S4x512x1, .f32⟩ : BufTy).Contents (Elt F) :=
  broadcastInDim S4x512x1 ![0, 1] bcast_S4x512_S4x512x1_0_1 (val_main_call1_v2 (F := F) x0 x3)
abbrev idx_main_call1_v3 (i : S4x512x1.Idx) : S4x512.Idx := fun a => match a with
  | ⟨0, _⟩ => ⟨(i 0).val, (i 0).isLt⟩
  | ⟨1, _⟩ => ⟨(i 1).val, (i 1).isLt⟩
theorem val_main_call1_v3_apply (i : S4x512x1.Idx) :
    val_main_call1_v3 (F := F) x0 x3 i = val_main_call1_v2 (F := F) x0 x3 (idx_main_call1_v3 i) := by
  unfold val_main_call1_v3
  generalize val_main_call1_v2 (F := F) x0 x3 = y
  exact broadcastInDim_apply _ bcast_S4x512_S4x512x1_0_1 y i (idx_main_call1_v3 i) (fun a => match a with
    | ⟨0, _⟩ => by show (i 0).val = if (4 : Nat) = 1 then 0 else (i 0).val; rw [if_neg (by decide)]
    | ⟨1, _⟩ => by show (i 1).val = if (512 : Nat) = 1 then 0 else (i 1).val; rw [if_neg (by decide)])

def val_main_call1_v4 : (⟨S4x512x32000, .f32⟩ : BufTy).Contents (Elt F) :=
  broadcastInDim S4x512x32000 ![0, 1, 2] bcast_S4x512x1_S4x512x32000_0_1_2 (val_main_call1_v3 (F := F) x0 x3)
abbrev idx_main_call1_v4 (i : S4x512x32000.Idx) : S4x512x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_call1_v4_apply (i : S4x512x32000.Idx) :
    val_main_call1_v4 (F := F) x0 x3 i = val_main_call1_v3 (F := F) x0 x3 (idx_main_call1_v4 i) := by
  unfold val_main_call1_v4
  generalize val_main_call1_v3 (F := F) x0 x3 = y
  exact broadcastInDim_apply _ bcast_S4x512x1_S4x512x32000_0_1_2 y i (idx_main_call1_v4 i) (fun a => match a with
    | ⟨0, _⟩ => by show (i 0).val = if (4 : Nat) = 1 then 0 else (i 0).val; rw [if_neg (by decide)]
    | ⟨1, _⟩ => by show (i 1).val = if (512 : Nat) = 1 then 0 else (i 1).val; rw [if_neg (by decide)]
    | ⟨2, _⟩ => by show 0 = if (1 : Nat) = 1 then 0 else (i 2).val; rw [if_pos rfl])

def val_main_call1_v5 : (⟨S4x512x32000, .f32⟩ : BufTy).Contents (Elt F) :=
  subf (val_main_v0 (F := F) x0 x3) (val_main_call1_v4 (F := F) x0 x3)
theorem val_main_call1_v5_apply (i : S4x512x32000.Idx) :
    val_main_call1_v5 (F := F) x0 x3 i = FloatOps.subf (val_main_v0 (F := F) x0 x3 i) (val_main_call1_v4 (F := F) x0 x3 i) := rfl

def val_main_call1_v6 : (⟨S4x512x32000, .f32⟩ : BufTy).Contents (Elt F) :=
  Host.exp (val_main_call1_v5 (F := F) x0 x3)
theorem val_main_call1_v6_apply (i : S4x512x32000.Idx) :
    val_main_call1_v6 (F := F) x0 x3 i = FloatOps.hostUnary .exp (val_main_call1_v5 (F := F) x0 x3 i) := rfl

def val_main_call1_cst_1 : (⟨S_, .f32⟩ : BufTy).Contents (Elt F) :=
  constant S_ .f32 0x00000000#32
theorem val_main_call1_cst_1_apply (i : S_.Idx) :
    val_main_call1_cst_1 (F := F) i = FloatOps.ofBits .f32 0x00000000#32 := rfl

def val_main_call1_v7 : (⟨S4x512, .f32⟩ : BufTy).Contents (Elt F) :=
  Host.reduceAdd (val_main_call1_v6 (F := F) x0 x3) (val_main_call1_cst_1 (F := F)) reducesTo_S4x512x32000_S4x512_d2 h_S_
abbrev idx_main_call1_v7 (i : S4x512.Idx) (k : Fin 32000) : S4x512x32000.Idx := fun a => match a with
  | ⟨0, _⟩ => ⟨(i 0).val, (i 0).isLt⟩
  | ⟨1, _⟩ => ⟨(i 1).val, (i 1).isLt⟩
  | ⟨2, _⟩ => ⟨k.val, k.isLt⟩

theorem val_main_call1_v7_apply (x0 : (⟨S4x512x2048, .f32⟩ : BufTy).Contents (Elt Ideal)) (x3 : (⟨S32000x2048, .f32⟩ : BufTy).Contents (Elt Ideal)) (i : S4x512.Idx) :
    val_main_call1_v7 (F := Ideal) x0 x3 i = (val_main_call1_cst_1 (F := Ideal)) (Shape.Idx.first h_S_) + ∑ k : Fin 32000, (val_main_call1_v6 (F := Ideal) x0 x3) (idx_main_call1_v7 i k) := by
  unfold val_main_call1_v7
  generalize val_main_call1_v6 (F := Ideal) x0 x3 = y0
  simp only [Host.reduceAdd, Ideal.hostReduceAdd_def]
  rw [Ideal.hostReduceAdd_single reducesTo_S4x512x32000_S4x512_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl))

def val_main_call1_v8 : (⟨S4x512x1, .f32⟩ : BufTy).Contents (Elt F) :=
  broadcastInDim S4x512x1 ![0, 1] bcast_S4x512_S4x512x1_0_1 (val_main_call1_v7 (F := F) x0 x3)
abbrev idx_main_call1_v8 (i : S4x512x1.Idx) : S4x512.Idx := fun a => match a with
  | ⟨0, _⟩ => ⟨(i 0).val, (i 0).isLt⟩
  | ⟨1, _⟩ => ⟨(i 1).val, (i 1).isLt⟩
theorem val_main_call1_v8_apply (i : S4x512x1.Idx) :
    val_main_call1_v8 (F := F) x0 x3 i = val_main_call1_v7 (F := F) x0 x3 (idx_main_call1_v8 i) := by
  unfold val_main_call1_v8
  generalize val_main_call1_v7 (F := F) x0 x3 = y
  exact broadcastInDim_apply _ bcast_S4x512_S4x512x1_0_1 y i (idx_main_call1_v8 i) (fun a => match a with
    | ⟨0, _⟩ => by show (i 0).val = if (4 : Nat) = 1 then 0 else (i 0).val; rw [if_neg (by decide)]
    | ⟨1, _⟩ => by show (i 1).val = if (512 : Nat) = 1 then 0 else (i 1).val; rw [if_neg (by decide)])

def val_main_call1_v9 : (⟨S4x512x1, .f32⟩ : BufTy).Contents (Elt F) :=
  Host.log (val_main_call1_v8 (F := F) x0 x3)
theorem val_main_call1_v9_apply (i : S4x512x1.Idx) :
    val_main_call1_v9 (F := F) x0 x3 i = FloatOps.hostUnary .log (val_main_call1_v8 (F := F) x0 x3 i) := rfl

def val_main_call1_v10 : (⟨S4x512x32000, .f32⟩ : BufTy).Contents (Elt F) :=
  broadcastInDim S4x512x32000 ![0, 1, 2] bcast_S4x512x1_S4x512x32000_0_1_2 (val_main_call1_v9 (F := F) x0 x3)
abbrev idx_main_call1_v10 (i : S4x512x32000.Idx) : S4x512x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_call1_v10_apply (i : S4x512x32000.Idx) :
    val_main_call1_v10 (F := F) x0 x3 i = val_main_call1_v9 (F := F) x0 x3 (idx_main_call1_v10 i) := by
  unfold val_main_call1_v10
  generalize val_main_call1_v9 (F := F) x0 x3 = y
  exact broadcastInDim_apply _ bcast_S4x512x1_S4x512x32000_0_1_2 y i (idx_main_call1_v10 i) (fun a => match a with
    | ⟨0, _⟩ => by show (i 0).val = if (4 : Nat) = 1 then 0 else (i 0).val; rw [if_neg (by decide)]
    | ⟨1, _⟩ => by show (i 1).val = if (512 : Nat) = 1 then 0 else (i 1).val; rw [if_neg (by decide)]
    | ⟨2, _⟩ => by show 0 = if (1 : Nat) = 1 then 0 else (i 2).val; rw [if_pos rfl])

def val_main_v4 : (⟨S4x512x32000, .f32⟩ : BufTy).Contents (Elt F) :=
  subf (val_main_call1_v5 (F := F) x0 x3) (val_main_call1_v10 (F := F) x0 x3)
theorem val_main_v4_apply (i : S4x512x32000.Idx) :
    val_main_v4 (F := F) x0 x3 i = FloatOps.subf (val_main_call1_v5 (F := F) x0 x3 i) (val_main_call1_v10 (F := F) x0 x3 i) := rfl

def val_main_v5 : (⟨S4x512x1, .i32⟩ : BufTy).Contents (Elt F) :=
  broadcastInDim S4x512x1 ![0, 1] bcast_S4x512_S4x512x1_0_1 (val_main_v3 (F := F) x2)
abbrev idx_main_v5 (i : S4x512x1.Idx) : S4x512.Idx := fun a => match a with
  | ⟨0, _⟩ => ⟨(i 0).val, (i 0).isLt⟩
  | ⟨1, _⟩ => ⟨(i 1).val, (i 1).isLt⟩
theorem val_main_v5_apply (i : S4x512x1.Idx) :
    val_main_v5 (F := F) x2 i = val_main_v3 (F := F) x2 (idx_main_v5 i) := by
  unfold val_main_v5
  generalize val_main_v3 (F := F) x2 = y
  exact broadcastInDim_apply _ bcast_S4x512_S4x512x1_0_1 y i (idx_main_v5 i) (fun a => match a with
    | ⟨0, _⟩ => by show (i 0).val = if (4 : Nat) = 1 then 0 else (i 0).val; rw [if_neg (by decide)]
    | ⟨1, _⟩ => by show (i 1).val = if (512 : Nat) = 1 then 0 else (i 1).val; rw [if_neg (by decide)])

def val_main_call2_c : (⟨S_, .i32⟩ : BufTy).Contents (Elt F) :=
  constantI S_ 32 0#32
theorem val_main_call2_c_apply (i : S_.Idx) :
    val_main_call2_c (F := F) i = 0#32 := rfl

def val_main_call2_v0 : (⟨S4x512x1, .i32⟩ : BufTy).Contents (Elt F) :=
  broadcastInDim S4x512x1 ![] bcast_S_S4x512x1 (val_main_call2_c (F := F))
abbrev idx_main_call2_v0 (i : S4x512x1.Idx) : S_.Idx := fun a => a.elim0
theorem val_main_call2_v0_apply (i : S4x512x1.Idx) :
    val_main_call2_v0 (F := F) i = val_main_call2_c (F := F) (idx_main_call2_v0 i) := by
  unfold val_main_call2_v0
  generalize val_main_call2_c (F := F) = y
  exact broadcastInDim_apply _ bcast_S_S4x512x1 y i (idx_main_call2_v0 i) (fun a => a.elim0)

def val_main_call2_v1 : (⟨S4x512x1, .i1⟩ : BufTy).Contents (Elt F) :=
  cmpi .slt (val_main_v5 (F := F) x2) (val_main_call2_v0 (F := F))
theorem val_main_call2_v1_apply (i : S4x512x1.Idx) :
    val_main_call2_v1 (F := F) x2 i = IntOp.cmpi .slt (val_main_v5 (F := F) x2 i) (val_main_call2_v0 (F := F) i) := rfl

def val_main_call2_c_0 : (⟨S_, .i32⟩ : BufTy).Contents (Elt F) :=
  constantI S_ 32 32000#32
def val_main_call2_v2 : (⟨S4x512x1, .i32⟩ : BufTy).Contents (Elt F) :=
  broadcastInDim S4x512x1 ![] bcast_S_S4x512x1 (val_main_call2_c_0 (F := F))
def val_main_call2_v3 : (⟨S4x512x1, .i32⟩ : BufTy).Contents (Elt F) :=
  addi (val_main_v5 (F := F) x2) (val_main_call2_v2 (F := F))
def val_main_call2_v4 : (⟨S4x512x1, .i32⟩ : BufTy).Contents (Elt F) :=
  select (val_main_call2_v1 (F := F) x2) (val_main_call2_v3 (F := F) x2) (val_main_v5 (F := F) x2)
theorem val_main_call2_v4_apply (i : S4x512x1.Idx) :
    val_main_call2_v4 (F := F) x2 i = Scalar.select (val_main_call2_v1 (F := F) x2 i) (val_main_call2_v3 (F := F) x2 i) (val_main_v5 (F := F) x2 i) := rfl

def val_main_call2_v5 : (⟨S4x512x1x1, .i32⟩ : BufTy).Contents (Elt F) :=
  shapeCast _ (val_main_call2_v4 (F := F) x2) shapeCasts_S4x512x1_S4x512x1x1
abbrev idx_main_call2_v5 (i : S4x512x1x1.Idx) : S4x512x1.Idx := fun a => match a with
  | ⟨0, _⟩ => ⟨((((i 0).val * 512 + (i 1).val) * 1 + (i 2).val) * 1 + (i 3).val) / 512, by have h0 : (i 0).val < 4 := (i 0).isLt; have h1 : (i 1).val < 512 := (i 1).isLt; have h2 : (i 2).val < 1 := (i 2).isLt; have h3 : (i 3).val < 1 := (i 3).isLt; show ((((i 0).val * 512 + (i 1).val) * 1 + (i 2).val) * 1 + (i 3).val) / 512 < 4; omega⟩
  | ⟨1, _⟩ => ⟨((((i 0).val * 512 + (i 1).val) * 1 + (i 2).val) * 1 + (i 3).val) / 1 % 512, by have h0 : (i 0).val < 4 := (i 0).isLt; have h1 : (i 1).val < 512 := (i 1).isLt; have h2 : (i 2).val < 1 := (i 2).isLt; have h3 : (i 3).val < 1 := (i 3).isLt; show ((((i 0).val * 512 + (i 1).val) * 1 + (i 2).val) * 1 + (i 3).val) / 1 % 512 < 512; omega⟩
  | ⟨2, _⟩ => ⟨0, Nat.one_pos⟩
theorem val_main_call2_v5_apply (i : S4x512x1x1.Idx) :
    val_main_call2_v5 (F := F) x2 i = val_main_call2_v4 (F := F) x2 (idx_main_call2_v5 i) := by
  unfold val_main_call2_v5
  generalize val_main_call2_v4 (F := F) x2 = y
  exact shapeCast_apply y shapeCasts_S4x512x1_S4x512x1x1 i (idx_main_call2_v5 i)
    (by rewrite [Shape.rowMajor_val_three, Shape.rowMajor_val_four]; have h0 : (i 0).val < 4 := (i 0).isLt; have h1 : (i 1).val < 512 := (i 1).isLt; have h2 : (i 2).val < 1 := (i 2).isLt; have h3 : (i 3).val < 1 := (i 3).isLt; show (((((i 0).val * 512 + (i 1).val) * 1 + (i 2).val) * 1 + (i 3).val) / 512 * 512 + ((((i 0).val * 512 + (i 1).val) * 1 + (i 2).val) * 1 + (i 3).val) / 1 % 512) * 1 + 0 = (((i 0).val * 512 + (i 1).val) * 1 + (i 2).val) * 1 + (i 3).val; omega)

def val_main_call2_c_1 : (⟨S1, .i32⟩ : BufTy).Contents (Elt F) :=
  constantI S1 32 31999#32
theorem val_main_call2_c_1_apply (i : S1.Idx) :
    val_main_call2_c_1 (F := F) i = 31999#32 := rfl

def val_main_call2_c_2 : (⟨S_, .i32⟩ : BufTy).Contents (Elt F) :=
  constantI S_ 32 0#32
theorem val_main_call2_c_2_apply (i : S_.Idx) :
    val_main_call2_c_2 (F := F) i = 0#32 := rfl

def val_main_call2_v6 : (⟨S4x512x1x1, .i32⟩ : BufTy).Contents (Elt F) :=
  broadcastInDim S4x512x1x1 ![] bcast_S_S4x512x1x1 (val_main_call2_c_2 (F := F))
abbrev idx_main_call2_v6 (i : S4x512x1x1.Idx) : S_.Idx := fun a => a.elim0
theorem val_main_call2_v6_apply (i : S4x512x1x1.Idx) :
    val_main_call2_v6 (F := F) i = val_main_call2_c_2 (F := F) (idx_main_call2_v6 i) := by
  unfold val_main_call2_v6
  generalize val_main_call2_c_2 (F := F) = y
  exact broadcastInDim_apply _ bcast_S_S4x512x1x1 y i (idx_main_call2_v6 i) (fun a => a.elim0)

def val_main_call2_v7 : (⟨S4x512x1x1, .i1⟩ : BufTy).Contents (Elt F) :=
  cmpi .sge (val_main_call2_v5 (F := F) x2) (val_main_call2_v6 (F := F))
theorem val_main_call2_v7_apply (i : S4x512x1x1.Idx) :
    val_main_call2_v7 (F := F) x2 i = IntOp.cmpi .sge (val_main_call2_v5 (F := F) x2 i) (val_main_call2_v6 (F := F) i) := rfl

def val_main_call2_v8 : (⟨S1x1x1x1, .i32⟩ : BufTy).Contents (Elt F) :=
  broadcastInDim S1x1x1x1 ![3] bcast_S1_S1x1x1x1_3 (val_main_call2_c_1 (F := F))
abbrev idx_main_call2_v8 (i : S1x1x1x1.Idx) : S1.Idx := fun a => match a with
  | ⟨0, _⟩ => ⟨0, Nat.one_pos⟩
theorem val_main_call2_v8_apply (i : S1x1x1x1.Idx) :
    val_main_call2_v8 (F := F) i = val_main_call2_c_1 (F := F) (idx_main_call2_v8 i) := by
  unfold val_main_call2_v8
  generalize val_main_call2_c_1 (F := F) = y
  exact broadcastInDim_apply _ bcast_S1_S1x1x1x1_3 y i (idx_main_call2_v8 i) (fun a => match a with
    | ⟨0, _⟩ => by show 0 = if (1 : Nat) = 1 then 0 else (i 3).val; rw [if_pos rfl])

def val_main_call2_v9 : (⟨S4x512x1x1, .i32⟩ : BufTy).Contents (Elt F) :=
  broadcastInDim S4x512x1x1 ![0, 1, 2, 3] bcast_S1x1x1x1_S4x512x1x1_0_1_2_3 (val_main_call2_v8 (F := F))
abbrev idx_main_call2_v9 (i : S4x512x1x1.Idx) : S1x1x1x1.Idx := fun a => match a with
  | ⟨0, _⟩ => ⟨0, Nat.one_pos⟩
  | ⟨1, _⟩ => ⟨0, Nat.one_pos⟩
  | ⟨2, _⟩ => ⟨0, Nat.one_pos⟩
  | ⟨3, _⟩ => ⟨0, Nat.one_pos⟩
theorem val_main_call2_v9_apply (i : S4x512x1x1.Idx) :
    val_main_call2_v9 (F := F) i = val_main_call2_v8 (F := F) (idx_main_call2_v9 i) := by
  unfold val_main_call2_v9
  generalize val_main_call2_v8 (F := F) = y
  exact broadcastInDim_apply _ bcast_S1x1x1x1_S4x512x1x1_0_1_2_3 y i (idx_main_call2_v9 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show 0 = if (1 : Nat) = 1 then 0 else (i 2).val; rw [if_pos rfl]
    | ⟨3, _⟩ => by show 0 = if (1 : Nat) = 1 then 0 else (i 3).val; rw [if_pos rfl])

def val_main_call2_v10 : (⟨S4x512x1x1, .i1⟩ : BufTy).Contents (Elt F) :=
  cmpi .sle (val_main_call2_v5 (F := F) x2) (val_main_call2_v9 (F := F))
theorem val_main_call2_v10_apply (i : S4x512x1x1.Idx) :
    val_main_call2_v10 (F := F) x2 i = IntOp.cmpi .sle (val_main_call2_v5 (F := F) x2 i) (val_main_call2_v9 (F := F) i) := rfl

def val_main_call2_v11 : (⟨S4x512x1x1, .i1⟩ : BufTy).Contents (Elt F) :=
  andi (val_main_call2_v7 (F := F) x2) (val_main_call2_v10 (F := F) x2)
theorem val_main_call2_v11_apply (i : S4x512x1x1.Idx) :
    val_main_call2_v11 (F := F) x2 i = IntOp.andi (val_main_call2_v7 (F := F) x2 i) (val_main_call2_v10 (F := F) x2 i) := rfl

def val_main_call2_c_3 : (⟨S_, .i1⟩ : BufTy).Contents (Elt F) :=
  constantI S_ 1 1#1
def val_main_call2_v12 : (⟨S4x512x1, .i1⟩ : BufTy).Contents (Elt F) :=
  Host.reduce IntOp.andi (val_main_call2_v11 (F := F) x2) (val_main_call2_c_3 (F := F)) reducesTo_S4x512x1x1_S4x512x1_d3 h_S_

def val_main_call2_v13 : (⟨S4x512x1, .f32⟩ : BufTy).Contents (Elt F) :=
  Host.gather gather_S4x512x32000_S4x512x1x1_S4x512x1_n_2_01_01_2_3_111 (val_main_v4 (F := F) x0 x3) (val_main_call2_v5 (F := F) x2)

def val_main_call2_cst : (⟨S_, .f32⟩ : BufTy).Contents (Elt F) :=
  constant S_ .f32 0x7FC00000#32
def val_main_call2_v14 : (⟨S4x512x1, .f32⟩ : BufTy).Contents (Elt F) :=
  broadcastInDim S4x512x1 ![] bcast_S_S4x512x1 (val_main_call2_cst (F := F))
def val_main_v6 : (⟨S4x512x1, .f32⟩ : BufTy).Contents (Elt F) :=
  select (val_main_call2_v12 (F := F) x2) (val_main_call2_v13 (F := F) x0 x2 x3) (val_main_call2_v14 (F := F))
theorem val_main_v6_apply (i : S4x512x1.Idx) :
    val_main_v6 (F := F) x0 x2 x3 i = Scalar.select (val_main_call2_v12 (F := F) x2 i) (val_main_call2_v13 (F := F) x0 x2 x3 i) (val_main_call2_v14 (F := F) i) := rfl

def val_main_v7 : (⟨S4x512, .f32⟩ : BufTy).Contents (Elt F) :=
  shapeCast _ (val_main_v6 (F := F) x0 x2 x3) shapeCasts_S4x512x1_S4x512
abbrev idx_main_v7 (i : S4x512.Idx) : S4x512x1.Idx := fun a => match a with
  | ⟨0, _⟩ => ⟨((i 0).val * 512 + (i 1).val) / 512, by have h0 : (i 0).val < 4 := (i 0).isLt; have h1 : (i 1).val < 512 := (i 1).isLt; show ((i 0).val * 512 + (i 1).val) / 512 < 4; omega⟩
  | ⟨1, _⟩ => ⟨((i 0).val * 512 + (i 1).val) / 1 % 512, by have h0 : (i 0).val < 4 := (i 0).isLt; have h1 : (i 1).val < 512 := (i 1).isLt; show ((i 0).val * 512 + (i 1).val) / 1 % 512 < 512; omega⟩
  | ⟨2, _⟩ => ⟨0, Nat.one_pos⟩
theorem val_main_v7_apply (i : S4x512.Idx) :
    val_main_v7 (F := F) x0 x2 x3 i = val_main_v6 (F := F) x0 x2 x3 (idx_main_v7 i) := by
  unfold val_main_v7
  generalize val_main_v6 (F := F) x0 x2 x3 = y
  exact shapeCast_apply y shapeCasts_S4x512x1_S4x512 i (idx_main_v7 i)
    (by rewrite [Shape.rowMajor_val_three, Shape.rowMajor_val_two]; have h0 : (i 0).val < 4 := (i 0).isLt; have h1 : (i 1).val < 512 := (i 1).isLt; show (((i 0).val * 512 + (i 1).val) / 512 * 512 + ((i 0).val * 512 + (i 1).val) / 1 % 512) * 1 + 0 = (i 0).val * 512 + (i 1).val; omega)

def val_main_v8 : (⟨S4x512, .f32⟩ : BufTy).Contents (Elt F) :=
  uitofp .f32 (val_main_v2 (F := F) x2)
def val_main_v9 : (⟨S4x512, .f32⟩ : BufTy).Contents (Elt F) :=
  mulf (val_main_v7 (F := F) x0 x2 x3) (val_main_v8 (F := F) x2)
def val_main_cst : (⟨S_, .f32⟩ : BufTy).Contents (Elt F) :=
  constant S_ .f32 0x00000000#32
def val_main_v10 : (⟨S4, .f32⟩ : BufTy).Contents (Elt F) :=
  Host.reduceAdd (val_main_v9 (F := F) x0 x2 x3) (val_main_cst (F := F)) reducesTo_S4x512_S4_d1 h_S_
def val_main_cst_1 : (⟨S_, .f32⟩ : BufTy).Contents (Elt F) :=
  constant S_ .f32 0x00000000#32
def val_main_v11 : (⟨S4, .f32⟩ : BufTy).Contents (Elt F) :=
  Host.reduceAdd (val_main_v8 (F := F) x2) (val_main_cst_1 (F := F)) reducesTo_S4x512_S4_d1 h_S_
def val_main_v12 : (⟨S4, .f32⟩ : BufTy).Contents (Elt F) :=
  Host.divf (val_main_v10 (F := F) x0 x2 x3) (val_main_v11 (F := F) x2)
def val_main_v13 : (⟨S2, .f32⟩ : BufTy).Contents (Elt F) :=
  extractStridedSlice S2 ![0] (val_main_v12 (F := F) x0 x2 x3) slices_S4_S2_0
def val_main_v14 : (⟨S2, .f32⟩ : BufTy).Contents (Elt F) :=
  extractStridedSlice S2 ![2] (val_main_v12 (F := F) x0 x2 x3) slices_S4_S2_2
def val_main_v15 : (⟨S4x512x32000, .f32⟩ : BufTy).Contents (Elt F) :=
  Host.dotGeneral dot_S4x512x2048_S32000x2048_S4x512x32000_2_1_01_0_n_n none (x1) (x4)
def val_main_c_2 : (⟨S_, .i32⟩ : BufTy).Contents (Elt F) :=
  constantI S_ 32 4294967196#32
def val_main_v16 : (⟨S4x512, .i32⟩ : BufTy).Contents (Elt F) :=
  broadcastInDim S4x512 ![] bcast_S_S4x512 (val_main_c_2 (F := F))
def val_main_v17 : (⟨S4x512, .i1⟩ : BufTy).Contents (Elt F) :=
  cmpi .ne (x2) (val_main_v16 (F := F))
def val_main_c_3 : (⟨S_, .i32⟩ : BufTy).Contents (Elt F) :=
  constantI S_ 32 0#32
def val_main_call3_v0 : (⟨S_, .i32⟩ : BufTy).Contents (Elt F) :=
  id (val_main_c_3 (F := F))
def val_main_call3_v1 : (⟨S4x512, .i32⟩ : BufTy).Contents (Elt F) :=
  broadcastInDim S4x512 ![] bcast_S_S4x512 (val_main_call3_v0 (F := F))
def val_main_v18 : (⟨S4x512, .i32⟩ : BufTy).Contents (Elt F) :=
  select (val_main_v17 (F := F) x2) (x2) (val_main_call3_v1 (F := F))
def val_main_call4_cst : (⟨S_, .f32⟩ : BufTy).Contents (Elt F) :=
  constant S_ .f32 0xFF800000#32
def val_main_call4_v0 : (⟨S4x512, .f32⟩ : BufTy).Contents (Elt F) :=
  Host.reduce FloatOps.maximumf (val_main_v15 (F := F) x1 x4) (val_main_call4_cst (F := F)) reducesTo_S4x512x32000_S4x512_d2 h_S_

def val_main_call4_cst_0 : (⟨S_, .f32⟩ : BufTy).Contents (Elt F) :=
  constant S_ .f32 0xFF800000#32
def val_main_call4_v1 : (⟨S4x512, .f32⟩ : BufTy).Contents (Elt F) :=
  broadcastInDim S4x512 ![] bcast_S_S4x512 (val_main_call4_cst_0 (F := F))
def val_main_call4_v2 : (⟨S4x512, .f32⟩ : BufTy).Contents (Elt F) :=
  maximumf (val_main_call4_v1 (F := F)) (val_main_call4_v0 (F := F) x1 x4)
def val_main_call4_v3 : (⟨S4x512x1, .f32⟩ : BufTy).Contents (Elt F) :=
  broadcastInDim S4x512x1 ![0, 1] bcast_S4x512_S4x512x1_0_1 (val_main_call4_v2 (F := F) x1 x4)
def val_main_call4_v4 : (⟨S4x512x32000, .f32⟩ : BufTy).Contents (Elt F) :=
  broadcastInDim S4x512x32000 ![0, 1, 2] bcast_S4x512x1_S4x512x32000_0_1_2 (val_main_call4_v3 (F := F) x1 x4)
def val_main_call4_v5 : (⟨S4x512x32000, .f32⟩ : BufTy).Contents (Elt F) :=
  subf (val_main_v15 (F := F) x1 x4) (val_main_call4_v4 (F := F) x1 x4)
def val_main_call4_v6 : (⟨S4x512x32000, .f32⟩ : BufTy).Contents (Elt F) :=
  Host.exp (val_main_call4_v5 (F := F) x1 x4)
def val_main_call4_cst_1 : (⟨S_, .f32⟩ : BufTy).Contents (Elt F) :=
  constant S_ .f32 0x00000000#32
def val_main_call4_v7 : (⟨S4x512, .f32⟩ : BufTy).Contents (Elt F) :=
  Host.reduceAdd (val_main_call4_v6 (F := F) x1 x4) (val_main_call4_cst_1 (F := F)) reducesTo_S4x512x32000_S4x512_d2 h_S_
def val_main_call4_v8 : (⟨S4x512x1, .f32⟩ : BufTy).Contents (Elt F) :=
  broadcastInDim S4x512x1 ![0, 1] bcast_S4x512_S4x512x1_0_1 (val_main_call4_v7 (F := F) x1 x4)
def val_main_call4_v9 : (⟨S4x512x1, .f32⟩ : BufTy).Contents (Elt F) :=
  Host.log (val_main_call4_v8 (F := F) x1 x4)
def val_main_call4_v10 : (⟨S4x512x32000, .f32⟩ : BufTy).Contents (Elt F) :=
  broadcastInDim S4x512x32000 ![0, 1, 2] bcast_S4x512x1_S4x512x32000_0_1_2 (val_main_call4_v9 (F := F) x1 x4)
def val_main_v19 : (⟨S4x512x32000, .f32⟩ : BufTy).Contents (Elt F) :=
  subf (val_main_call4_v5 (F := F) x1 x4) (val_main_call4_v10 (F := F) x1 x4)
def val_main_v20 : (⟨S4x512x1, .i32⟩ : BufTy).Contents (Elt F) :=
  broadcastInDim S4x512x1 ![0, 1] bcast_S4x512_S4x512x1_0_1 (val_main_v18 (F := F) x2)
def val_main_call5_c : (⟨S_, .i32⟩ : BufTy).Contents (Elt F) :=
  constantI S_ 32 0#32
def val_main_call5_v0 : (⟨S4x512x1, .i32⟩ : BufTy).Contents (Elt F) :=
  broadcastInDim S4x512x1 ![] bcast_S_S4x512x1 (val_main_call5_c (F := F))
def val_main_call5_v1 : (⟨S4x512x1, .i1⟩ : BufTy).Contents (Elt F) :=
  cmpi .slt (val_main_v20 (F := F) x2) (val_main_call5_v0 (F := F))
def val_main_call5_c_0 : (⟨S_, .i32⟩ : BufTy).Contents (Elt F) :=
  constantI S_ 32 32000#32
def val_main_call5_v2 : (⟨S4x512x1, .i32⟩ : BufTy).Contents (Elt F) :=
  broadcastInDim S4x512x1 ![] bcast_S_S4x512x1 (val_main_call5_c_0 (F := F))
def val_main_call5_v3 : (⟨S4x512x1, .i32⟩ : BufTy).Contents (Elt F) :=
  addi (val_main_v20 (F := F) x2) (val_main_call5_v2 (F := F))
def val_main_call5_v4 : (⟨S4x512x1, .i32⟩ : BufTy).Contents (Elt F) :=
  select (val_main_call5_v1 (F := F) x2) (val_main_call5_v3 (F := F) x2) (val_main_v20 (F := F) x2)
def val_main_call5_v5 : (⟨S4x512x1x1, .i32⟩ : BufTy).Contents (Elt F) :=
  shapeCast _ (val_main_call5_v4 (F := F) x2) shapeCasts_S4x512x1_S4x512x1x1
def val_main_call5_c_1 : (⟨S1, .i32⟩ : BufTy).Contents (Elt F) :=
  constantI S1 32 31999#32
def val_main_call5_c_2 : (⟨S_, .i32⟩ : BufTy).Contents (Elt F) :=
  constantI S_ 32 0#32
def val_main_call5_v6 : (⟨S4x512x1x1, .i32⟩ : BufTy).Contents (Elt F) :=
  broadcastInDim S4x512x1x1 ![] bcast_S_S4x512x1x1 (val_main_call5_c_2 (F := F))
def val_main_call5_v7 : (⟨S4x512x1x1, .i1⟩ : BufTy).Contents (Elt F) :=
  cmpi .sge (val_main_call5_v5 (F := F) x2) (val_main_call5_v6 (F := F))
def val_main_call5_v8 : (⟨S1x1x1x1, .i32⟩ : BufTy).Contents (Elt F) :=
  broadcastInDim S1x1x1x1 ![3] bcast_S1_S1x1x1x1_3 (val_main_call5_c_1 (F := F))
def val_main_call5_v9 : (⟨S4x512x1x1, .i32⟩ : BufTy).Contents (Elt F) :=
  broadcastInDim S4x512x1x1 ![0, 1, 2, 3] bcast_S1x1x1x1_S4x512x1x1_0_1_2_3 (val_main_call5_v8 (F := F))
def val_main_call5_v10 : (⟨S4x512x1x1, .i1⟩ : BufTy).Contents (Elt F) :=
  cmpi .sle (val_main_call5_v5 (F := F) x2) (val_main_call5_v9 (F := F))
def val_main_call5_v11 : (⟨S4x512x1x1, .i1⟩ : BufTy).Contents (Elt F) :=
  andi (val_main_call5_v7 (F := F) x2) (val_main_call5_v10 (F := F) x2)
def val_main_call5_c_3 : (⟨S_, .i1⟩ : BufTy).Contents (Elt F) :=
  constantI S_ 1 1#1
def val_main_call5_v12 : (⟨S4x512x1, .i1⟩ : BufTy).Contents (Elt F) :=
  Host.reduce IntOp.andi (val_main_call5_v11 (F := F) x2) (val_main_call5_c_3 (F := F)) reducesTo_S4x512x1x1_S4x512x1_d3 h_S_

def val_main_call5_v13 : (⟨S4x512x1, .f32⟩ : BufTy).Contents (Elt F) :=
  Host.gather gather_S4x512x32000_S4x512x1x1_S4x512x1_n_2_01_01_2_3_111 (val_main_v19 (F := F) x1 x4) (val_main_call5_v5 (F := F) x2)

def val_main_call5_cst : (⟨S_, .f32⟩ : BufTy).Contents (Elt F) :=
  constant S_ .f32 0x7FC00000#32
def val_main_call5_v14 : (⟨S4x512x1, .f32⟩ : BufTy).Contents (Elt F) :=
  broadcastInDim S4x512x1 ![] bcast_S_S4x512x1 (val_main_call5_cst (F := F))
def val_main_v21 : (⟨S4x512x1, .f32⟩ : BufTy).Contents (Elt F) :=
  select (val_main_call5_v12 (F := F) x2) (val_main_call5_v13 (F := F) x1 x2 x4) (val_main_call5_v14 (F := F))
def val_main_v22 : (⟨S4x512, .f32⟩ : BufTy).Contents (Elt F) :=
  shapeCast _ (val_main_v21 (F := F) x1 x2 x4) shapeCasts_S4x512x1_S4x512
def val_main_v23 : (⟨S4x512, .f32⟩ : BufTy).Contents (Elt F) :=
  uitofp .f32 (val_main_v17 (F := F) x2)
def val_main_v24 : (⟨S4x512, .f32⟩ : BufTy).Contents (Elt F) :=
  mulf (val_main_v22 (F := F) x1 x2 x4) (val_main_v23 (F := F) x2)
def val_main_cst_4 : (⟨S_, .f32⟩ : BufTy).Contents (Elt F) :=
  constant S_ .f32 0x00000000#32
def val_main_v25 : (⟨S4, .f32⟩ : BufTy).Contents (Elt F) :=
  Host.reduceAdd (val_main_v24 (F := F) x1 x2 x4) (val_main_cst_4 (F := F)) reducesTo_S4x512_S4_d1 h_S_
def val_main_cst_5 : (⟨S_, .f32⟩ : BufTy).Contents (Elt F) :=
  constant S_ .f32 0x00000000#32
def val_main_v26 : (⟨S4, .f32⟩ : BufTy).Contents (Elt F) :=
  Host.reduceAdd (val_main_v23 (F := F) x2) (val_main_cst_5 (F := F)) reducesTo_S4x512_S4_d1 h_S_
def val_main_v27 : (⟨S4, .f32⟩ : BufTy).Contents (Elt F) :=
  Host.divf (val_main_v25 (F := F) x1 x2 x4) (val_main_v26 (F := F) x2)
def val_main_v28 : (⟨S2, .f32⟩ : BufTy).Contents (Elt F) :=
  extractStridedSlice S2 ![0] (val_main_v27 (F := F) x1 x2 x4) slices_S4_S2_0
def val_main_v29 : (⟨S2, .f32⟩ : BufTy).Contents (Elt F) :=
  extractStridedSlice S2 ![2] (val_main_v27 (F := F) x1 x2 x4) slices_S4_S2_2
def val_main_v30 : (⟨S2, .f32⟩ : BufTy).Contents (Elt F) :=
  subf (val_main_v13 (F := F) x0 x2 x3) (val_main_v28 (F := F) x1 x2 x4)
def val_main_v31 : (⟨S2, .f32⟩ : BufTy).Contents (Elt F) :=
  subf (val_main_v14 (F := F) x0 x2 x3) (val_main_v29 (F := F) x1 x2 x4)
def val_main_cst_8 : (⟨S_, .f32⟩ : BufTy).Contents (Elt F) :=
  constant S_ .f32 0x40A00000#32
def val_main_v36 : (⟨S2, .f32⟩ : BufTy).Contents (Elt F) :=
  broadcastInDim S2 ![] bcast_S_S2 (val_main_cst_8 (F := F))
def val_main_v37 : (⟨S2, .f32⟩ : BufTy).Contents (Elt F) :=
  subf (val_main_v30 (F := F) x0 x1 x2 x3 x4) (val_main_v36 (F := F))
def val_main_v38 : (⟨S2, .f32⟩ : BufTy).Contents (Elt F) :=
  mulf (val_main_v37 (F := F) x0 x1 x2 x3 x4) (val_main_v37 (F := F) x0 x1 x2 x3 x4)
def val_main_cst_9 : (⟨S_, .f32⟩ : BufTy).Contents (Elt F) :=
  constant S_ .f32 0x40A00000#32
def val_main_v39 : (⟨S2, .f32⟩ : BufTy).Contents (Elt F) :=
  broadcastInDim S2 ![] bcast_S_S2 (val_main_cst_9 (F := F))
def val_main_v40 : (⟨S2, .f32⟩ : BufTy).Contents (Elt F) :=
  addf (val_main_v31 (F := F) x0 x1 x2 x3 x4) (val_main_v39 (F := F))
def val_main_v41 : (⟨S2, .f32⟩ : BufTy).Contents (Elt F) :=
  mulf (val_main_v40 (F := F) x0 x1 x2 x3 x4) (val_main_v40 (F := F) x0 x1 x2 x3 x4)
def val_main_v42 : (⟨S2, .f32⟩ : BufTy).Contents (Elt F) :=
  addf (val_main_v38 (F := F) x0 x1 x2 x3 x4) (val_main_v41 (F := F) x0 x1 x2 x3 x4)
def val_main_cst_10 : (⟨S_, .f32⟩ : BufTy).Contents (Elt F) :=
  constant S_ .f32 0x00000000#32
def val_main_cst_11 : (⟨S_, .f32⟩ : BufTy).Contents (Elt F) :=
  constant S_ .f32 0x3F800000#32
def val_main_v43 : (⟨S_, .f32⟩ : BufTy).Contents (Elt F) :=
  mulf (val_main_cst_10 (F := F)) (val_main_cst_11 (F := F))
def val_main_cst_12 : (⟨S_, .f32⟩ : BufTy).Contents (Elt F) :=
  constant S_ .f32 0x00000000#32
def val_main_v44 : (⟨S_, .f32⟩ : BufTy).Contents (Elt F) :=
  Host.reduceAdd (val_main_v42 (F := F) x0 x1 x2 x3 x4) (val_main_cst_12 (F := F)) reducesTo_S2_S_d0 h_S_

def val_main_cst_13 : (⟨S_, .f32⟩ : BufTy).Contents (Elt F) :=
  constant S_ .f32 0x40000000#32
def val_main_v45 : (⟨S_, .f32⟩ : BufTy).Contents (Elt F) :=
  Host.divf (val_main_v44 (F := F) x0 x1 x2 x3 x4) (val_main_cst_13 (F := F))
def val_main_v46 : (⟨S_, .f32⟩ : BufTy).Contents (Elt F) :=
  subf (val_main_v43 (F := F)) (val_main_v45 (F := F) x0 x1 x2 x3 x4)

end Cert.ReferenceIdeal.ReadP

end
-- ==== Proof.RefRun.lean ====
import proofs.«405262_j58909771432351_3_alg».proof.Proof.RefRead
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

abbrev ops : List (HloOp τ sig (Elt F)) :=
  [ binary main_arg0 main_arg3 main_v0 ((fun l r => Host.dotGeneral dot_S4x512x2048_S32000x2048_S4x512x32000_2_1_01_0_n_n none l r) : (⟨S4x512x2048, .f32⟩ : BufTy).Contents (Elt F) → (⟨S32000x2048, .f32⟩ : BufTy).Contents (Elt F) → (⟨S4x512x32000, .f32⟩ : BufTy).Contents (Elt F)),
    nullary main_c (constantI S_ 32 4294967196#32),
    unary main_c main_v1 (broadcastInDim S4x512 ![] bcast_S_S4x512 : (⟨S_, .i32⟩ : BufTy).Contents (Elt F) → (⟨S4x512, .i32⟩ : BufTy).Contents (Elt F)),
    binary main_arg2 main_v1 main_v2 (cmpi .ne : (⟨S4x512, .i32⟩ : BufTy).Contents (Elt F) → (⟨S4x512, .i32⟩ : BufTy).Contents (Elt F) → (⟨S4x512, .i1⟩ : BufTy).Contents (Elt F)),
    nullary main_c_0 (constantI S_ 32 0#32),
    unary main_c_0 main_call0_v0 (id : (⟨S_, .i32⟩ : BufTy).Contents (Elt F) → (⟨S_, .i32⟩ : BufTy).Contents (Elt F)),
    unary main_call0_v0 main_call0_v1 ((broadcastInDim S4x512 ![] bcast_S_S4x512) : (⟨S_, .i32⟩ : BufTy).Contents (Elt F) → (⟨S4x512, .i32⟩ : BufTy).Contents (Elt F)),
    ternary main_v2 main_arg2 main_call0_v1 main_v3 (select : (⟨S4x512, .i1⟩ : BufTy).Contents (Elt F) → (⟨S4x512, .i32⟩ : BufTy).Contents (Elt F) → (⟨S4x512, .i32⟩ : BufTy).Contents (Elt F) → (⟨S4x512, .i32⟩ : BufTy).Contents (Elt F)),
    nullary main_call1_cst ((constant S_ .f32 0xFF800000#32) : (⟨S_, .f32⟩ : BufTy).Contents (Elt F)),
    binary main_v0 main_call1_cst main_call1_v0 ((fun x v => Host.reduce FloatOps.maximumf x v reducesTo_S4x512x32000_S4x512_d2 h_S_) : (⟨S4x512x32000, .f32⟩ : BufTy).Contents (Elt F) → (⟨S_, .f32⟩ : BufTy).Contents (Elt F) → (⟨S4x512, .f32⟩ : BufTy).Contents (Elt F)),
    nullary main_call1_cst_0 ((constant S_ .f32 0xFF800000#32) : (⟨S_, .f32⟩ : BufTy).Contents (Elt F)),
    unary main_call1_cst_0 main_call1_v1 ((broadcastInDim S4x512 ![] bcast_S_S4x512) : (⟨S_, .f32⟩ : BufTy).Contents (Elt F) → (⟨S4x512, .f32⟩ : BufTy).Contents (Elt F)),
    binary main_call1_v1 main_call1_v0 main_call1_v2 (maximumf : (⟨S4x512, .f32⟩ : BufTy).Contents (Elt F) → (⟨S4x512, .f32⟩ : BufTy).Contents (Elt F) → (⟨S4x512, .f32⟩ : BufTy).Contents (Elt F)),
    unary main_call1_v2 main_call1_v3 ((broadcastInDim S4x512x1 ![0, 1] bcast_S4x512_S4x512x1_0_1) : (⟨S4x512, .f32⟩ : BufTy).Contents (Elt F) → (⟨S4x512x1, .f32⟩ : BufTy).Contents (Elt F)),
    unary main_call1_v3 main_call1_v4 ((broadcastInDim S4x512x32000 ![0, 1, 2] bcast_S4x512x1_S4x512x32000_0_1_2) : (⟨S4x512x1, .f32⟩ : BufTy).Contents (Elt F) → (⟨S4x512x32000, .f32⟩ : BufTy).Contents (Elt F)),
    binary main_v0 main_call1_v4 main_call1_v5 (subf : (⟨S4x512x32000, .f32⟩ : BufTy).Contents (Elt F) → (⟨S4x512x32000, .f32⟩ : BufTy).Contents (Elt F) → (⟨S4x512x32000, .f32⟩ : BufTy).Contents (Elt F)),
    unary main_call1_v5 main_call1_v6 (Host.exp : (⟨S4x512x32000, .f32⟩ : BufTy).Contents (Elt F) → (⟨S4x512x32000, .f32⟩ : BufTy).Contents (Elt F)),
    nullary main_call1_cst_1 ((constant S_ .f32 0x00000000#32) : (⟨S_, .f32⟩ : BufTy).Contents (Elt F)),
    binary main_call1_v6 main_call1_cst_1 main_call1_v7 ((fun x v => Host.reduceAdd x v reducesTo_S4x512x32000_S4x512_d2 h_S_) : (⟨S4x512x32000, .f32⟩ : BufTy).Contents (Elt F) → (⟨S_, .f32⟩ : BufTy).Contents (Elt F) → (⟨S4x512, .f32⟩ : BufTy).Contents (Elt F)),
    unary main_call1_v7 main_call1_v8 ((broadcastInDim S4x512x1 ![0, 1] bcast_S4x512_S4x512x1_0_1) : (⟨S4x512, .f32⟩ : BufTy).Contents (Elt F) → (⟨S4x512x1, .f32⟩ : BufTy).Contents (Elt F)),
    unary main_call1_v8 main_call1_v9 (Host.log : (⟨S4x512x1, .f32⟩ : BufTy).Contents (Elt F) → (⟨S4x512x1, .f32⟩ : BufTy).Contents (Elt F)),
    unary main_call1_v9 main_call1_v10 ((broadcastInDim S4x512x32000 ![0, 1, 2] bcast_S4x512x1_S4x512x32000_0_1_2) : (⟨S4x512x1, .f32⟩ : BufTy).Contents (Elt F) → (⟨S4x512x32000, .f32⟩ : BufTy).Contents (Elt F)),
    binary main_call1_v5 main_call1_v10 main_v4 (subf : (⟨S4x512x32000, .f32⟩ : BufTy).Contents (Elt F) → (⟨S4x512x32000, .f32⟩ : BufTy).Contents (Elt F) → (⟨S4x512x32000, .f32⟩ : BufTy).Contents (Elt F)),
    unary main_v3 main_v5 (broadcastInDim S4x512x1 ![0, 1] bcast_S4x512_S4x512x1_0_1 : (⟨S4x512, .i32⟩ : BufTy).Contents (Elt F) → (⟨S4x512x1, .i32⟩ : BufTy).Contents (Elt F)),
    nullary main_call2_c ((constantI S_ 32 0#32) : (⟨S_, .i32⟩ : BufTy).Contents (Elt F)),
    unary main_call2_c main_call2_v0 ((broadcastInDim S4x512x1 ![] bcast_S_S4x512x1) : (⟨S_, .i32⟩ : BufTy).Contents (Elt F) → (⟨S4x512x1, .i32⟩ : BufTy).Contents (Elt F)),
    binary main_v5 main_call2_v0 main_call2_v1 ((cmpi .slt) : (⟨S4x512x1, .i32⟩ : BufTy).Contents (Elt F) → (⟨S4x512x1, .i32⟩ : BufTy).Contents (Elt F) → (⟨S4x512x1, .i1⟩ : BufTy).Contents (Elt F)),
    nullary main_call2_c_0 ((constantI S_ 32 32000#32) : (⟨S_, .i32⟩ : BufTy).Contents (Elt F)),
    unary main_call2_c_0 main_call2_v2 ((broadcastInDim S4x512x1 ![] bcast_S_S4x512x1) : (⟨S_, .i32⟩ : BufTy).Contents (Elt F) → (⟨S4x512x1, .i32⟩ : BufTy).Contents (Elt F)),
    binary main_v5 main_call2_v2 main_call2_v3 (addi : (⟨S4x512x1, .i32⟩ : BufTy).Contents (Elt F) → (⟨S4x512x1, .i32⟩ : BufTy).Contents (Elt F) → (⟨S4x512x1, .i32⟩ : BufTy).Contents (Elt F)),
    ternary main_call2_v1 main_call2_v3 main_v5 main_call2_v4 (select : (⟨S4x512x1, .i1⟩ : BufTy).Contents (Elt F) → (⟨S4x512x1, .i32⟩ : BufTy).Contents (Elt F) → (⟨S4x512x1, .i32⟩ : BufTy).Contents (Elt F) → (⟨S4x512x1, .i32⟩ : BufTy).Contents (Elt F)),
    reshape main_call2_v4 main_call2_v5 rfl shapeCasts_S4x512x1_S4x512x1x1,
    nullary main_call2_c_1 ((constantI S1 32 31999#32) : (⟨S1, .i32⟩ : BufTy).Contents (Elt F)),
    nullary main_call2_c_2 ((constantI S_ 32 0#32) : (⟨S_, .i32⟩ : BufTy).Contents (Elt F)),
    unary main_call2_c_2 main_call2_v6 ((broadcastInDim S4x512x1x1 ![] bcast_S_S4x512x1x1) : (⟨S_, .i32⟩ : BufTy).Contents (Elt F) → (⟨S4x512x1x1, .i32⟩ : BufTy).Contents (Elt F)),
    binary main_call2_v5 main_call2_v6 main_call2_v7 ((cmpi .sge) : (⟨S4x512x1x1, .i32⟩ : BufTy).Contents (Elt F) → (⟨S4x512x1x1, .i32⟩ : BufTy).Contents (Elt F) → (⟨S4x512x1x1, .i1⟩ : BufTy).Contents (Elt F)),
    unary main_call2_c_1 main_call2_v8 ((broadcastInDim S1x1x1x1 ![3] bcast_S1_S1x1x1x1_3) : (⟨S1, .i32⟩ : BufTy).Contents (Elt F) → (⟨S1x1x1x1, .i32⟩ : BufTy).Contents (Elt F)),
    unary main_call2_v8 main_call2_v9 ((broadcastInDim S4x512x1x1 ![0, 1, 2, 3] bcast_S1x1x1x1_S4x512x1x1_0_1_2_3) : (⟨S1x1x1x1, .i32⟩ : BufTy).Contents (Elt F) → (⟨S4x512x1x1, .i32⟩ : BufTy).Contents (Elt F)),
    binary main_call2_v5 main_call2_v9 main_call2_v10 ((cmpi .sle) : (⟨S4x512x1x1, .i32⟩ : BufTy).Contents (Elt F) → (⟨S4x512x1x1, .i32⟩ : BufTy).Contents (Elt F) → (⟨S4x512x1x1, .i1⟩ : BufTy).Contents (Elt F)),
    binary main_call2_v7 main_call2_v10 main_call2_v11 (andi : (⟨S4x512x1x1, .i1⟩ : BufTy).Contents (Elt F) → (⟨S4x512x1x1, .i1⟩ : BufTy).Contents (Elt F) → (⟨S4x512x1x1, .i1⟩ : BufTy).Contents (Elt F)),
    nullary main_call2_c_3 ((constantI S_ 1 1#1) : (⟨S_, .i1⟩ : BufTy).Contents (Elt F)),
    binary main_call2_v11 main_call2_c_3 main_call2_v12 ((fun x v => Host.reduce IntOp.andi x v reducesTo_S4x512x1x1_S4x512x1_d3 h_S_) : (⟨S4x512x1x1, .i1⟩ : BufTy).Contents (Elt F) → (⟨S_, .i1⟩ : BufTy).Contents (Elt F) → (⟨S4x512x1, .i1⟩ : BufTy).Contents (Elt F)),
    binary main_v4 main_call2_v5 main_call2_v13 ((fun x i => Host.gather gather_S4x512x32000_S4x512x1x1_S4x512x1_n_2_01_01_2_3_111 x i) : (⟨S4x512x32000, .f32⟩ : BufTy).Contents (Elt F) → (⟨S4x512x1x1, .i32⟩ : BufTy).Contents (Elt F) → (⟨S4x512x1, .f32⟩ : BufTy).Contents (Elt F)),
    nullary main_call2_cst ((constant S_ .f32 0x7FC00000#32) : (⟨S_, .f32⟩ : BufTy).Contents (Elt F)),
    unary main_call2_cst main_call2_v14 ((broadcastInDim S4x512x1 ![] bcast_S_S4x512x1) : (⟨S_, .f32⟩ : BufTy).Contents (Elt F) → (⟨S4x512x1, .f32⟩ : BufTy).Contents (Elt F)),
    ternary main_call2_v12 main_call2_v13 main_call2_v14 main_v6 (select : (⟨S4x512x1, .i1⟩ : BufTy).Contents (Elt F) → (⟨S4x512x1, .f32⟩ : BufTy).Contents (Elt F) → (⟨S4x512x1, .f32⟩ : BufTy).Contents (Elt F) → (⟨S4x512x1, .f32⟩ : BufTy).Contents (Elt F)),
    reshape main_v6 main_v7 rfl shapeCasts_S4x512x1_S4x512,
    unary main_v2 main_v8 (uitofp .f32 : (⟨S4x512, .i1⟩ : BufTy).Contents (Elt F) → (⟨S4x512, .f32⟩ : BufTy).Contents (Elt F)),
    binary main_v7 main_v8 main_v9 (mulf : (⟨S4x512, .f32⟩ : BufTy).Contents (Elt F) → (⟨S4x512, .f32⟩ : BufTy).Contents (Elt F) → (⟨S4x512, .f32⟩ : BufTy).Contents (Elt F)),
    nullary main_cst (constant S_ .f32 0x00000000#32),
    binary main_v9 main_cst main_v10 ((fun x v => Host.reduceAdd x v reducesTo_S4x512_S4_d1 h_S_) : (⟨S4x512, .f32⟩ : BufTy).Contents (Elt F) → (⟨S_, .f32⟩ : BufTy).Contents (Elt F) → (⟨S4, .f32⟩ : BufTy).Contents (Elt F)),
    nullary main_cst_1 (constant S_ .f32 0x00000000#32),
    binary main_v8 main_cst_1 main_v11 ((fun x v => Host.reduceAdd x v reducesTo_S4x512_S4_d1 h_S_) : (⟨S4x512, .f32⟩ : BufTy).Contents (Elt F) → (⟨S_, .f32⟩ : BufTy).Contents (Elt F) → (⟨S4, .f32⟩ : BufTy).Contents (Elt F)),
    binary main_v10 main_v11 main_v12 (Host.divf : (⟨S4, .f32⟩ : BufTy).Contents (Elt F) → (⟨S4, .f32⟩ : BufTy).Contents (Elt F) → (⟨S4, .f32⟩ : BufTy).Contents (Elt F)),
    unary main_v12 main_v13 ((extractStridedSlice S2 ![0] · slices_S4_S2_0) : (⟨S4, .f32⟩ : BufTy).Contents (Elt F) → (⟨S2, .f32⟩ : BufTy).Contents (Elt F)),
    unary main_v12 main_v14 ((extractStridedSlice S2 ![2] · slices_S4_S2_2) : (⟨S4, .f32⟩ : BufTy).Contents (Elt F) → (⟨S2, .f32⟩ : BufTy).Contents (Elt F)),
    binary main_arg1 main_arg4 main_v15 ((fun l r => Host.dotGeneral dot_S4x512x2048_S32000x2048_S4x512x32000_2_1_01_0_n_n none l r) : (⟨S4x512x2048, .f32⟩ : BufTy).Contents (Elt F) → (⟨S32000x2048, .f32⟩ : BufTy).Contents (Elt F) → (⟨S4x512x32000, .f32⟩ : BufTy).Contents (Elt F)),
    nullary main_c_2 (constantI S_ 32 4294967196#32),
    unary main_c_2 main_v16 (broadcastInDim S4x512 ![] bcast_S_S4x512 : (⟨S_, .i32⟩ : BufTy).Contents (Elt F) → (⟨S4x512, .i32⟩ : BufTy).Contents (Elt F)),
    binary main_arg2 main_v16 main_v17 (cmpi .ne : (⟨S4x512, .i32⟩ : BufTy).Contents (Elt F) → (⟨S4x512, .i32⟩ : BufTy).Contents (Elt F) → (⟨S4x512, .i1⟩ : BufTy).Contents (Elt F)),
    nullary main_c_3 (constantI S_ 32 0#32),
    unary main_c_3 main_call3_v0 (id : (⟨S_, .i32⟩ : BufTy).Contents (Elt F) → (⟨S_, .i32⟩ : BufTy).Contents (Elt F)),
    unary main_call3_v0 main_call3_v1 ((broadcastInDim S4x512 ![] bcast_S_S4x512) : (⟨S_, .i32⟩ : BufTy).Contents (Elt F) → (⟨S4x512, .i32⟩ : BufTy).Contents (Elt F)),
    ternary main_v17 main_arg2 main_call3_v1 main_v18 (select : (⟨S4x512, .i1⟩ : BufTy).Contents (Elt F) → (⟨S4x512, .i32⟩ : BufTy).Contents (Elt F) → (⟨S4x512, .i32⟩ : BufTy).Contents (Elt F) → (⟨S4x512, .i32⟩ : BufTy).Contents (Elt F)),
    nullary main_call4_cst ((constant S_ .f32 0xFF800000#32) : (⟨S_, .f32⟩ : BufTy).Contents (Elt F)),
    binary main_v15 main_call4_cst main_call4_v0 ((fun x v => Host.reduce FloatOps.maximumf x v reducesTo_S4x512x32000_S4x512_d2 h_S_) : (⟨S4x512x32000, .f32⟩ : BufTy).Contents (Elt F) → (⟨S_, .f32⟩ : BufTy).Contents (Elt F) → (⟨S4x512, .f32⟩ : BufTy).Contents (Elt F)),
    nullary main_call4_cst_0 ((constant S_ .f32 0xFF800000#32) : (⟨S_, .f32⟩ : BufTy).Contents (Elt F)),
    unary main_call4_cst_0 main_call4_v1 ((broadcastInDim S4x512 ![] bcast_S_S4x512) : (⟨S_, .f32⟩ : BufTy).Contents (Elt F) → (⟨S4x512, .f32⟩ : BufTy).Contents (Elt F)),
    binary main_call4_v1 main_call4_v0 main_call4_v2 (maximumf : (⟨S4x512, .f32⟩ : BufTy).Contents (Elt F) → (⟨S4x512, .f32⟩ : BufTy).Contents (Elt F) → (⟨S4x512, .f32⟩ : BufTy).Contents (Elt F)),
    unary main_call4_v2 main_call4_v3 ((broadcastInDim S4x512x1 ![0, 1] bcast_S4x512_S4x512x1_0_1) : (⟨S4x512, .f32⟩ : BufTy).Contents (Elt F) → (⟨S4x512x1, .f32⟩ : BufTy).Contents (Elt F)),
    unary main_call4_v3 main_call4_v4 ((broadcastInDim S4x512x32000 ![0, 1, 2] bcast_S4x512x1_S4x512x32000_0_1_2) : (⟨S4x512x1, .f32⟩ : BufTy).Contents (Elt F) → (⟨S4x512x32000, .f32⟩ : BufTy).Contents (Elt F)),
    binary main_v15 main_call4_v4 main_call4_v5 (subf : (⟨S4x512x32000, .f32⟩ : BufTy).Contents (Elt F) → (⟨S4x512x32000, .f32⟩ : BufTy).Contents (Elt F) → (⟨S4x512x32000, .f32⟩ : BufTy).Contents (Elt F)),
    unary main_call4_v5 main_call4_v6 (Host.exp : (⟨S4x512x32000, .f32⟩ : BufTy).Contents (Elt F) → (⟨S4x512x32000, .f32⟩ : BufTy).Contents (Elt F)),
    nullary main_call4_cst_1 ((constant S_ .f32 0x00000000#32) : (⟨S_, .f32⟩ : BufTy).Contents (Elt F)),
    binary main_call4_v6 main_call4_cst_1 main_call4_v7 ((fun x v => Host.reduceAdd x v reducesTo_S4x512x32000_S4x512_d2 h_S_) : (⟨S4x512x32000, .f32⟩ : BufTy).Contents (Elt F) → (⟨S_, .f32⟩ : BufTy).Contents (Elt F) → (⟨S4x512, .f32⟩ : BufTy).Contents (Elt F)),
    unary main_call4_v7 main_call4_v8 ((broadcastInDim S4x512x1 ![0, 1] bcast_S4x512_S4x512x1_0_1) : (⟨S4x512, .f32⟩ : BufTy).Contents (Elt F) → (⟨S4x512x1, .f32⟩ : BufTy).Contents (Elt F)),
    unary main_call4_v8 main_call4_v9 (Host.log : (⟨S4x512x1, .f32⟩ : BufTy).Contents (Elt F) → (⟨S4x512x1, .f32⟩ : BufTy).Contents (Elt F)),
    unary main_call4_v9 main_call4_v10 ((broadcastInDim S4x512x32000 ![0, 1, 2] bcast_S4x512x1_S4x512x32000_0_1_2) : (⟨S4x512x1, .f32⟩ : BufTy).Contents (Elt F) → (⟨S4x512x32000, .f32⟩ : BufTy).Contents (Elt F)),
    binary main_call4_v5 main_call4_v10 main_v19 (subf : (⟨S4x512x32000, .f32⟩ : BufTy).Contents (Elt F) → (⟨S4x512x32000, .f32⟩ : BufTy).Contents (Elt F) → (⟨S4x512x32000, .f32⟩ : BufTy).Contents (Elt F)),
    unary main_v18 main_v20 (broadcastInDim S4x512x1 ![0, 1] bcast_S4x512_S4x512x1_0_1 : (⟨S4x512, .i32⟩ : BufTy).Contents (Elt F) → (⟨S4x512x1, .i32⟩ : BufTy).Contents (Elt F)),
    nullary main_call5_c ((constantI S_ 32 0#32) : (⟨S_, .i32⟩ : BufTy).Contents (Elt F)),
    unary main_call5_c main_call5_v0 ((broadcastInDim S4x512x1 ![] bcast_S_S4x512x1) : (⟨S_, .i32⟩ : BufTy).Contents (Elt F) → (⟨S4x512x1, .i32⟩ : BufTy).Contents (Elt F)),
    binary main_v20 main_call5_v0 main_call5_v1 ((cmpi .slt) : (⟨S4x512x1, .i32⟩ : BufTy).Contents (Elt F) → (⟨S4x512x1, .i32⟩ : BufTy).Contents (Elt F) → (⟨S4x512x1, .i1⟩ : BufTy).Contents (Elt F)),
    nullary main_call5_c_0 ((constantI S_ 32 32000#32) : (⟨S_, .i32⟩ : BufTy).Contents (Elt F)),
    unary main_call5_c_0 main_call5_v2 ((broadcastInDim S4x512x1 ![] bcast_S_S4x512x1) : (⟨S_, .i32⟩ : BufTy).Contents (Elt F) → (⟨S4x512x1, .i32⟩ : BufTy).Contents (Elt F)),
    binary main_v20 main_call5_v2 main_call5_v3 (addi : (⟨S4x512x1, .i32⟩ : BufTy).Contents (Elt F) → (⟨S4x512x1, .i32⟩ : BufTy).Contents (Elt F) → (⟨S4x512x1, .i32⟩ : BufTy).Contents (Elt F)),
    ternary main_call5_v1 main_call5_v3 main_v20 main_call5_v4 (select : (⟨S4x512x1, .i1⟩ : BufTy).Contents (Elt F) → (⟨S4x512x1, .i32⟩ : BufTy).Contents (Elt F) → (⟨S4x512x1, .i32⟩ : BufTy).Contents (Elt F) → (⟨S4x512x1, .i32⟩ : BufTy).Contents (Elt F)),
    reshape main_call5_v4 main_call5_v5 rfl shapeCasts_S4x512x1_S4x512x1x1,
    nullary main_call5_c_1 ((constantI S1 32 31999#32) : (⟨S1, .i32⟩ : BufTy).Contents (Elt F)),
    nullary main_call5_c_2 ((constantI S_ 32 0#32) : (⟨S_, .i32⟩ : BufTy).Contents (Elt F)),
    unary main_call5_c_2 main_call5_v6 ((broadcastInDim S4x512x1x1 ![] bcast_S_S4x512x1x1) : (⟨S_, .i32⟩ : BufTy).Contents (Elt F) → (⟨S4x512x1x1, .i32⟩ : BufTy).Contents (Elt F)),
    binary main_call5_v5 main_call5_v6 main_call5_v7 ((cmpi .sge) : (⟨S4x512x1x1, .i32⟩ : BufTy).Contents (Elt F) → (⟨S4x512x1x1, .i32⟩ : BufTy).Contents (Elt F) → (⟨S4x512x1x1, .i1⟩ : BufTy).Contents (Elt F)),
    unary main_call5_c_1 main_call5_v8 ((broadcastInDim S1x1x1x1 ![3] bcast_S1_S1x1x1x1_3) : (⟨S1, .i32⟩ : BufTy).Contents (Elt F) → (⟨S1x1x1x1, .i32⟩ : BufTy).Contents (Elt F)),
    unary main_call5_v8 main_call5_v9 ((broadcastInDim S4x512x1x1 ![0, 1, 2, 3] bcast_S1x1x1x1_S4x512x1x1_0_1_2_3) : (⟨S1x1x1x1, .i32⟩ : BufTy).Contents (Elt F) → (⟨S4x512x1x1, .i32⟩ : BufTy).Contents (Elt F)),
    binary main_call5_v5 main_call5_v9 main_call5_v10 ((cmpi .sle) : (⟨S4x512x1x1, .i32⟩ : BufTy).Contents (Elt F) → (⟨S4x512x1x1, .i32⟩ : BufTy).Contents (Elt F) → (⟨S4x512x1x1, .i1⟩ : BufTy).Contents (Elt F)),
    binary main_call5_v7 main_call5_v10 main_call5_v11 (andi : (⟨S4x512x1x1, .i1⟩ : BufTy).Contents (Elt F) → (⟨S4x512x1x1, .i1⟩ : BufTy).Contents (Elt F) → (⟨S4x512x1x1, .i1⟩ : BufTy).Contents (Elt F)),
    nullary main_call5_c_3 ((constantI S_ 1 1#1) : (⟨S_, .i1⟩ : BufTy).Contents (Elt F)),
    binary main_call5_v11 main_call5_c_3 main_call5_v12 ((fun x v => Host.reduce IntOp.andi x v reducesTo_S4x512x1x1_S4x512x1_d3 h_S_) : (⟨S4x512x1x1, .i1⟩ : BufTy).Contents (Elt F) → (⟨S_, .i1⟩ : BufTy).Contents (Elt F) → (⟨S4x512x1, .i1⟩ : BufTy).Contents (Elt F)),
    binary main_v19 main_call5_v5 main_call5_v13 ((fun x i => Host.gather gather_S4x512x32000_S4x512x1x1_S4x512x1_n_2_01_01_2_3_111 x i) : (⟨S4x512x32000, .f32⟩ : BufTy).Contents (Elt F) → (⟨S4x512x1x1, .i32⟩ : BufTy).Contents (Elt F) → (⟨S4x512x1, .f32⟩ : BufTy).Contents (Elt F)),
    nullary main_call5_cst ((constant S_ .f32 0x7FC00000#32) : (⟨S_, .f32⟩ : BufTy).Contents (Elt F)),
    unary main_call5_cst main_call5_v14 ((broadcastInDim S4x512x1 ![] bcast_S_S4x512x1) : (⟨S_, .f32⟩ : BufTy).Contents (Elt F) → (⟨S4x512x1, .f32⟩ : BufTy).Contents (Elt F)),
    ternary main_call5_v12 main_call5_v13 main_call5_v14 main_v21 (select : (⟨S4x512x1, .i1⟩ : BufTy).Contents (Elt F) → (⟨S4x512x1, .f32⟩ : BufTy).Contents (Elt F) → (⟨S4x512x1, .f32⟩ : BufTy).Contents (Elt F) → (⟨S4x512x1, .f32⟩ : BufTy).Contents (Elt F)),
    reshape main_v21 main_v22 rfl shapeCasts_S4x512x1_S4x512,
    unary main_v17 main_v23 (uitofp .f32 : (⟨S4x512, .i1⟩ : BufTy).Contents (Elt F) → (⟨S4x512, .f32⟩ : BufTy).Contents (Elt F)),
    binary main_v22 main_v23 main_v24 (mulf : (⟨S4x512, .f32⟩ : BufTy).Contents (Elt F) → (⟨S4x512, .f32⟩ : BufTy).Contents (Elt F) → (⟨S4x512, .f32⟩ : BufTy).Contents (Elt F)),
    nullary main_cst_4 (constant S_ .f32 0x00000000#32),
    binary main_v24 main_cst_4 main_v25 ((fun x v => Host.reduceAdd x v reducesTo_S4x512_S4_d1 h_S_) : (⟨S4x512, .f32⟩ : BufTy).Contents (Elt F) → (⟨S_, .f32⟩ : BufTy).Contents (Elt F) → (⟨S4, .f32⟩ : BufTy).Contents (Elt F)),
    nullary main_cst_5 (constant S_ .f32 0x00000000#32),
    binary main_v23 main_cst_5 main_v26 ((fun x v => Host.reduceAdd x v reducesTo_S4x512_S4_d1 h_S_) : (⟨S4x512, .f32⟩ : BufTy).Contents (Elt F) → (⟨S_, .f32⟩ : BufTy).Contents (Elt F) → (⟨S4, .f32⟩ : BufTy).Contents (Elt F)),
    binary main_v25 main_v26 main_v27 (Host.divf : (⟨S4, .f32⟩ : BufTy).Contents (Elt F) → (⟨S4, .f32⟩ : BufTy).Contents (Elt F) → (⟨S4, .f32⟩ : BufTy).Contents (Elt F)),
    unary main_v27 main_v28 ((extractStridedSlice S2 ![0] · slices_S4_S2_0) : (⟨S4, .f32⟩ : BufTy).Contents (Elt F) → (⟨S2, .f32⟩ : BufTy).Contents (Elt F)),
    unary main_v27 main_v29 ((extractStridedSlice S2 ![2] · slices_S4_S2_2) : (⟨S4, .f32⟩ : BufTy).Contents (Elt F) → (⟨S2, .f32⟩ : BufTy).Contents (Elt F)),
    binary main_v13 main_v28 main_v30 (subf : (⟨S2, .f32⟩ : BufTy).Contents (Elt F) → (⟨S2, .f32⟩ : BufTy).Contents (Elt F) → (⟨S2, .f32⟩ : BufTy).Contents (Elt F)),
    binary main_v14 main_v29 main_v31 (subf : (⟨S2, .f32⟩ : BufTy).Contents (Elt F) → (⟨S2, .f32⟩ : BufTy).Contents (Elt F) → (⟨S2, .f32⟩ : BufTy).Contents (Elt F)),
    nullary main_cst_6 (constant S_ .f32 0x3DCCCCCD#32),
    unary main_cst_6 main_v32 (broadcastInDim S2 ![] bcast_S_S2 : (⟨S_, .f32⟩ : BufTy).Contents (Elt F) → (⟨S2, .f32⟩ : BufTy).Contents (Elt F)),
    binary main_v32 main_v30 main_v33 (mulf : (⟨S2, .f32⟩ : BufTy).Contents (Elt F) → (⟨S2, .f32⟩ : BufTy).Contents (Elt F) → (⟨S2, .f32⟩ : BufTy).Contents (Elt F)),
    nullary main_cst_7 (constant S_ .f32 0x3DCCCCCD#32),
    unary main_cst_7 main_v34 (broadcastInDim S2 ![] bcast_S_S2 : (⟨S_, .f32⟩ : BufTy).Contents (Elt F) → (⟨S2, .f32⟩ : BufTy).Contents (Elt F)),
    binary main_v34 main_v31 main_v35 (mulf : (⟨S2, .f32⟩ : BufTy).Contents (Elt F) → (⟨S2, .f32⟩ : BufTy).Contents (Elt F) → (⟨S2, .f32⟩ : BufTy).Contents (Elt F)),
    nullary main_cst_8 (constant S_ .f32 0x40A00000#32),
    unary main_cst_8 main_v36 (broadcastInDim S2 ![] bcast_S_S2 : (⟨S_, .f32⟩ : BufTy).Contents (Elt F) → (⟨S2, .f32⟩ : BufTy).Contents (Elt F)),
    binary main_v30 main_v36 main_v37 (subf : (⟨S2, .f32⟩ : BufTy).Contents (Elt F) → (⟨S2, .f32⟩ : BufTy).Contents (Elt F) → (⟨S2, .f32⟩ : BufTy).Contents (Elt F)),
    binary main_v37 main_v37 main_v38 (mulf : (⟨S2, .f32⟩ : BufTy).Contents (Elt F) → (⟨S2, .f32⟩ : BufTy).Contents (Elt F) → (⟨S2, .f32⟩ : BufTy).Contents (Elt F)),
    nullary main_cst_9 (constant S_ .f32 0x40A00000#32),
    unary main_cst_9 main_v39 (broadcastInDim S2 ![] bcast_S_S2 : (⟨S_, .f32⟩ : BufTy).Contents (Elt F) → (⟨S2, .f32⟩ : BufTy).Contents (Elt F)),
    binary main_v31 main_v39 main_v40 (addf : (⟨S2, .f32⟩ : BufTy).Contents (Elt F) → (⟨S2, .f32⟩ : BufTy).Contents (Elt F) → (⟨S2, .f32⟩ : BufTy).Contents (Elt F)),
    binary main_v40 main_v40 main_v41 (mulf : (⟨S2, .f32⟩ : BufTy).Contents (Elt F) → (⟨S2, .f32⟩ : BufTy).Contents (Elt F) → (⟨S2, .f32⟩ : BufTy).Contents (Elt F)),
    binary main_v38 main_v41 main_v42 (addf : (⟨S2, .f32⟩ : BufTy).Contents (Elt F) → (⟨S2, .f32⟩ : BufTy).Contents (Elt F) → (⟨S2, .f32⟩ : BufTy).Contents (Elt F)),
    nullary main_cst_10 (constant S_ .f32 0x00000000#32),
    nullary main_cst_11 (constant S_ .f32 0x3F800000#32),
    binary main_cst_10 main_cst_11 main_v43 (mulf : (⟨S_, .f32⟩ : BufTy).Contents (Elt F) → (⟨S_, .f32⟩ : BufTy).Contents (Elt F) → (⟨S_, .f32⟩ : BufTy).Contents (Elt F)),
    nullary main_cst_12 (constant S_ .f32 0x00000000#32),
    binary main_v42 main_cst_12 main_v44 ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F)),
    nullary main_cst_13 (constant S_ .f32 0x40000000#32),
    binary main_v44 main_cst_13 main_v45 (Host.divf : (⟨S_, .f32⟩ : BufTy).Contents (Elt F) → (⟨S_, .f32⟩ : BufTy).Contents (Elt F) → (⟨S_, .f32⟩ : BufTy).Contents (Elt F)),
    binary main_v43 main_v45 main_v46 (subf : (⟨S_, .f32⟩ : BufTy).Contents (Elt F) → (⟨S_, .f32⟩ : BufTy).Contents (Elt F) → (⟨S_, .f32⟩ : BufTy).Contents (Elt F)) ]

-- The program is its operations in order; the two long reductions are compared as spellings, never unfolded.
section
attribute [local irreducible] Host.reduce Host.gather

set_option maxRecDepth 16384 in
set_option maxHeartbeats 8000000 in
theorem main_eq (c : Dev nD) : main (F := F) c = seq ops := rfl

end

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨binary_bufs_sub .., nullary_bufs_sub .., unary_bufs_sub .., binary_bufs_sub .., nullary_bufs_sub .., unary_bufs_sub .., unary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., unary_bufs_sub .., binary_bufs_sub .., nullary_bufs_sub .., binary_bufs_sub .., nullary_bufs_sub .., binary_bufs_sub .., binary_bufs_sub .., unary_bufs_sub .., unary_bufs_sub .., binary_bufs_sub .., nullary_bufs_sub .., unary_bufs_sub .., binary_bufs_sub .., nullary_bufs_sub .., unary_bufs_sub .., unary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., unary_bufs_sub .., binary_bufs_sub .., nullary_bufs_sub .., binary_bufs_sub .., nullary_bufs_sub .., binary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., binary_bufs_sub .., nullary_bufs_sub .., nullary_bufs_sub .., binary_bufs_sub .., nullary_bufs_sub .., binary_bufs_sub .., nullary_bufs_sub .., binary_bufs_sub .., binary_bufs_sub ..⟩

-- Evaluated operation by operation, the fold at the result buffer is the last stage of the arguments.
set_option maxRecDepth 16384 in
set_option maxHeartbeats 54800000 in
theorem fold (V : Valuation τ sig (Elt F)) :
    StableHlo.after (ops (F := F)) V (Proc.devRef .tc main_v46)
      = Cert.ReferenceIdeal.ReadP.val_main_v46 (F := F) (V (Proc.devRef .tc main_arg0)) (V (Proc.devRef .tc main_arg1)) (V (Proc.devRef .tc main_arg2)) (V (Proc.devRef .tc main_arg3)) (V (Proc.devRef .tc main_arg4)) := by
  after_results_simp <;> rfl

set_option maxRecDepth 8192 in
set_option maxHeartbeats 54800000 in
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v46) = Cert.ReferenceIdeal.ReadP.val_main_v46 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v46).trans (fold _),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl)⟩)
    (run_seq scopedRefs_eq scopedSems_eq defs main (fun _ => ops) main_eq (fun _ => ops_sub) m ρ)

end Cert.ReferenceIdeal.RefValue

end
-- ==== Proof.KernelIdeal.Tile.Pieces.lean ====
import proofs.«405262_j58909771432351_3_alg».proof.Proof.KernelIdeal.Tile.Run
import Idealize.ShloMosaic.Lib.Pipeline.Value

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

private theorem zeroOff : (![0, 0] : Fin 2 → Nat) = fun _ => 0 := funext fun a => by fin_cases a <;> rfl

-- Each running column is stored once over its whole extent (at tile 0 after the reset's store), so it reads back as the stored value of the blocks.
section
variable (W : View sig .tc .vmem S1024x1 .f32) (c : Dev nD) (i : grid0.Coords) (arg2 : Memref sig .tc .vmem S1024x2048 .bf16) (harg2 : arg2.IsWhole) (arg3 : Memref sig .tc .vmem S1000x2048 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole)

section
variable (hc0 : ¬isFirst i) (hc1 : ¬isLast i) (x0 : Vec F S1024x2048 .bf16) (x1 : Vec F S1000x2048 .f32) (x2 : Vec F S1024x1 .i32) (xm xl xt : Vec F S1024x1 .f32)

theorem maxStep_eq :
    back W (runStep c i arg2 harg2 arg3 harg3 arg4 harg4 arg5 harg5 arg6 harg6 arg7 harg7 arg8 harg8 hc0 hc1 x0 x1 x2 xm xl xt).1 = k0_pay2 (k0_pay9 x0 x1 xm) := by
  unfold back
  rw [View.read_writes_eq_canon _ _ _ (cover_maxStep c i arg2 harg2 arg3 harg3 arg4 harg4 arg5 harg5 arg6 harg6 arg7 harg7 arg8 harg8 hc0 hc1 x0 x1 x2 xm xl xt)]
  unfold runStep
  dsimp only
  sl_unfold_words
  rw [View.canon_unit_zero (S := S1024x1) zeroOff]
  simp only [View.readAt_eq_ld, harg2.read_unread, harg3.read_unread, harg6.read_unread, View.ld_unit_zero (S := S1024x2048) zeroOff, View.ld_unit_zero (S := S1000x2048) zeroOff, View.ld_unit_zero (S := S1024x1) zeroOff]

theorem sumStep_eq :
    back W (runStep c i arg2 harg2 arg3 harg3 arg4 harg4 arg5 harg5 arg6 harg6 arg7 harg7 arg8 harg8 hc0 hc1 x0 x1 x2 xm xl xt).2.1 = k0_pay1 (k0_pay10 x0 x1 xm xm) (k0_pay11 x0 x1 xm) xl := by
  unfold back
  rw [View.read_writes_eq_canon _ _ _ (cover_sumStep c i arg2 harg2 arg3 harg3 arg4 harg4 arg5 harg5 arg6 harg6 arg7 harg7 arg8 harg8 hc0 hc1 x0 x1 x2 xm xl xt)]
  unfold runStep
  dsimp only
  sl_unfold_words
  rw [View.canon_unit_zero (S := S1024x1) zeroOff]
  simp only [View.readAt_eq_ld, harg2.read_unread, harg3.read_unread, harg6.read_unread, harg7.read_unread, View.ld_unit_zero (S := S1024x2048) zeroOff, View.ld_unit_zero (S := S1000x2048) zeroOff, View.ld_unit_zero (S := S1024x1) zeroOff]

theorem labStep_eq :
    back W (runStep c i arg2 harg2 arg3 harg3 arg4 harg4 arg5 harg5 arg6 harg6 arg7 harg7 arg8 harg8 hc0 hc1 x0 x1 x2 xm xl xt).2.2.1 = k0_pay8 i x0 x1 x2 xt := by
  unfold back
  rw [View.read_writes_eq_canon _ _ _ (cover_labStep c i arg2 harg2 arg3 harg3 arg4 harg4 arg5 harg5 arg6 harg6 arg7 harg7 arg8 harg8 hc0 hc1 x0 x1 x2 xm xl xt)]
  unfold runStep
  dsimp only
  sl_unfold_words
  rw [View.canon_unit_zero (S := S1024x1) zeroOff]
  simp only [View.readAt_eq_ld, harg2.read_unread, harg3.read_unread, harg4.read_unread, harg8.read_unread, View.ld_unit_zero (S := S1024x2048) zeroOff, View.ld_unit_zero (S := S1000x2048) zeroOff, View.ld_unit_zero (S := S1024x1) zeroOff]

end

section
variable (hc0 : isFirst i) (hc1 : ¬isLast i) (x0 : Vec F S1024x2048 .bf16) (x1 : Vec F S1000x2048 .f32) (x2 : Vec F S1024x1 .i32)

theorem maxReset_eq :
    back W (runReset c i arg2 harg2 arg3 harg3 arg4 harg4 arg5 harg5 arg6 harg6 arg7 harg7 arg8 harg8 hc0 hc1 x0 x1 x2).1 = k0_pay2 (k0_pay9 x0 x1 (k0_pay4 (F := F))) := by
  unfold back
  rw [View.read_writes_eq_canon _ _ _ (cover_maxReset c i arg2 harg2 arg3 harg3 arg4 harg4 arg5 harg5 arg6 harg6 arg7 harg7 arg8 harg8 hc0 hc1 x0 x1 x2)]
  unfold runReset
  dsimp only
  sl_unfold_words
  rw [View.canon_cons_unit_zero (S := S1024x1) zeroOff]
  simp only [View.readAt_eq_ld, harg2.read_unread, harg3.read_unread, View.ld_unit_zero (S := S1024x2048) zeroOff, View.ld_unit_zero (S := S1000x2048) zeroOff, View.readCov_unit_zero (S := S1024x1) _ zeroOff]
theorem sumReset_eq :
    back W (runReset c i arg2 harg2 arg3 harg3 arg4 harg4 arg5 harg5 arg6 harg6 arg7 harg7 arg8 harg8 hc0 hc1 x0 x1 x2).2.1 = k0_pay1 (k0_pay10 x0 x1 (k0_pay4 (F := F)) (k0_pay4 (F := F))) (k0_pay11 x0 x1 (k0_pay4 (F := F))) (k0_pay5 (F := F)) := by
  unfold back
  rw [View.read_writes_eq_canon _ _ _ (cover_sumReset c i arg2 harg2 arg3 harg3 arg4 harg4 arg5 harg5 arg6 harg6 arg7 harg7 arg8 harg8 hc0 hc1 x0 x1 x2)]
  unfold runReset
  dsimp only
  sl_unfold_words
  rw [View.canon_cons_unit_zero (S := S1024x1) zeroOff]
  simp only [View.readAt_eq_ld, harg2.read_unread, harg3.read_unread, View.ld_unit_zero (S := S1024x2048) zeroOff, View.ld_unit_zero (S := S1000x2048) zeroOff, View.readCov_unit_zero (S := S1024x1) _ zeroOff]
theorem labReset_eq :
    back W (runReset c i arg2 harg2 arg3 harg3 arg4 harg4 arg5 harg5 arg6 harg6 arg7 harg7 arg8 harg8 hc0 hc1 x0 x1 x2).2.2.1 = k0_pay8 i x0 x1 x2 (k0_pay6 (F := F)) := by
  unfold back
  rw [View.read_writes_eq_canon _ _ _ (cover_labReset c i arg2 harg2 arg3 harg3 arg4 harg4 arg5 harg5 arg6 harg6 arg7 harg7 arg8 harg8 hc0 hc1 x0 x1 x2)]
  unfold runReset
  dsimp only
  sl_unfold_words
  rw [View.canon_cons_unit_zero (S := S1024x1) zeroOff]
  simp only [View.readAt_eq_ld, harg2.read_unread, harg3.read_unread, harg4.read_unread, View.ld_unit_zero (S := S1024x2048) zeroOff, View.ld_unit_zero (S := S1000x2048) zeroOff, View.ld_unit_zero (S := S1024x1) zeroOff, View.readCov_unit_zero (S := S1024x1) _ zeroOff]

end

section
variable (hc0 : ¬isFirst i) (hc1 : isLast i) (x0 : Vec F S1024x2048 .bf16) (x1 : Vec F S1000x2048 .f32) (x2 : Vec F S1024x1 .i32) (xm xl xt : Vec F S1024x1 .f32)

theorem maxFinish_eq :
    back W (runFinish c i arg2 harg2 arg3 harg3 arg4 harg4 arg5 harg5 arg6 harg6 arg7 harg7 arg8 harg8 hc0 hc1 x0 x1 x2 xm xl xt).2.1 = k0_pay2 (k0_pay9 x0 x1 xm) := by
  unfold back
  rw [View.read_writes_eq_canon _ _ _ (cover_maxFinish c i arg2 harg2 arg3 harg3 arg4 harg4 arg5 harg5 arg6 harg6 arg7 harg7 arg8 harg8 hc0 hc1 x0 x1 x2 xm xl xt)]
  unfold runFinish
  dsimp only
  sl_unfold_words
  rw [View.canon_unit_zero (S := S1024x1) zeroOff]
  simp only [View.readAt_eq_ld, harg2.read_unread, harg3.read_unread, harg6.read_unread, View.ld_unit_zero (S := S1024x2048) zeroOff, View.ld_unit_zero (S := S1000x2048) zeroOff, View.ld_unit_zero (S := S1024x1) zeroOff]
theorem sumFinish_eq :
    back W (runFinish c i arg2 harg2 arg3 harg3 arg4 harg4 arg5 harg5 arg6 harg6 arg7 harg7 arg8 harg8 hc0 hc1 x0 x1 x2 xm xl xt).2.2.1 = k0_pay1 (k0_pay10 x0 x1 xm xm) (k0_pay11 x0 x1 xm) xl := by
  unfold back
  rw [View.read_writes_eq_canon _ _ _ (cover_sumFinish c i arg2 harg2 arg3 harg3 arg4 harg4 arg5 harg5 arg6 harg6 arg7 harg7 arg8 harg8 hc0 hc1 x0 x1 x2 xm xl xt)]
  unfold runFinish
  dsimp only
  sl_unfold_words
  rw [View.canon_unit_zero (S := S1024x1) zeroOff]
  simp only [View.readAt_eq_ld, harg2.read_unread, harg3.read_unread, harg6.read_unread, harg7.read_unread, View.ld_unit_zero (S := S1024x2048) zeroOff, View.ld_unit_zero (S := S1000x2048) zeroOff, View.ld_unit_zero (S := S1024x1) zeroOff]
theorem labFinish_eq :
    back W (runFinish c i arg2 harg2 arg3 harg3 arg4 harg4 arg5 harg5 arg6 harg6 arg7 harg7 arg8 harg8 hc0 hc1 x0 x1 x2 xm xl xt).2.2.2.1 = k0_pay8 i x0 x1 x2 xt := by
  unfold back
  rw [View.read_writes_eq_canon _ _ _ (cover_labFinish c i arg2 harg2 arg3 harg3 arg4 harg4 arg5 harg5 arg6 harg6 arg7 harg7 arg8 harg8 hc0 hc1 x0 x1 x2 xm xl xt)]
  unfold runFinish
  dsimp only
  sl_unfold_words
  rw [View.canon_unit_zero (S := S1024x1) zeroOff]
  simp only [View.readAt_eq_ld, harg2.read_unread, harg3.read_unread, harg4.read_unread, harg8.read_unread, View.ld_unit_zero (S := S1024x2048) zeroOff, View.ld_unit_zero (S := S1000x2048) zeroOff, View.ld_unit_zero (S := S1024x1) zeroOff]

theorem outFinish_eq :
    back W (runFinish c i arg2 harg2 arg3 harg3 arg4 harg4 arg5 harg5 arg6 harg6 arg7 harg7 arg8 harg8 hc0 hc1 x0 x1 x2 xm xl xt).1
      = k0_pay3 (k0_pay2 (k0_pay9 x0 x1 xm)) (k0_pay1 (k0_pay10 x0 x1 xm xm) (k0_pay11 x0 x1 xm) xl) (k0_pay8 i x0 x1 x2 xt) := by
  unfold back
  rw [View.read_writes_eq_canon _ _ _ (cover_outFinish c i arg2 harg2 arg3 harg3 arg4 harg4 arg5 harg5 arg6 harg6 arg7 harg7 arg8 harg8 hc0 hc1 x0 x1 x2 xm xl xt)]
  unfold runFinish
  dsimp only
  sl_unfold_words
  rw [View.canon_unit_zero (S := S1024x1) zeroOff]
  simp only [View.readAt_eq_ld, harg2.read_unread, harg3.read_unread, harg4.read_unread, harg6.read_unread, harg7.read_unread, harg8.read_unread, View.ld_unit_zero (S := S1024x2048) zeroOff, View.ld_unit_zero (S := S1000x2048) zeroOff, View.ld_unit_zero (S := S1024x1) zeroOff, View.readCov_unit_zero (S := S1024x1) _ zeroOff]

end

end

end Cert.KernelIdeal.Tile

end
-- ==== Proof.Softmax.Spec.lean ====
import Idealize.ShloMosaic.PureOps.Ideal
import Idealize.ShloMosaic.Lib.ValueIdx

noncomputable section

open scoped BigOperators

namespace Cert.Softmax

open Idealize.ShloMosaic Idealize.ShloMosaic.ValueIdx

def ent (v : Fin 32) (q : Fin 1000) : Fin 32000 :=
  ⟨1000 * v.val + q.val, by have := v.isLt; have := q.isLt; omega⟩

def tileMax (s : Fin 32000 → EReal) (v : Fin 32) : EReal :=
  (Finset.univ : Finset (Fin 1000)).fold max ⊥ (fun q => s (ent v q))

def step (s : Fin 32000 → EReal) (lab : ℕ) (v : Fin 32) (p : EReal × EReal × EReal) : EReal × EReal × EReal :=
  (max p.1 (tileMax s v),
   Ideal.exp (p.1 - max p.1 (tileMax s v)) * p.2.1 + ∑ q : Fin 1000, Ideal.exp (s (ent v q) - max p.1 (tileMax s v)),
   p.2.2 + ∑ q : Fin 1000, (if lab = 1000 * v.val + q.val then s (ent v q) else 0))

def start : EReal × EReal × EReal := (⊥, 0, 0)

def stream (s : Fin 32000 → EReal) (lab : ℕ) : (n : ℕ) → n ≤ 32 → EReal × EReal × EReal
  | 0, _ => start
  | n + 1, h => step s lab ⟨n, h⟩ (stream s lab n (Nat.le_of_succ_le h))

def result (p : EReal × EReal × EReal) : EReal := p.2.2 - (p.1 + Ideal.log p.2.1)

def streamed (s : Fin 32000 → EReal) (lab : ℕ) : EReal := result (stream s lab 32 le_rfl)

def vocMax (s : Fin 32000 → EReal) : EReal := (Finset.univ : Finset (Fin 32000)).fold max ⊥ s

def closed (s : Fin 32000 → EReal) (l : Fin 32000) : EReal :=
  (s l - vocMax s) - Ideal.log (∑ j : Fin 32000, Ideal.exp (s j - vocMax s))

def rowLogits (X : (⟨2, ![2048, 2048]⟩ : Shape).Idx → EReal) (W : (⟨2, ![32000, 2048]⟩ : Shape).Idx → EReal)
    (r : Fin 2048) : Fin 32000 → EReal :=
  fun j => ∑ h : Fin 2048, X (ix2 r h) * W (ix2 j h)

end Cert.Softmax

end
-- ==== Proof.Softmax.Closed.lean ====
import proofs.«405262_j58909771432351_3_alg».proof.Proof.Softmax.Spec
import Mathlib.Data.EReal.Basic
import Mathlib.Data.EReal.Operations
import Mathlib.Data.Finset.Fold
import Mathlib.Data.Finset.Max
import Mathlib.Algebra.BigOperators.Fin
import Mathlib.Algebra.Order.BigOperators.Group.Finset
import Mathlib.Analysis.SpecialFunctions.Log.Basic

noncomputable section

open scoped BigOperators

namespace Cert.Softmax.Closed

open Idealize.ShloMosaic

theorem coe_max (a b : ℝ) : ((max a b : ℝ) : EReal) = max (a : EReal) (b : EReal) :=
  EReal.coe_strictMono.monotone.map_max

theorem coe_sum {ι : Type*} (S : Finset ι) (f : ι → ℝ) :
    ∑ i ∈ S, (f i : EReal) = ((∑ i ∈ S, f i : ℝ) : EReal) := by
  classical
  induction S using Finset.induction_on with
  | empty => simp
  | insert a S ha ih => rw [Finset.sum_insert ha, Finset.sum_insert ha, ih, EReal.coe_add]

theorem coe_ite (c : Prop) [Decidable c] (x : ℝ) :
    (if c then (x : EReal) else 0) = ((if c then x else 0 : ℝ) : EReal) := by
  split_ifs <;> simp

theorem fold_max_coe {ι : Type*} (S : Finset ι) (g : ι → ℝ) (i₀ : ι) (hi₀ : i₀ ∈ S) (hmax : ∀ i ∈ S, g i ≤ g i₀) :
    S.fold max ⊥ (fun i => (g i : EReal)) = (g i₀ : EReal) := by
  apply le_antisymm
  · rw [Finset.fold_max_le]
    exact ⟨bot_le, fun i hi => EReal.coe_le_coe_iff.2 (hmax i hi)⟩
  · rw [Finset.le_fold_max]
    exact Or.inr ⟨i₀, hi₀, le_rfl⟩

def entEquiv : Fin 32 × Fin 1000 ≃ Fin 32000 where
  toFun x := ent x.1 x.2
  invFun j := (⟨j.val / 1000, by have := j.isLt; omega⟩, ⟨j.val % 1000, by omega⟩)
  left_inv x := by
    rcases x with ⟨v, q⟩
    have hv := v.isLt
    have hq := q.isLt
    refine Prod.ext (Fin.ext ?_) (Fin.ext ?_)
    · show (1000 * v.val + q.val) / 1000 = v.val
      omega
    · show (1000 * v.val + q.val) % 1000 = q.val
      omega
  right_inv j := by
    refine Fin.ext ?_
    show 1000 * (j.val / 1000) + j.val % 1000 = j.val
    omega

theorem ent_div_mod (j : Fin 32000) :
    ent ⟨j.val / 1000, by have := j.isLt; omega⟩ ⟨j.val % 1000, by omega⟩ = j :=
  entEquiv.right_inv j

theorem sum_tiles (f : Fin 32000 → ℝ) : ∑ v : Fin 32, ∑ q : Fin 1000, f (ent v q) = ∑ j : Fin 32000, f j := by
  rw [← Fintype.sum_prod_type']
  exact Fintype.sum_equiv entEquiv _ _ (fun _ => rfl)

def headSum (f : Fin 32000 → ℝ) (n : ℕ) : ℝ :=
  ∑ v ∈ (Finset.univ : Finset (Fin 32)).filter (fun v => v.val < n), ∑ q : Fin 1000, f (ent v q)

theorem headSum_zero (f : Fin 32000 → ℝ) : headSum f 0 = 0 := by
  unfold headSum
  rw [Finset.filter_false_of_mem (fun v _ => Nat.not_lt_zero _)]
  exact Finset.sum_empty

theorem headSum_succ (f : Fin 32000 → ℝ) (n : ℕ) (h : n < 32) :
    headSum f (n + 1) = headSum f n + ∑ q : Fin 1000, f (ent ⟨n, h⟩ q) := by
  unfold headSum
  have hset : (Finset.univ : Finset (Fin 32)).filter (fun v => v.val < n + 1)
      = insert (⟨n, h⟩ : Fin 32) ((Finset.univ : Finset (Fin 32)).filter (fun v => v.val < n)) := by
    ext v
    simp only [Finset.mem_filter, Finset.mem_univ, true_and, Finset.mem_insert, Fin.ext_iff]
    omega
  have hnot : (⟨n, h⟩ : Fin 32) ∉ (Finset.univ : Finset (Fin 32)).filter (fun v => v.val < n) := by
    simp
  rw [hset, Finset.sum_insert hnot, add_comm]

theorem headSum_full (f : Fin 32000 → ℝ) : headSum f 32 = ∑ j : Fin 32000, f j := by
  unfold headSum
  rw [Finset.filter_true_of_mem (fun v _ => v.isLt)]
  exact sum_tiles f

theorem mul_headSum (c : ℝ) (f : Fin 32000 → ℝ) (n : ℕ) : c * headSum f n = headSum (fun j => c * f j) n := by
  unfold headSum
  rw [Finset.mul_sum]
  exact Finset.sum_congr rfl (fun v _ => Finset.mul_sum _ _ _)

theorem tileMax_real (σ : Fin 32000 → ℝ) (v : Fin 32) :
    ∃ t : ℝ, tileMax (fun j => (σ j : EReal)) v = (t : EReal) ∧ (∀ q, σ (ent v q) ≤ t) ∧ ∃ q, σ (ent v q) = t := by
  obtain ⟨q₀, _, hq₀⟩ :=
    Finset.exists_max_image (Finset.univ : Finset (Fin 1000)) (fun q => σ (ent v q)) Finset.univ_nonempty
  refine ⟨σ (ent v q₀), ?_, fun q => hq₀ q (Finset.mem_univ q), ⟨q₀, rfl⟩⟩
  exact fold_max_coe Finset.univ (fun q => σ (ent v q)) q₀ (Finset.mem_univ _) hq₀

theorem step_real (σ : Fin 32000 → ℝ) (lab : ℕ) (v : Fin 32) (t : ℝ)
    (ht : tileMax (fun j => (σ j : EReal)) v = (t : EReal)) (m L T : ℝ) :
    step (fun j => (σ j : EReal)) lab v ((m : EReal), (L : EReal), (T : EReal)) =
      (((max m t : ℝ) : EReal),
       ((Real.exp (m - max m t) * L + ∑ q : Fin 1000, Real.exp (σ (ent v q) - max m t) : ℝ) : EReal),
       ((T + ∑ q : Fin 1000, (if lab = 1000 * v.val + q.val then σ (ent v q) else 0) : ℝ) : EReal)) := by
  unfold step
  simp only [ht, ← coe_max, ← EReal.coe_sub, Ideal.exp_coe, ← EReal.coe_mul, coe_sum, coe_ite, ← EReal.coe_add]

theorem step_start (σ : Fin 32000 → ℝ) (lab : ℕ) (v : Fin 32) (t : ℝ)
    (ht : tileMax (fun j => (σ j : EReal)) v = (t : EReal)) :
    step (fun j => (σ j : EReal)) lab v start =
      ((t : EReal),
       ((∑ q : Fin 1000, Real.exp (σ (ent v q) - t) : ℝ) : EReal),
       ((∑ q : Fin 1000, (if lab = 1000 * v.val + q.val then σ (ent v q) else 0) : ℝ) : EReal)) := by
  unfold step start
  simp only [ht, max_bot_left, EReal.bot_sub, Ideal.exp_bot, zero_mul, zero_add, ← EReal.coe_sub, Ideal.exp_coe,
    coe_sum, coe_ite]

structure Inv (σ : Fin 32000 → ℝ) (lab n : ℕ) (p : EReal × EReal × EReal) (m : ℝ) : Prop where
  fst : p.1 = (m : EReal)
  ub : ∀ v : Fin 32, v.val < n → ∀ q, σ (ent v q) ≤ m
  att : ∃ v : Fin 32, v.val < n ∧ ∃ q, σ (ent v q) = m
  snd : p.2.1 = ((headSum (fun j => Real.exp (σ j - m)) n : ℝ) : EReal)
  trd : p.2.2 = ((headSum (fun j => if lab = j.val then σ j else 0) n : ℝ) : EReal)

theorem rescale (σ : Fin 32000 → ℝ) (m M : ℝ) (n : ℕ) :
    Real.exp (m - M) * headSum (fun j => Real.exp (σ j - m)) n = headSum (fun j => Real.exp (σ j - M)) n := by
  rw [mul_headSum]
  congr 1
  funext j
  rw [← Real.exp_add]
  congr 1
  ring

theorem stream_inv (σ : Fin 32000 → ℝ) (lab : ℕ) :
    ∀ (n : ℕ) (h : n + 1 ≤ 32),
      ∃ m : ℝ, Inv σ lab (n + 1) (stream (fun j => (σ j : EReal)) lab (n + 1) h) m := by
  intro n
  induction n with
  | zero =>
    intro h
    obtain ⟨t, ht, hub, q₀, hq₀⟩ := tileMax_real σ ⟨0, h⟩
    refine ⟨t, ?_⟩
    have hstep : stream (fun j => (σ j : EReal)) lab (0 + 1) h
        = step (fun j => (σ j : EReal)) lab ⟨0, h⟩ start := rfl
    rw [hstep, step_start σ lab ⟨0, h⟩ t ht]
    refine ⟨rfl, ?_, ?_, ?_, ?_⟩
    · intro v hv q
      have hv0 : v = ⟨0, h⟩ := Fin.ext (by show v.val = 0; omega)
      subst hv0
      exact hub q
    · exact ⟨⟨0, h⟩, Nat.lt_succ_self 0, q₀, hq₀⟩
    · show ((_ : ℝ) : EReal) = _
      rw [headSum_succ _ 0 h, headSum_zero, zero_add]
    · show ((_ : ℝ) : EReal) = _
      rw [headSum_succ _ 0 h, headSum_zero, zero_add]
      rfl
  | succ n ih =>
    intro h
    have h' : n + 1 ≤ 32 := Nat.le_of_succ_le h
    obtain ⟨m, hm⟩ := ih h'
    obtain ⟨t, ht, hub, q₀, hq₀⟩ := tileMax_real σ ⟨n + 1, h⟩
    refine ⟨max m t, ?_⟩
    have hp : stream (fun j => (σ j : EReal)) lab (n + 1) h'
        = ((m : EReal), ((headSum (fun j => Real.exp (σ j - m)) (n + 1) : ℝ) : EReal),
            ((headSum (fun j => if lab = j.val then σ j else 0) (n + 1) : ℝ) : EReal)) :=
      Prod.ext hm.fst (Prod.ext hm.snd hm.trd)
    have hstep : stream (fun j => (σ j : EReal)) lab (n + 1 + 1) h
        = step (fun j => (σ j : EReal)) lab ⟨n + 1, h⟩ (stream (fun j => (σ j : EReal)) lab (n + 1) h') := rfl
    rw [hstep, hp, step_real σ lab ⟨n + 1, h⟩ t ht]
    refine ⟨rfl, ?_, ?_, ?_, ?_⟩
    · intro v hv q
      by_cases hlt : v.val < n + 1
      · exact le_trans (hm.ub v hlt q) (le_max_left _ _)
      · have hv1 : v = ⟨n + 1, h⟩ := Fin.ext (by show v.val = n + 1; omega)
        subst hv1
        exact le_trans (hub q) (le_max_right _ _)
    · rcases le_total t m with hle | hle
      · obtain ⟨v, hv, q, hq⟩ := hm.att
        exact ⟨v, Nat.lt_succ_of_lt hv, q, by rw [max_eq_left hle]; exact hq⟩
      · exact ⟨⟨n + 1, h⟩, Nat.lt_succ_self _, q₀, by rw [max_eq_right hle]; exact hq₀⟩
    · show ((_ : ℝ) : EReal) = _
      rw [headSum_succ _ (n + 1) h, rescale]
    · show ((_ : ℝ) : EReal) = _
      rw [headSum_succ _ (n + 1) h]
      rfl

end Cert.Softmax.Closed

namespace Cert.Softmax

open Idealize.ShloMosaic Cert.Softmax.Closed

theorem streamed_eq_closed (s : Fin 32000 → EReal) (hs : ∀ j, ∃ x : ℝ, s j = (x : EReal)) (l : Fin 32000) :
    streamed s l.val = closed s l := by
  choose σ hσ using hs
  obtain rfl : s = fun j => (σ j : EReal) := funext hσ
  obtain ⟨m, hm31⟩ := stream_inv σ l.val 31 le_rfl
  have hm : Inv σ l.val 32 (stream (fun j => (σ j : EReal)) l.val 32 le_rfl) m := hm31

  have hub : ∀ j, σ j ≤ m := fun j => by
    have hj := hm.ub ⟨j.val / 1000, by have := j.isLt; omega⟩ (Fin.isLt _) ⟨j.val % 1000, by omega⟩
    rwa [ent_div_mod] at hj
  obtain ⟨v₀, _, q₀, hq₀⟩ := hm.att
  have hvoc : vocMax (fun j => (σ j : EReal)) = (m : EReal) := by
    unfold vocMax
    rw [← hq₀]
    exact fold_max_coe Finset.univ σ (ent v₀ q₀) (Finset.mem_univ _) (fun j _ => hq₀ ▸ hub j)

  have hLpos : 0 < ∑ j : Fin 32000, Real.exp (σ j - m) :=
    Finset.sum_pos (fun j _ => Real.exp_pos _) Finset.univ_nonempty
  have hlog : Ideal.log ((∑ j : Fin 32000, Real.exp (σ j - m) : ℝ) : EReal)
      = ((Real.log (∑ j : Fin 32000, Real.exp (σ j - m)) : ℝ) : EReal) := by
    rw [Ideal.log_coe, if_neg (not_le.2 hLpos)]

  have hT : headSum (fun j => if l.val = j.val then σ j else 0) 32 = σ l := by
    rw [headSum_full, Finset.sum_eq_single l]
    · rw [if_pos rfl]
    · intro j _ hne
      rw [if_neg]
      intro hval
      exact hne (Fin.ext hval.symm)
    · intro hnot
      exact absurd (Finset.mem_univ l) hnot
  unfold streamed result closed
  rw [hm.fst, hm.snd, hm.trd, hT, headSum_full, hvoc]
  simp only [← EReal.coe_sub, Ideal.exp_coe, coe_sum, hlog, ← EReal.coe_add]
  refine EReal.coe_eq_coe_iff.2 ?_
  ring

end Cert.Softmax

end
-- ==== Proof.KernelIdeal.Tile.Pay.lean ====
import proofs.«405262_j58909771432351_3_alg».proof.Proof.Gen.KernelIdeal.Skeleton
import proofs.«405262_j58909771432351_3_alg».proof.Proof.Softmax.Closed
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Tile

open Cert.KernelIdeal Cert.KernelIdeal.Gen
open Idealize.ShloMosaic Idealize.ShloMosaic.ValueIdx

def tileLogit (x0 : FVec Ideal S1024x2048 .bf16) (x1 : FVec Ideal S1000x2048 .f32) (p : Fin 1024) (q : Fin 1000) : EReal :=
  ∑ h : Fin 2048, x0 (ix2 p h) * x1 (ix2 q h)

theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem ofBits_negInf_f32 : Ideal.ofBits .f32 0xFF800000#32 = ⊥ := by simp [Ideal.ofBits, Ideal.ieee]

theorem lhs0 (p : Fin 1024) (q : Fin 1000) (k : dot_S1024x2048_S1000x2048_S1024x1000_1_1_0_0_n_n.contr.Idx) :
    (dot_S1024x2048_S1000x2048_S1024x1000_1_1_0_0_n_n.lhsIdx (ix2 p q) k 0).val = p.val := by
  simp [DotDims.lhsIdx, dot_S1024x2048_S1000x2048_S1024x1000_1_1_0_0_n_n]
  rfl

theorem rhs0 (p : Fin 1024) (q : Fin 1000) (k : dot_S1024x2048_S1000x2048_S1024x1000_1_1_0_0_n_n.contr.Idx) :
    (dot_S1024x2048_S1000x2048_S1024x1000_1_1_0_0_n_n.rhsIdx (ix2 p q) k 0).val = q.val := by
  simp [DotDims.rhsIdx, dot_S1024x2048_S1000x2048_S1024x1000_1_1_0_0_n_n]
  rfl

theorem lhs1 (p : Fin 1024) (q : Fin 1000) (c : Fin 2048) :
    (dot_S1024x2048_S1000x2048_S1024x1000_1_1_0_0_n_n.lhsIdx (ix2 p q)
      ((contrEquiv1 dot_S1024x2048_S1000x2048_S1024x1000_1_1_0_0_n_n 2048 rfl rfl).symm c) 1).val = c.val := by
  refine (DotDims.lhsIdx_val_of_single _ (cl := 1) rfl _ _).trans ?_
  exact contrEquiv1_symm_val _ 2048 rfl rfl c

theorem rhs1 (p : Fin 1024) (q : Fin 1000) (c : Fin 2048) :
    (dot_S1024x2048_S1000x2048_S1024x1000_1_1_0_0_n_n.rhsIdx (ix2 p q)
      ((contrEquiv1 dot_S1024x2048_S1000x2048_S1024x1000_1_1_0_0_n_n 2048 rfl rfl).symm c) 1).val = c.val := by
  refine (DotDims.rhsIdx_val_of_single _ (cr := 1) rfl _ _).trans ?_
  exact contrEquiv1_symm_val _ 2048 rfl rfl c

-- A tile's logit is the row's inner product with the tile's vocabulary row.
theorem logits_apply (x0 : FVec Ideal S1024x2048 .bf16) (x1 : FVec Ideal S1000x2048 .f32) (p : Fin 1024) (q : Fin 1000) :
    k0_pay7 (F := Ideal) x0 x1 (ix2 p q) = tileLogit x0 x1 p q := by
  unfold k0_pay7 tileLogit
  refine (Ideal.matmul_constant_zero_apply _ none _ _ (ix2 p q)).trans ?_
  rw [← Equiv.sum_comp (contrEquiv1 dot_S1024x2048_S1000x2048_S1024x1000_1_1_0_0_n_n 2048 rfl rfl).symm]
  refine Finset.sum_congr rfl fun c _ => ?_
  rw [shapeCast_self, truncf_apply]
  have hl : dot_S1024x2048_S1000x2048_S1024x1000_1_1_0_0_n_n.lhsIdx (ix2 p q)
      ((contrEquiv1 dot_S1024x2048_S1000x2048_S1024x1000_1_1_0_0_n_n 2048 rfl rfl).symm c) = ix2 p c :=
    Shape.idx_ext₂ (lhs0 p q _) (lhs1 p q c)
  have hr : dot_S1024x2048_S1000x2048_S1024x1000_1_1_0_0_n_n.rhsIdx (ix2 p q)
      ((contrEquiv1 dot_S1024x2048_S1000x2048_S1024x1000_1_1_0_0_n_n 2048 rfl rfl).symm c) = ix2 q c :=
    Shape.idx_ext₂ (rhs0 p q _) (rhs1 p q c)
  rw [hl, hr]

theorem lift_row (p : Fin 1024) (q : Fin 1000) : reduces_S1024x1000_S1024.lift (ix1 p) q = ix2 p q :=
  Shape.idx_ext₂ rfl rfl

theorem rowMax_apply (src : FVec Ideal S1024x1000 .f32) (p : Fin 1024) :
    multiReduction .maximumf [1] S1024 src 0xFF800000#32 reduces_S1024x1000_S1024 (.inl rfl) rfl (ix1 p)
      = (Finset.univ : Finset (Fin 1000)).fold max ⊥ (fun q => src (ix2 p q)) := by
  refine (Ideal.multiReduction_maximumf_single src 0xFF800000#32 reduces_S1024x1000_S1024 (.inl rfl) rfl (ix1 p)).trans ?_
  show (Finset.univ : Finset (Fin 1000)).fold max (Ideal.ofBits .f32 0xFF800000#32)
      (fun q => src (reduces_S1024x1000_S1024.lift (ix1 p) q)) = _
  rw [ofBits_negInf_f32]
  exact congrArg (fun f : Fin 1000 → EReal => (Finset.univ : Finset (Fin 1000)).fold max ⊥ f)
    (funext fun q => congrArg src (lift_row p q))

theorem rowSum_apply (src : FVec Ideal S1024x1000 .f32) (p : Fin 1024) :
    multiReduction .add [1] S1024 src 0x00000000#32 reduces_S1024x1000_S1024 (.inl rfl) rfl (ix1 p)
      = ∑ q : Fin 1000, src (ix2 p q) := by
  refine (Ideal.multiReduction_add_single src 0x00000000#32 reduces_S1024x1000_S1024 (.inl rfl) rfl (ix1 p)).trans ?_
  exact Finset.sum_congr rfl fun q _ => congrArg src (lift_row p q)

theorem pay9_apply (x0 : FVec Ideal S1024x2048 .bf16) (x1 : FVec Ideal S1000x2048 .f32) (xm : FVec Ideal S1024x1 .f32) (p : Fin 1024) :
    k0_pay9 (F := Ideal) x0 x1 xm (ix2 p 0)
      = max (xm (ix2 p 0)) ((Finset.univ : Finset (Fin 1000)).fold max ⊥ (fun q => tileLogit x0 x1 p q)) := by
  unfold k0_pay9
  refine (maximumf_apply _ _ _).trans ?_
  refine congrArg (max (xm (ix2 p 0))) ?_
  refine (shapeCast_a_a1_apply _ _ p 0).trans ?_
  refine (rowMax_apply _ p).trans ?_
  exact congrArg (fun f : Fin 1000 → EReal => (Finset.univ : Finset (Fin 1000)).fold max ⊥ f)
    (funext fun q => logits_apply x0 x1 p q)

theorem max_apply (x0 : FVec Ideal S1024x2048 .bf16) (x1 : FVec Ideal S1000x2048 .f32) (xm : FVec Ideal S1024x1 .f32) (p : Fin 1024) :
    k0_pay2 (F := Ideal) (k0_pay9 x0 x1 xm) (ix2 p 0)
      = max (xm (ix2 p 0)) ((Finset.univ : Finset (Fin 1000)).fold max ⊥ (fun q => tileLogit x0 x1 p q)) := by
  unfold k0_pay2
  rw [shapeCast_self]
  exact pay9_apply x0 x1 xm p

theorem sum_apply (x0 : FVec Ideal S1024x2048 .bf16) (x1 : FVec Ideal S1000x2048 .f32) (xm xl : FVec Ideal S1024x1 .f32) (p : Fin 1024) :
    k0_pay1 (F := Ideal) (k0_pay10 x0 x1 xm xm) (k0_pay11 x0 x1 xm) xl (ix2 p 0)
      = Ideal.exp (xm (ix2 p 0) - max (xm (ix2 p 0)) ((Finset.univ : Finset (Fin 1000)).fold max ⊥ (fun q => tileLogit x0 x1 p q))) * xl (ix2 p 0)
        + ∑ q : Fin 1000, Ideal.exp (tileLogit x0 x1 p q - max (xm (ix2 p 0)) ((Finset.univ : Finset (Fin 1000)).fold max ⊥ (fun q => tileLogit x0 x1 p q))) := by

  have h10 : k0_pay10 (F := Ideal) x0 x1 xm xm (ix2 p 0)
      = Ideal.exp (xm (ix2 p 0) - max (xm (ix2 p 0)) ((Finset.univ : Finset (Fin 1000)).fold max ⊥ (fun q => tileLogit x0 x1 p q))) := by
    unfold k0_pay10
    show Ideal.exp (xm (ix2 p 0) - k0_pay9 (F := Ideal) x0 x1 xm (ix2 p 0)) = _
    rw [pay9_apply]

  have h11 : ∀ q : Fin 1000, k0_pay11 (F := Ideal) x0 x1 xm (ix2 p q)
      = Ideal.exp (tileLogit x0 x1 p q - max (xm (ix2 p 0)) ((Finset.univ : Finset (Fin 1000)).fold max ⊥ (fun q => tileLogit x0 x1 p q))) := by
    intro q
    unfold k0_pay11
    show Ideal.exp (k0_pay7 (F := Ideal) x0 x1 (ix2 p q)
      - broadcastTo S1024x1000 (k0_pay9 (F := Ideal) x0 x1 xm) broadcasts_S1024x1_S1024x1000 (ix2 p q)) = _
    rw [logits_apply, broadcastTo_a1_ab_apply, pay9_apply]
  unfold k0_pay1
  rw [shapeCast_self]
  refine (addf_apply _ _ _).trans ?_
  refine congrArg₂ (· + ·) ?_ ?_
  · refine (mulf_apply _ _ _).trans ?_
    rw [h10]
  · refine (shapeCast_a_a1_apply _ _ p 0).trans ?_
    refine (rowSum_apply _ p).trans ?_
    exact Finset.sum_congr rfl fun q _ => h11 q

theorem select_bit_eq_ite {α : Type} (b : BitVec 1) (P : Prop) [Decidable P] (hb : b = 1#1 ↔ P) (a z : α) :
    Scalar.select b a z = if P then a else z := by
  by_cases hP : P
  · rw [if_pos hP, hb.mpr hP, select_one]
  · rw [if_neg hP, eq_zero_of_ne_one (fun h => hP (hb.mp h)), select_zero]

theorem cmpi_eq_one_iff {w : ℕ} (a b : BitVec w) : IntOp.cmpi .eq a b = 1#1 ↔ a = b := by
  show BitVec.ofBool (a == b) = 1#1 ↔ a = b
  cases hb : (a == b)
  · have hne : a ≠ b := fun h => by rw [h, beq_self_eq_true] at hb; exact Bool.noConfusion hb
    exact ⟨fun h => absurd h (by decide), fun h => absurd h hne⟩
  · exact ⟨fun _ => eq_of_beq hb, fun _ => rfl⟩

theorem label_bit (t : ℕ) (ht : t < 32) (x : BitVec 32) (q : Fin 1000) :
    IntOp.cmpi .eq x (IntOp.addi (BitVec.ofNat 32 q.val) (Scalar.muli (BitVec.ofNat 32 t) 1000#32)) = 1#1
      ↔ x.toNat = 1000 * t + q.val := by
  have hq := q.isLt
  have hv : (IntOp.addi (BitVec.ofNat 32 q.val) (Scalar.muli (BitVec.ofNat 32 t) 1000#32)).toNat = 1000 * t + q.val := by
    show (BitVec.ofNat 32 q.val + BitVec.ofNat 32 t * 1000#32).toNat = _
    rw [BitVec.toNat_add, BitVec.toNat_mul, BitVec.toNat_ofNat, BitVec.toNat_ofNat, BitVec.toNat_ofNat]
    omega
  rw [cmpi_eq_one_iff]
  constructor
  · intro h; rw [h]; exact hv
  · intro h; exact BitVec.eq_of_toNat_eq (h.trans hv.symm)

theorem lab_apply (i : grid0.Coords) (x0 : FVec Ideal S1024x2048 .bf16) (x1 : FVec Ideal S1000x2048 .f32) (x2 : IVec S1024x1 32)
    (xt : FVec Ideal S1024x1 .f32) (p : Fin 1024) :
    k0_pay8 (F := Ideal) i x0 x1 x2 xt (ix2 p 0)
      = xt (ix2 p 0) + ∑ q : Fin 1000, (if (x2 (ix2 p 0)).toNat = 1000 * (i 1).val + q.val then tileLogit x0 x1 p q else 0) := by
  have hi : (i 1).val < 32 := (i 1).isLt
  unfold k0_pay8
  simp only [shapeCast_self]
  refine (addf_apply _ _ _).trans ?_
  refine congrArg (xt (ix2 p 0) + ·) ?_
  refine (shapeCast_a_a1_apply _ _ p 0).trans ?_
  refine (rowSum_apply _ p).trans ?_
  refine Finset.sum_congr rfl fun q _ => ?_
  refine (select_apply _ _ _ _).trans ?_
  rw [logits_apply]
  refine (select_bit_eq_ite _ ((x2 (ix2 p 0)).toNat = 1000 * (i 1).val + q.val) ?_ _ _).trans ?_
  ·
    show IntOp.cmpi .eq (broadcastTo S1024x1000 x2 broadcasts_S1024x1_S1024x1000 (ix2 p q))
        (IntOp.addi (iota .tc S1024x1000 32 [1] iota_S1024x1000_d1_w32 (ix2 p q))
          (Scalar.muli (BitVec.ofNat 32 (i 1).val) 1000#32)) = 1#1 ↔ _
    rw [broadcastTo_a1_ab_apply, iota_single_apply]
    exact label_bit (i 1).val hi _ q
  ·
    show (if _ then _ else Ideal.ofBits .f32 0x00000000#32) = _
    rw [Ideal.ofBits_zero_f32]

theorem out_apply (xm xl xt : FVec Ideal S1024x1 .f32) (p : Fin 1024) :
    k0_pay3 (F := Ideal) xm xl xt (ix2 p 0) = xt (ix2 p 0) - (xm (ix2 p 0) + Ideal.log (xl (ix2 p 0))) := by
  unfold k0_pay3
  rfl

theorem resetMax_apply (j : S1024x1.Idx) : k0_pay4 (F := Ideal) j = ⊥ := by
  unfold k0_pay4
  rw [shapeCast_self]
  exact ofBits_negInf_f32
theorem resetSum_apply (j : S1024x1.Idx) : k0_pay5 (F := Ideal) j = 0 := by
  unfold k0_pay5
  rw [shapeCast_self]
  exact Ideal.ofBits_zero_f32
theorem resetLab_apply (j : S1024x1.Idx) : k0_pay6 (F := Ideal) j = 0 := by
  unfold k0_pay6
  rw [shapeCast_self]
  exact Ideal.ofBits_zero_f32

-- One step of the body at a row is the specification's step on that row's tile logits.
theorem step_vars (i : grid0.Coords) (x0 : FVec Ideal S1024x2048 .bf16) (x1 : FVec Ideal S1000x2048 .f32) (x2 : IVec S1024x1 32)
    (xm xl xt : FVec Ideal S1024x1 .f32) (p : Fin 1024) (s : Fin 32000 → EReal) (lab : ℕ) (v : Fin 32)
    (hs : ∀ q, tileLogit x0 x1 p q = s (Cert.Softmax.ent v q)) (hl : (x2 (ix2 p 0)).toNat = lab) (hv : (i 1).val = v.val) :
    (k0_pay2 (F := Ideal) (k0_pay9 x0 x1 xm) (ix2 p 0), k0_pay1 (F := Ideal) (k0_pay10 x0 x1 xm xm) (k0_pay11 x0 x1 xm) xl (ix2 p 0),
        k0_pay8 (F := Ideal) i x0 x1 x2 xt (ix2 p 0))
      = Cert.Softmax.step s lab v (xm (ix2 p 0), xl (ix2 p 0), xt (ix2 p 0)) := by
  rw [max_apply, sum_apply, lab_apply]
  unfold Cert.Softmax.step Cert.Softmax.tileMax
  simp only [hs, hl, hv]

theorem stream_of_zero (s : Fin 32000 → EReal) (lab : ℕ) (k : ℕ) (hk : k ≤ 32) (h : k = 0) :
    Cert.Softmax.stream s lab k hk = Cert.Softmax.start := by
  subst h; rfl

theorem stream_of_succ (s : Fin 32000 → EReal) (lab : ℕ) (j k : ℕ) (hj : j ≤ 32) (hk : k + 1 ≤ 32) (h : k = j) :
    Cert.Softmax.stream s lab (k + 1) hk = Cert.Softmax.step s lab ⟨k, hk⟩ (Cert.Softmax.stream s lab j hj) := by
  subst h; rfl

theorem stream_of_eq (s : Fin 32000 → EReal) (lab : ℕ) (j k : ℕ) (hj : j ≤ 32) (hk : k ≤ 32) (h : j = k) :
    Cert.Softmax.stream s lab j hj = Cert.Softmax.stream s lab k hk := by
  subst h; rfl

theorem blockIdx_eq (j : S1024x1.Idx) : j = ix2 (j 0) 0 :=
  (eq_ix2 j).trans (congrArg (ix2 (j 0)) (Fin.ext (by have h : (j 1).val < 1 := (j 1).isLt; show (j 1).val = 0; omega)))

theorem rowLogits_real (X : S2048x2048.Idx → EReal) (W : S32000x2048.Idx → EReal)
    (hX : ∀ i, ∃ x : ℝ, X i = (x : EReal)) (hW : ∀ i, ∃ x : ℝ, W i = (x : EReal)) (r : Fin 2048) :
    ∀ j, ∃ x : ℝ, Cert.Softmax.rowLogits X W r j = (x : EReal) := by
  choose x hx using hX
  choose w hw using hW
  intro j
  refine ⟨∑ h : Fin 2048, x (ix2 r h) * w (ix2 j h), ?_⟩
  show ∑ h : Fin 2048, X (ix2 r h) * W (ix2 j h) = _
  rw [← Cert.Softmax.Closed.coe_sum]
  exact Finset.sum_congr rfl fun h _ => by rw [hx, hw, EReal.coe_mul]

end Cert.KernelIdeal.Tile

end
-- ==== Proof.KernelIdeal.Sweep0.Cols.lean ====
import proofs.«405262_j58909771432351_3_alg».proof.Proof.KernelIdeal.Sweep0.Carry
import proofs.«405262_j58909771432351_3_alg».proof.Proof.KernelIdeal.Tile.Pieces
import proofs.«405262_j58909771432351_3_alg».proof.Proof.KernelIdeal.Tile.Pay

set_option maxRecDepth 16384

noncomputable section

open scoped BigOperators

namespace Cert.KernelIdeal.Sweep0

open Cert.KernelIdeal Cert.KernelIdeal.Gen Cert.KernelIdeal.Tile
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

abbrev xArr (c : Dev nD) : S2048x2048.Idx → EReal := V c main_call0_v6
abbrev wArr (c : Dev nD) : S32000x2048.Idx → EReal := V c main_arg3
abbrev labArr (c : Dev nD) : S2048x1.Idx → BitVec 32 := V c main_call0_v7

def rowOf (t : Fin cfg0.N) (p : Fin 1024) : Fin 2048 :=
  ⟨1024 * (t.val / 32) + p.val, by have h : t.val < 64 := lt_of_lt_of_eq t.isLt N_0; have := p.isLt; omega⟩

theorem tiles_le (t : Fin cfg0.N) : t.val % 32 + 1 ≤ 32 := by omega

theorem idx_facts : ∀ t : Fin cfg0.N,
    win0_0.index t (0 : Fin 2) = t.val / 32 ∧ win0_0.index t (1 : Fin 2) = 0
  ∧ win0_1.index t (0 : Fin 2) = t.val % 32 ∧ win0_1.index t (1 : Fin 2) = 0
  ∧ win0_2.index t (0 : Fin 2) = t.val / 32 ∧ win0_2.index t (1 : Fin 2) = 0
  ∧ (grid0.coords t 1).val = t.val % 32 ∧ (grid0.coords t 0).val = t.val / 32 :=
  (by decide +kernel : ∀ t : Fin grid0.N, _)

theorem blk_x (c : Dev nD) (t : Fin cfg0.N) (p : Fin 1024) (h : Fin 2048) :
    iblk V c 0 t (ix2 p h) = xArr V c (ix2 (rowOf t p) h) := by
  obtain ⟨e0, e1, -⟩ := idx_facts t
  unfold iblk
  show V c main_call0_v6 (((cfg0.win 0).blk t).view.emb (ix2 p h)) = V c main_call0_v6 (ix2 (rowOf t p) h)
  congr 1
  funext a; apply Fin.ext
  match a with
  | ⟨0, _⟩ => show win0_0.index t (0 : Fin 2) * 1024 + 1 * p.val = 1024 * (t.val / 32) + p.val; rw [e0]; omega
  | ⟨1, _⟩ => show win0_0.index t (1 : Fin 2) * 2048 + 1 * h.val = h.val; rw [e1]; omega

theorem blk_w (c : Dev nD) (t : Fin cfg0.N) (q : Fin 1000) (h : Fin 2048) :
    iblk V c 1 t (ix2 q h) = wArr V c (ix2 (Cert.Softmax.ent ⟨t.val % 32, Nat.mod_lt _ (by decide)⟩ q) h) := by
  obtain ⟨-, -, e0, e1, -⟩ := idx_facts t
  unfold iblk
  show V c main_arg3 (((cfg0.win 1).blk t).view.emb (ix2 q h)) = V c main_arg3 (ix2 (Cert.Softmax.ent ⟨t.val % 32, Nat.mod_lt _ (by decide)⟩ q) h)
  congr 1
  funext a; apply Fin.ext
  match a with
  | ⟨0, _⟩ => show win0_1.index t (0 : Fin 2) * 1000 + 1 * q.val = 1000 * (t.val % 32) + q.val; rw [e0]; omega
  | ⟨1, _⟩ => show win0_1.index t (1 : Fin 2) * 2048 + 1 * h.val = h.val; rw [e1]; omega

theorem blk_lab (c : Dev nD) (t : Fin cfg0.N) (p : Fin 1024) :
    iblk V c 2 t (ix2 p 0) = labArr V c (ix2 (rowOf t p) 0) := by
  obtain ⟨-, -, -, -, e0, e1, -⟩ := idx_facts t
  unfold iblk
  show V c main_call0_v7 (((cfg0.win 2).blk t).view.emb (ix2 p 0)) = V c main_call0_v7 (ix2 (rowOf t p) 0)
  congr 1
  funext a; apply Fin.ext
  match a with
  | ⟨0, _⟩ => show win0_2.index t (0 : Fin 2) * 1024 + 1 * p.val = 1024 * (t.val / 32) + p.val; rw [e0]; omega
  | ⟨1, _⟩ => show win0_2.index t (1 : Fin 2) * 1 + 1 * 0 = 0; rw [e1]

theorem tileLogit_blk (c : Dev nD) (t : Fin cfg0.N) (p : Fin 1024) (q : Fin 1000) :
    tileLogit (iblk V c 0 t) (iblk V c 1 t) p q
      = Cert.Softmax.rowLogits (xArr V c) (wArr V c) (rowOf t p) (Cert.Softmax.ent ⟨t.val % 32, Nat.mod_lt _ (by decide)⟩ q) := by
  unfold tileLogit Cert.Softmax.rowLogits
  refine Finset.sum_congr rfl fun h _ => ?_
  rw [blk_x, blk_w]

theorem cols_first (c : Dev nD) (t : Fin cfg0.N) (h0 : t.val % 32 = 0) :
    (colsAt V c t.val t.isLt).2
      = (k0_pay2 (k0_pay9 (iblk V c 0 t) (iblk V c 1 t) (k0_pay4 (F := Ideal))),
         k0_pay1 (k0_pay10 (iblk V c 0 t) (iblk V c 1 t) (k0_pay4 (F := Ideal)) (k0_pay4 (F := Ideal))) (k0_pay11 (iblk V c 0 t) (iblk V c 1 t) (k0_pay4 (F := Ideal))) (k0_pay5 (F := Ideal)),
         k0_pay8 (grid0.coords t) (iblk V c 0 t) (iblk V c 1 t) (iblk V c 2 t) (k0_pay6 (F := Ideal))) := by
  rw [colsAt_reset V c t h0, maxReset_eq, sumReset_eq, labReset_eq]

theorem cols_later (c : Dev nD) (t : Fin cfg0.N) (h0 : ¬t.val % 32 = 0) :
    (colsAt V c t.val t.isLt).2
      = (k0_pay2 (k0_pay9 (iblk V c 0 t) (iblk V c 1 t) (prevCols V c t).1),
         k0_pay1 (k0_pay10 (iblk V c 0 t) (iblk V c 1 t) (prevCols V c t).1 (prevCols V c t).1) (k0_pay11 (iblk V c 0 t) (iblk V c 1 t) (prevCols V c t).1) (prevCols V c t).2.1,
         k0_pay8 (grid0.coords t) (iblk V c 0 t) (iblk V c 1 t) (iblk V c 2 t) (prevCols V c t).2.2) := by
  by_cases h1 : t.val % 32 = 31
  · rw [colsAt_finish V c t h0 h1, maxFinish_eq, sumFinish_eq, labFinish_eq]
  · rw [colsAt_step V c t h0 h1, maxStep_eq, sumStep_eq, labStep_eq]

theorem out_last (c : Dev nD) (t : Fin cfg0.N) (h0 : ¬t.val % 32 = 0) (h1 : t.val % 32 = 31) :
    (colsAt V c t.val t.isLt).1
      = k0_pay3 (k0_pay2 (k0_pay9 (iblk V c 0 t) (iblk V c 1 t) (prevCols V c t).1))
         (k0_pay1 (k0_pay10 (iblk V c 0 t) (iblk V c 1 t) (prevCols V c t).1 (prevCols V c t).1) (k0_pay11 (iblk V c 0 t) (iblk V c 1 t) (prevCols V c t).1) (prevCols V c t).2.1)
         (k0_pay8 (grid0.coords t) (iblk V c 0 t) (iblk V c 1 t) (iblk V c 2 t) (prevCols V c t).2.2) := by
  rw [colsAt_finish V c t h0 h1, outFinish_eq]

theorem point_step (c : Dev nD) (t : Fin cfg0.N) (p : Fin 1024) (xm xl xt : FVec Ideal S1024x1 .f32) :
    (k0_pay2 (F := Ideal) (k0_pay9 (iblk V c 0 t) (iblk V c 1 t) xm) (ix2 p 0),
        k0_pay1 (F := Ideal) (k0_pay10 (iblk V c 0 t) (iblk V c 1 t) xm xm) (k0_pay11 (iblk V c 0 t) (iblk V c 1 t) xm) xl (ix2 p 0),
        k0_pay8 (F := Ideal) (grid0.coords t) (iblk V c 0 t) (iblk V c 1 t) (iblk V c 2 t) xt (ix2 p 0))
      = Cert.Softmax.step (Cert.Softmax.rowLogits (xArr V c) (wArr V c) (rowOf t p)) ((labArr V c (ix2 (rowOf t p) 0)).toNat)
          ⟨t.val % 32, Nat.mod_lt _ (by decide)⟩ (xm (ix2 p 0), xl (ix2 p 0), xt (ix2 p 0)) :=
  step_vars (grid0.coords t) (iblk V c 0 t) (iblk V c 1 t) (iblk V c 2 t) xm xl xt p _ _ _
    (fun q => tileLogit_blk V c t p q) (by rw [blk_lab]) (idx_facts t).2.2.2.2.2.2.1

-- By induction over the points of a row tile, the columns at a row are the streaming state of the row's logits.
theorem cols_stream_nat (c : Dev nD) (p : Fin 1024) : ∀ (n : ℕ) (hn : n < cfg0.N),
    ((colsAt V c n hn).2.1 (ix2 p 0), (colsAt V c n hn).2.2.1 (ix2 p 0), (colsAt V c n hn).2.2.2 (ix2 p 0))
      = Cert.Softmax.stream (Cert.Softmax.rowLogits (xArr V c) (wArr V c) (rowOf ⟨n, hn⟩ p)) ((labArr V c (ix2 (rowOf ⟨n, hn⟩ p) 0)).toNat)
          (n % 32 + 1) (tiles_le ⟨n, hn⟩) := by
  intro n
  induction n with
  | zero =>
    intro hn
    have e : (colsAt V c 0 hn).2 = _ := cols_first V c ⟨0, hn⟩ rfl
    rw [e]
    dsimp only
    rw [point_step V c ⟨0, hn⟩ p, resetMax_apply, resetSum_apply, resetLab_apply,
      stream_of_succ _ _ 0 (0 % 32) (Nat.zero_le _) _ rfl]
    rfl
  | succ m ih =>
    intro hn
    by_cases h0 : (m + 1) % 32 = 0
    · have e : (colsAt V c (m + 1) hn).2 = _ := cols_first V c ⟨m + 1, hn⟩ h0
      rw [e]
      dsimp only
      rw [point_step V c ⟨m + 1, hn⟩ p, resetMax_apply, resetSum_apply, resetLab_apply,
        stream_of_succ _ _ 0 ((m + 1) % 32) (Nat.zero_le _) _ h0]
      rfl
    · have hm : m < cfg0.N := Nat.lt_of_succ_lt hn
      have hr : rowOf ⟨m, hm⟩ p = rowOf ⟨m + 1, hn⟩ p := Fin.ext (by
        show 1024 * (m / 32) + p.val = 1024 * ((m + 1) / 32) + p.val
        omega)
      have ih' := ih hm
      rw [hr] at ih'
      have e : (colsAt V c (m + 1) hn).2 = _ := cols_later V c ⟨m + 1, hn⟩ h0
      rw [e]
      dsimp only
      rw [point_step V c ⟨m + 1, hn⟩ p]
      show Cert.Softmax.step _ _ _ ((colsAt V c m hm).2.1 (ix2 p 0), (colsAt V c m hm).2.2.1 (ix2 p 0), (colsAt V c m hm).2.2.2 (ix2 p 0)) = _
      rw [ih', stream_of_succ _ _ (m % 32 + 1) ((m + 1) % 32) (tiles_le ⟨m, hm⟩) _ (by omega)]

theorem cols_stream (c : Dev nD) (t : Fin cfg0.N) (p : Fin 1024) :
    ((colsAt V c t.val t.isLt).2.1 (ix2 p 0), (colsAt V c t.val t.isLt).2.2.1 (ix2 p 0), (colsAt V c t.val t.isLt).2.2.2 (ix2 p 0))
      = Cert.Softmax.stream (Cert.Softmax.rowLogits (xArr V c) (wArr V c) (rowOf t p)) ((labArr V c (ix2 (rowOf t p) 0)).toNat)
          (t.val % 32 + 1) (tiles_le t) := by
  exact cols_stream_nat V c p t.val t.isLt

theorem out_streamed (c : Dev nD) (t : Fin cfg0.N) (h1 : t.val % 32 = 31) (p : Fin 1024) :
    (colsAt V c t.val t.isLt).1 (ix2 p 0)
      = Cert.Softmax.streamed (Cert.Softmax.rowLogits (xArr V c) (wArr V c) (rowOf t p)) ((labArr V c (ix2 (rowOf t p) 0)).toNat) := by
  have h0 : ¬t.val % 32 = 0 := by omega
  have hs := cols_stream V c t p
  rw [cols_later V c t h0] at hs
  rw [out_last V c t h0 h1, out_apply]
  unfold Cert.Softmax.streamed Cert.Softmax.result
  rw [← stream_of_eq _ _ (t.val % 32 + 1) 32 (tiles_le t) le_rfl (by omega), ← hs]

end Cert.KernelIdeal.Sweep0

end
-- ==== Proof.KernelIdeal.Sweep0.Flush.lean ====
import proofs.«405262_j58909771432351_3_alg».proof.Proof.KernelIdeal.Sweep0.Cols
import proofs.«405262_j58909771432351_3_alg».proof.Proof.Softmax.Closed

set_option maxRecDepth 16384

noncomputable section

open scoped BigOperators

namespace Cert.KernelIdeal.Sweep0

open Cert.KernelIdeal Cert.KernelIdeal.Gen Cert.KernelIdeal.Tile
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

def streamedArr (c : Dev nD) : S2048x1.Idx → EReal := fun i =>
  Cert.Softmax.streamed (Cert.Softmax.rowLogits (xArr V c) (wArr V c) (i 0)) ((labArr V c (ix2 (i 0) 0)).toNat)

theorem out_index : ∀ t : Fin cfg0.N, win0_3.index t (0 : Fin 2) = t.val / 32 ∧ win0_3.index t (1 : Fin 2) = 0 :=
  (by decide +kernel : ∀ t : Fin grid0.N, win0_3.index t (0 : Fin 2) = t.val / 32 ∧ win0_3.index t (1 : Fin 2) = 0)

theorem flushed_eq (c : Dev nD) (t : Fin cfg0.N) (hf : (cfg0.win 3).flush t = true) :
    (dat V c).flushed 3 t = ((cfg0.win 3).blk t).view.read (Elt Ideal) (streamedArr V c) := by
  have h1 : t.val % 32 = 31 := (flush0_3 t).mp hf
  show (cfg0.win 3).cut (grid0.coords t) ((dat V c).after 3 t) = _
  rw [after_out]
  funext j
  show (colsAt V c t.val t.isLt).1 (j : S1024x1.Idx) = streamedArr V c (((cfg0.win 3).blk t).view.emb j)
  have hrow : (((cfg0.win 3).blk t).view.emb j) 0 = rowOf t (j 0) := by
    apply Fin.ext
    show win0_3.index t (0 : Fin 2) * 1024 + 1 * (j 0).val = 1024 * (t.val / 32) + (j 0).val
    rw [(out_index t).1]; omega
  unfold streamedArr
  rw [hrow, blockIdx_eq j]
  exact out_streamed V c t h1 (j 0)

theorem mem_blk (t : Fin cfg0.N) (i : S2048x1.Idx) :
    i ∈ ((cfg0.win 3).blk t).view.set ↔ ∀ a : Fin 2, win0_3.index t a * S1024x1.size a ≤ (i a).val ∧ (i a).val < win0_3.index t a * S1024x1.size a + S1024x1.size a := by
  show i ∈ ((View.whole main_call0_v8).slice (win0_3.rect t)).set ↔ _
  rw [View.set_slice_whole, Rect.mem_set_unit]
  exact Iff.rfl

theorem covered (i : S2048x1.Idx) :
    ∃ t : Fin cfg0.N, (cfg0.win 3).flush t = true ∧ i ∈ ((cfg0.win 3).blk t).view.set := by
  have hN : cfg0.N = 64 := N_0
  have hi0 : (i 0).val < 2048 := (i 0).isLt
  have hi1 : (i 1).val < 1 := (i 1).isLt
  obtain ⟨t, ht⟩ : ∃ t : Fin cfg0.N, t.val = 32 * ((i 0).val / 1024) + 31 := ⟨⟨32 * ((i 0).val / 1024) + 31, by omega⟩, rfl⟩
  refine ⟨t, (flush0_3 t).mpr (by omega), ?_⟩
  rw [mem_blk]
  obtain ⟨e0, e1⟩ := out_index t
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1 ≤ (i 1).val ∧ (i 1).val < win0_3.index t (1 : Fin 2) * 1 + 1; omega

-- The last tiles' blocks cover the output array, so row by row it is the streamed value.
theorem arr_eq (c : Dev nD) : ((dat V c).arrAt 3 cfg0.N : S2048x1.Idx → EReal) = streamedArr V c :=
  (dat V c).arrAt_eq_of_cover 3 (streamedArr V c) (fun t hf => flushed_eq V c t hf) covered

theorem arr_streamed (c : Dev nD) (r : Fin 2048) :
    ((dat V c).arrAt 3 cfg0.N : S2048x1.Idx → EReal) (ix2 r 0)
      = Cert.Softmax.streamed (Cert.Softmax.rowLogits (xArr V c) (wArr V c) r) ((labArr V c (ix2 r 0)).toNat) :=
  congrFun (arr_eq V c) (ix2 r 0)

theorem arr_closed (c : Dev nD) (hX : ∀ i, ∃ x : ℝ, xArr V c i = (x : EReal)) (hW : ∀ i, ∃ x : ℝ, wArr V c i = (x : EReal))
    (r : Fin 2048) (hlab : (labArr V c (ix2 r 0)).toNat < 32000) :
    ((dat V c).arrAt 3 cfg0.N : S2048x1.Idx → EReal) (ix2 r 0)
      = Cert.Softmax.closed (Cert.Softmax.rowLogits (xArr V c) (wArr V c) r) ⟨(labArr V c (ix2 r 0)).toNat, hlab⟩ :=
  (arr_streamed V c r).trans
    (Cert.Softmax.streamed_eq_closed _ (rowLogits_real (xArr V c) (wArr V c) hX hW r) ⟨(labArr V c (ix2 r 0)).toNat, hlab⟩)

end Cert.KernelIdeal.Sweep0

end
-- ==== Proof.KernelIdeal.Sweep1.Cols.lean ====
import proofs.«405262_j58909771432351_3_alg».proof.Proof.KernelIdeal.Sweep1.Carry
import proofs.«405262_j58909771432351_3_alg».proof.Proof.KernelIdeal.Tile.Pieces
import proofs.«405262_j58909771432351_3_alg».proof.Proof.KernelIdeal.Tile.Pay

set_option maxRecDepth 16384

noncomputable section

open scoped BigOperators

namespace Cert.KernelIdeal.Sweep1

open Cert.KernelIdeal Cert.KernelIdeal.Gen Cert.KernelIdeal.Tile
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

abbrev xArr (c : Dev nD) : S2048x2048.Idx → EReal := V c main_call0_v11
abbrev wArr (c : Dev nD) : S32000x2048.Idx → EReal := V c main_arg4
abbrev labArr (c : Dev nD) : S2048x1.Idx → BitVec 32 := V c main_call0_v12

def rowOf (t : Fin cfg1.N) (p : Fin 1024) : Fin 2048 :=
  ⟨1024 * (t.val / 32) + p.val, by have h : t.val < 64 := lt_of_lt_of_eq t.isLt N_1; have := p.isLt; omega⟩

theorem tiles_le (t : Fin cfg1.N) : t.val % 32 + 1 ≤ 32 := by omega

theorem idx_facts : ∀ t : Fin cfg1.N,
    win1_0.index t (0 : Fin 2) = t.val / 32 ∧ win1_0.index t (1 : Fin 2) = 0
  ∧ win1_1.index t (0 : Fin 2) = t.val % 32 ∧ win1_1.index t (1 : Fin 2) = 0
  ∧ win1_2.index t (0 : Fin 2) = t.val / 32 ∧ win1_2.index t (1 : Fin 2) = 0
  ∧ (grid1.coords t 1).val = t.val % 32 ∧ (grid1.coords t 0).val = t.val / 32 :=
  (by decide +kernel : ∀ t : Fin grid1.N, _)

theorem blk_x (c : Dev nD) (t : Fin cfg1.N) (p : Fin 1024) (h : Fin 2048) :
    iblk V c 0 t (ix2 p h) = xArr V c (ix2 (rowOf t p) h) := by
  obtain ⟨e0, e1, -⟩ := idx_facts t
  unfold iblk
  show V c main_call0_v11 (((cfg1.win 0).blk t).view.emb (ix2 p h)) = V c main_call0_v11 (ix2 (rowOf t p) h)
  congr 1
  funext a; apply Fin.ext
  match a with
  | ⟨0, _⟩ => show win1_0.index t (0 : Fin 2) * 1024 + 1 * p.val = 1024 * (t.val / 32) + p.val; rw [e0]; omega
  | ⟨1, _⟩ => show win1_0.index t (1 : Fin 2) * 2048 + 1 * h.val = h.val; rw [e1]; omega

theorem blk_w (c : Dev nD) (t : Fin cfg1.N) (q : Fin 1000) (h : Fin 2048) :
    iblk V c 1 t (ix2 q h) = wArr V c (ix2 (Cert.Softmax.ent ⟨t.val % 32, Nat.mod_lt _ (by decide)⟩ q) h) := by
  obtain ⟨-, -, e0, e1, -⟩ := idx_facts t
  unfold iblk
  show V c main_arg4 (((cfg1.win 1).blk t).view.emb (ix2 q h)) = V c main_arg4 (ix2 (Cert.Softmax.ent ⟨t.val % 32, Nat.mod_lt _ (by decide)⟩ q) h)
  congr 1
  funext a; apply Fin.ext
  match a with
  | ⟨0, _⟩ => show win1_1.index t (0 : Fin 2) * 1000 + 1 * q.val = 1000 * (t.val % 32) + q.val; rw [e0]; omega
  | ⟨1, _⟩ => show win1_1.index t (1 : Fin 2) * 2048 + 1 * h.val = h.val; rw [e1]; omega

theorem blk_lab (c : Dev nD) (t : Fin cfg1.N) (p : Fin 1024) :
    iblk V c 2 t (ix2 p 0) = labArr V c (ix2 (rowOf t p) 0) := by
  obtain ⟨-, -, -, -, e0, e1, -⟩ := idx_facts t
  unfold iblk
  show V c main_call0_v12 (((cfg1.win 2).blk t).view.emb (ix2 p 0)) = V c main_call0_v12 (ix2 (rowOf t p) 0)
  congr 1
  funext a; apply Fin.ext
  match a with
  | ⟨0, _⟩ => show win1_2.index t (0 : Fin 2) * 1024 + 1 * p.val = 1024 * (t.val / 32) + p.val; rw [e0]; omega
  | ⟨1, _⟩ => show win1_2.index t (1 : Fin 2) * 1 + 1 * 0 = 0; rw [e1]

theorem tileLogit_blk (c : Dev nD) (t : Fin cfg1.N) (p : Fin 1024) (q : Fin 1000) :
    tileLogit (iblk V c 0 t) (iblk V c 1 t) p q
      = Cert.Softmax.rowLogits (xArr V c) (wArr V c) (rowOf t p) (Cert.Softmax.ent ⟨t.val % 32, Nat.mod_lt _ (by decide)⟩ q) := by
  unfold tileLogit Cert.Softmax.rowLogits
  refine Finset.sum_congr rfl fun h _ => ?_
  rw [blk_x, blk_w]

theorem cols_first (c : Dev nD) (t : Fin cfg1.N) (h0 : t.val % 32 = 0) :
    (colsAt V c t.val t.isLt).2
      = (k0_pay2 (k0_pay9 (iblk V c 0 t) (iblk V c 1 t) (k0_pay4 (F := Ideal))),
         k0_pay1 (k0_pay10 (iblk V c 0 t) (iblk V c 1 t) (k0_pay4 (F := Ideal)) (k0_pay4 (F := Ideal))) (k0_pay11 (iblk V c 0 t) (iblk V c 1 t) (k0_pay4 (F := Ideal))) (k0_pay5 (F := Ideal)),
         k0_pay8 (grid1.coords t) (iblk V c 0 t) (iblk V c 1 t) (iblk V c 2 t) (k0_pay6 (F := Ideal))) := by
  rw [colsAt_reset V c t h0, maxReset_eq, sumReset_eq, labReset_eq]

theorem cols_later (c : Dev nD) (t : Fin cfg1.N) (h0 : ¬t.val % 32 = 0) :
    (colsAt V c t.val t.isLt).2
      = (k0_pay2 (k0_pay9 (iblk V c 0 t) (iblk V c 1 t) (prevCols V c t).1),
         k0_pay1 (k0_pay10 (iblk V c 0 t) (iblk V c 1 t) (prevCols V c t).1 (prevCols V c t).1) (k0_pay11 (iblk V c 0 t) (iblk V c 1 t) (prevCols V c t).1) (prevCols V c t).2.1,
         k0_pay8 (grid1.coords t) (iblk V c 0 t) (iblk V c 1 t) (iblk V c 2 t) (prevCols V c t).2.2) := by
  by_cases h1 : t.val % 32 = 31
  · rw [colsAt_finish V c t h0 h1, maxFinish_eq, sumFinish_eq, labFinish_eq]
  · rw [colsAt_step V c t h0 h1, maxStep_eq, sumStep_eq, labStep_eq]

theorem out_last (c : Dev nD) (t : Fin cfg1.N) (h0 : ¬t.val % 32 = 0) (h1 : t.val % 32 = 31) :
    (colsAt V c t.val t.isLt).1
      = k0_pay3 (k0_pay2 (k0_pay9 (iblk V c 0 t) (iblk V c 1 t) (prevCols V c t).1))
         (k0_pay1 (k0_pay10 (iblk V c 0 t) (iblk V c 1 t) (prevCols V c t).1 (prevCols V c t).1) (k0_pay11 (iblk V c 0 t) (iblk V c 1 t) (prevCols V c t).1) (prevCols V c t).2.1)
         (k0_pay8 (grid1.coords t) (iblk V c 0 t) (iblk V c 1 t) (iblk V c 2 t) (prevCols V c t).2.2) := by
  rw [colsAt_finish V c t h0 h1, outFinish_eq]

theorem point_step (c : Dev nD) (t : Fin cfg1.N) (p : Fin 1024) (xm xl xt : FVec Ideal S1024x1 .f32) :
    (k0_pay2 (F := Ideal) (k0_pay9 (iblk V c 0 t) (iblk V c 1 t) xm) (ix2 p 0),
        k0_pay1 (F := Ideal) (k0_pay10 (iblk V c 0 t) (iblk V c 1 t) xm xm) (k0_pay11 (iblk V c 0 t) (iblk V c 1 t) xm) xl (ix2 p 0),
        k0_pay8 (F := Ideal) (grid1.coords t) (iblk V c 0 t) (iblk V c 1 t) (iblk V c 2 t) xt (ix2 p 0))
      = Cert.Softmax.step (Cert.Softmax.rowLogits (xArr V c) (wArr V c) (rowOf t p)) ((labArr V c (ix2 (rowOf t p) 0)).toNat)
          ⟨t.val % 32, Nat.mod_lt _ (by decide)⟩ (xm (ix2 p 0), xl (ix2 p 0), xt (ix2 p 0)) :=
  step_vars (grid1.coords t) (iblk V c 0 t) (iblk V c 1 t) (iblk V c 2 t) xm xl xt p _ _ _
    (fun q => tileLogit_blk V c t p q) (by rw [blk_lab]) (idx_facts t).2.2.2.2.2.2.1

-- By induction over the points of a row tile, the columns at a row are the streaming state of the row's logits.
theorem cols_stream_nat (c : Dev nD) (p : Fin 1024) : ∀ (n : ℕ) (hn : n < cfg1.N),
    ((colsAt V c n hn).2.1 (ix2 p 0), (colsAt V c n hn).2.2.1 (ix2 p 0), (colsAt V c n hn).2.2.2 (ix2 p 0))
      = Cert.Softmax.stream (Cert.Softmax.rowLogits (xArr V c) (wArr V c) (rowOf ⟨n, hn⟩ p)) ((labArr V c (ix2 (rowOf ⟨n, hn⟩ p) 0)).toNat)
          (n % 32 + 1) (tiles_le ⟨n, hn⟩) := by
  intro n
  induction n with
  | zero =>
    intro hn
    have e : (colsAt V c 0 hn).2 = _ := cols_first V c ⟨0, hn⟩ rfl
    rw [e]
    dsimp only
    rw [point_step V c ⟨0, hn⟩ p, resetMax_apply, resetSum_apply, resetLab_apply,
      stream_of_succ _ _ 0 (0 % 32) (Nat.zero_le _) _ rfl]
    rfl
  | succ m ih =>
    intro hn
    by_cases h0 : (m + 1) % 32 = 0
    · have e : (colsAt V c (m + 1) hn).2 = _ := cols_first V c ⟨m + 1, hn⟩ h0
      rw [e]
      dsimp only
      rw [point_step V c ⟨m + 1, hn⟩ p, resetMax_apply, resetSum_apply, resetLab_apply,
        stream_of_succ _ _ 0 ((m + 1) % 32) (Nat.zero_le _) _ h0]
      rfl
    · have hm : m < cfg1.N := Nat.lt_of_succ_lt hn
      have hr : rowOf ⟨m, hm⟩ p = rowOf ⟨m + 1, hn⟩ p := Fin.ext (by
        show 1024 * (m / 32) + p.val = 1024 * ((m + 1) / 32) + p.val
        omega)
      have ih' := ih hm
      rw [hr] at ih'
      have e : (colsAt V c (m + 1) hn).2 = _ := cols_later V c ⟨m + 1, hn⟩ h0
      rw [e]
      dsimp only
      rw [point_step V c ⟨m + 1, hn⟩ p]
      show Cert.Softmax.step _ _ _ ((colsAt V c m hm).2.1 (ix2 p 0), (colsAt V c m hm).2.2.1 (ix2 p 0), (colsAt V c m hm).2.2.2 (ix2 p 0)) = _
      rw [ih', stream_of_succ _ _ (m % 32 + 1) ((m + 1) % 32) (tiles_le ⟨m, hm⟩) _ (by omega)]

theorem cols_stream (c : Dev nD) (t : Fin cfg1.N) (p : Fin 1024) :
    ((colsAt V c t.val t.isLt).2.1 (ix2 p 0), (colsAt V c t.val t.isLt).2.2.1 (ix2 p 0), (colsAt V c t.val t.isLt).2.2.2 (ix2 p 0))
      = Cert.Softmax.stream (Cert.Softmax.rowLogits (xArr V c) (wArr V c) (rowOf t p)) ((labArr V c (ix2 (rowOf t p) 0)).toNat)
          (t.val % 32 + 1) (tiles_le t) := by
  exact cols_stream_nat V c p t.val t.isLt

theorem out_streamed (c : Dev nD) (t : Fin cfg1.N) (h1 : t.val % 32 = 31) (p : Fin 1024) :
    (colsAt V c t.val t.isLt).1 (ix2 p 0)
      = Cert.Softmax.streamed (Cert.Softmax.rowLogits (xArr V c) (wArr V c) (rowOf t p)) ((labArr V c (ix2 (rowOf t p) 0)).toNat) := by
  have h0 : ¬t.val % 32 = 0 := by omega
  have hs := cols_stream V c t p
  rw [cols_later V c t h0] at hs
  rw [out_last V c t h0 h1, out_apply]
  unfold Cert.Softmax.streamed Cert.Softmax.result
  rw [← stream_of_eq _ _ (t.val % 32 + 1) 32 (tiles_le t) le_rfl (by omega), ← hs]

end Cert.KernelIdeal.Sweep1

end
-- ==== Proof.KernelIdeal.Sweep1.Flush.lean ====
import proofs.«405262_j58909771432351_3_alg».proof.Proof.KernelIdeal.Sweep1.Cols
import proofs.«405262_j58909771432351_3_alg».proof.Proof.Softmax.Closed

set_option maxRecDepth 16384

noncomputable section

open scoped BigOperators

namespace Cert.KernelIdeal.Sweep1

open Cert.KernelIdeal Cert.KernelIdeal.Gen Cert.KernelIdeal.Tile
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

def streamedArr (c : Dev nD) : S2048x1.Idx → EReal := fun i =>
  Cert.Softmax.streamed (Cert.Softmax.rowLogits (xArr V c) (wArr V c) (i 0)) ((labArr V c (ix2 (i 0) 0)).toNat)

theorem out_index : ∀ t : Fin cfg1.N, win1_3.index t (0 : Fin 2) = t.val / 32 ∧ win1_3.index t (1 : Fin 2) = 0 :=
  (by decide +kernel : ∀ t : Fin grid1.N, win1_3.index t (0 : Fin 2) = t.val / 32 ∧ win1_3.index t (1 : Fin 2) = 0)

theorem flushed_eq (c : Dev nD) (t : Fin cfg1.N) (hf : (cfg1.win 3).flush t = true) :
    (dat V c).flushed 3 t = ((cfg1.win 3).blk t).view.read (Elt Ideal) (streamedArr V c) := by
  have h1 : t.val % 32 = 31 := (flush0_3 t).mp hf
  show (cfg1.win 3).cut (grid1.coords t) ((dat V c).after 3 t) = _
  rw [after_out]
  funext j
  show (colsAt V c t.val t.isLt).1 (j : S1024x1.Idx) = streamedArr V c (((cfg1.win 3).blk t).view.emb j)
  have hrow : (((cfg1.win 3).blk t).view.emb j) 0 = rowOf t (j 0) := by
    apply Fin.ext
    show win1_3.index t (0 : Fin 2) * 1024 + 1 * (j 0).val = 1024 * (t.val / 32) + (j 0).val
    rw [(out_index t).1]; omega
  unfold streamedArr
  rw [hrow, blockIdx_eq j]
  exact out_streamed V c t h1 (j 0)

theorem mem_blk (t : Fin cfg1.N) (i : S2048x1.Idx) :
    i ∈ ((cfg1.win 3).blk t).view.set ↔ ∀ a : Fin 2, win1_3.index t a * S1024x1.size a ≤ (i a).val ∧ (i a).val < win1_3.index t a * S1024x1.size a + S1024x1.size a := by
  show i ∈ ((View.whole main_call0_v13).slice (win1_3.rect t)).set ↔ _
  rw [View.set_slice_whole, Rect.mem_set_unit]
  exact Iff.rfl

theorem covered (i : S2048x1.Idx) :
    ∃ t : Fin cfg1.N, (cfg1.win 3).flush t = true ∧ i ∈ ((cfg1.win 3).blk t).view.set := by
  have hN : cfg1.N = 64 := N_1
  have hi0 : (i 0).val < 2048 := (i 0).isLt
  have hi1 : (i 1).val < 1 := (i 1).isLt
  obtain ⟨t, ht⟩ : ∃ t : Fin cfg1.N, t.val = 32 * ((i 0).val / 1024) + 31 := ⟨⟨32 * ((i 0).val / 1024) + 31, by omega⟩, rfl⟩
  refine ⟨t, (flush0_3 t).mpr (by omega), ?_⟩
  rw [mem_blk]
  obtain ⟨e0, e1⟩ := out_index t
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 1 ≤ (i 1).val ∧ (i 1).val < win1_3.index t (1 : Fin 2) * 1 + 1; omega

-- The last tiles' blocks cover the output array, so row by row it is the streamed value.
theorem arr_eq (c : Dev nD) : ((dat V c).arrAt 3 cfg1.N : S2048x1.Idx → EReal) = streamedArr V c :=
  (dat V c).arrAt_eq_of_cover 3 (streamedArr V c) (fun t hf => flushed_eq V c t hf) covered

theorem arr_streamed (c : Dev nD) (r : Fin 2048) :
    ((dat V c).arrAt 3 cfg1.N : S2048x1.Idx → EReal) (ix2 r 0)
      = Cert.Softmax.streamed (Cert.Softmax.rowLogits (xArr V c) (wArr V c) r) ((labArr V c (ix2 r 0)).toNat) :=
  congrFun (arr_eq V c) (ix2 r 0)

theorem arr_closed (c : Dev nD) (hX : ∀ i, ∃ x : ℝ, xArr V c i = (x : EReal)) (hW : ∀ i, ∃ x : ℝ, wArr V c i = (x : EReal))
    (r : Fin 2048) (hlab : (labArr V c (ix2 r 0)).toNat < 32000) :
    ((dat V c).arrAt 3 cfg1.N : S2048x1.Idx → EReal) (ix2 r 0)
      = Cert.Softmax.closed (Cert.Softmax.rowLogits (xArr V c) (wArr V c) r) ⟨(labArr V c (ix2 r 0)).toNat, hlab⟩ :=
  (arr_streamed V c r).trans
    (Cert.Softmax.streamed_eq_closed _ (rowLogits_real (xArr V c) (wArr V c) hX hW r) ⟨(labArr V c (ix2 r 0)).toNat, hlab⟩)

end Cert.KernelIdeal.Sweep1

end
-- ==== Proof.Softmax.Tail.lean ====
import Idealize.ShloMosaic.PureOps.Ideal
import Idealize.ShloMosaic.Lib.ValueIdx

noncomputable section

namespace Cert.Softmax

open Idealize.ShloMosaic

abbrev T4x512 : Shape := ⟨2, ![4, 512]⟩
abbrev T4 : Shape := ⟨1, ![4]⟩
abbrev T2 : Shape := ⟨1, ![2]⟩
abbrev T0 : Shape := ⟨0, ![]⟩

structure TailFacts : Prop where
  bc : T0.BroadcastsInDim T4x512 (![] : Fin 0 → Fin T4x512.rank)
  red : T4x512.ReducesTo [1] T4
  h0 : 0 < T0.numel
  sl0 : T4.Slices ![0] T2
  sl2 : T4.Slices ![2] T2
  bc2 : T0.BroadcastsInDim T2 (![] : Fin 0 → Fin T2.rank)
  red2 : T2.ReducesTo [0] T0

def maskOf (f : TailFacts) (y : IVec T4x512 32) : FVec Ideal T4x512 .f32 :=
  uitofp (F := Ideal) .f32 (cmpi .ne y (broadcastInDim T4x512 ![] f.bc (constantI T0 32 4294967196#32)))

def keptOf (f : TailFacts) (y : IVec T4x512 32) : FVec Ideal T4 .f32 :=
  Host.reduceAdd (F := Ideal) (maskOf f y) (constant (F := Ideal) T0 .f32 0x00000000#32) f.red f.h0

def meanOf (f : TailFacts) (P : FVec Ideal T4x512 .f32) (y : IVec T4x512 32) : FVec Ideal T4 .f32 :=
  Host.divf (F := Ideal) (Host.reduceAdd (F := Ideal) (mulf P (maskOf f y)) (constant (F := Ideal) T0 .f32 0x00000000#32) f.red f.h0) (keptOf f y)

def lossOf (f : TailFacts) (a b : FVec Ideal T4 .f32) : FVec Ideal T0 .f32 :=
  subf (mulf (constant (F := Ideal) T0 .f32 0x00000000#32) (constant (F := Ideal) T0 .f32 0x3F800000#32))
    (Host.divf (F := Ideal)
      (Host.reduceAdd (F := Ideal)
        (addf
          (mulf (subf (subf (extractStridedSlice T2 ![0] a f.sl0) (extractStridedSlice T2 ![0] b f.sl0)) (broadcastInDim T2 ![] f.bc2 (constant (F := Ideal) T0 .f32 0x40A00000#32)))
                (subf (subf (extractStridedSlice T2 ![0] a f.sl0) (extractStridedSlice T2 ![0] b f.sl0)) (broadcastInDim T2 ![] f.bc2 (constant (F := Ideal) T0 .f32 0x40A00000#32))))
          (mulf (addf (subf (extractStridedSlice T2 ![2] a f.sl2) (extractStridedSlice T2 ![2] b f.sl2)) (broadcastInDim T2 ![] f.bc2 (constant (F := Ideal) T0 .f32 0x40A00000#32)))
                (addf (subf (extractStridedSlice T2 ![2] a f.sl2) (extractStridedSlice T2 ![2] b f.sl2)) (broadcastInDim T2 ![] f.bc2 (constant (F := Ideal) T0 .f32 0x40A00000#32)))))
        (constant (F := Ideal) T0 .f32 0x00000000#32) f.red2 f.h0)
      (constant (F := Ideal) T0 .f32 0x40000000#32))

def tailOps (f : TailFacts) (P Q : FVec Ideal T4x512 .f32) (y : IVec T4x512 32) : FVec Ideal T0 .f32 :=
  lossOf f (meanOf f P y) (meanOf f Q y)

end Cert.Softmax

end
-- ==== Proof.KernelIdeal.Glue.lean ====
import proofs.«405262_j58909771432351_3_alg».proof.Proof.Gen.KernelIdeal.Launch
import proofs.«405262_j58909771432351_3_alg».proof.Proof.Softmax.Tail
import Idealize.ShloMosaic.Lib.StableHlo.Run

noncomputable section

namespace Cert.KernelIdeal.Glue

open Cert.KernelIdeal Idealize.ShloMosaic Idealize.ShloMosaic.TcCoe Idealize.SL.Sem Idealize.ShloMosaic.StableHlo
open Facts₀ Facts

theorem tailFacts : Cert.Softmax.TailFacts :=
  ⟨Facts₀.bcast_S_S4x512, Facts₀.reducesTo_S4x512_S4_d1, Facts₀.h_S_, Facts₀.slices_S4_S2_0, Facts₀.slices_S4_S2_2, Facts₀.bcast_S_S2, Facts₀.reducesTo_S2_S_d0⟩

def safeLabels (y : IVec S4x512 32) : IVec S4x512 32 :=
  select (cmpi .ne y (broadcastInDim S4x512 ![] bcast_S_S4x512 (constantI S_ 32 4294967196#32))) y
    (broadcastInDim S4x512 ![] bcast_S_S4x512 (id (constantI S_ 32 0#32)))

theorem pre_x (W : Valuation τ sig (Elt Ideal)) : StableHlo.after (Gen.hostOps0 (F := Ideal)) W (Proc.devRef .tc main_call0_v6)
    = truncf (F := Ideal) .bf16 (shapeCast S2048x2048 (W (Proc.devRef .tc main_arg0)) shapeCasts_S4x512x2048_S2048x2048) bitsLt_bf16_f32 := by
  after_results
  rfl
theorem pre_safe (W : Valuation τ sig (Elt Ideal)) : StableHlo.after (Gen.hostOps0 (F := Ideal)) W (Proc.devRef .tc main_call0_v2) = safeLabels (W (Proc.devRef .tc main_arg2)) := by
  after_results
  rfl
theorem pre_lab (W : Valuation τ sig (Elt Ideal)) : StableHlo.after (Gen.hostOps0 (F := Ideal)) W (Proc.devRef .tc main_call0_v7)
    = shapeCast S2048x1 (safeLabels (W (Proc.devRef .tc main_arg2))) shapeCasts_S4x512_S2048x1 := by
  after_results
  rfl
theorem pre_mask (W : Valuation τ sig (Elt Ideal)) : StableHlo.after (Gen.hostOps0 (F := Ideal)) W (Proc.devRef .tc main_call0_v3) = Cert.Softmax.maskOf tailFacts (W (Proc.devRef .tc main_arg2)) := by
  after_results
  rfl
theorem pre_kept (W : Valuation τ sig (Elt Ideal)) : StableHlo.after (Gen.hostOps0 (F := Ideal)) W (Proc.devRef .tc main_call0_v4) = Cert.Softmax.keptOf tailFacts (W (Proc.devRef .tc main_arg2)) := by
  after_results
  rfl

theorem mid_p (W : Valuation τ sig (Elt Ideal)) : StableHlo.after (Gen.hostOps1 (F := Ideal)) W (Proc.devRef .tc main_call0_v9)
    = shapeCast S4x512 (W (Proc.devRef .tc main_call0_v8)) shapeCasts_S2048x1_S4x512 := by
  after_results
  rfl
theorem mid_x (W : Valuation τ sig (Elt Ideal)) : StableHlo.after (Gen.hostOps1 (F := Ideal)) W (Proc.devRef .tc main_call0_v11)
    = truncf (F := Ideal) .bf16 (shapeCast S2048x2048 (W (Proc.devRef .tc main_arg1)) shapeCasts_S4x512x2048_S2048x2048) bitsLt_bf16_f32 := by
  after_results
  rfl
theorem mid_lab (W : Valuation τ sig (Elt Ideal)) : StableHlo.after (Gen.hostOps1 (F := Ideal)) W (Proc.devRef .tc main_call0_v12)
    = shapeCast S2048x1 (W (Proc.devRef .tc main_call0_v2)) shapeCasts_S4x512_S2048x1 := by
  after_results
  rfl

theorem post_result (W : Valuation τ sig (Elt Ideal)) (y : IVec S4x512 32)
    (h3 : (W (Proc.devRef .tc main_call0_v3)) = Cert.Softmax.maskOf tailFacts y) (h4 : (W (Proc.devRef .tc main_call0_v4)) = Cert.Softmax.keptOf tailFacts y) :
    StableHlo.after (Gen.hostOps2 (F := Ideal)) W (Proc.devRef .tc main_v0)
      = Cert.Softmax.tailOps tailFacts (W (Proc.devRef .tc main_call0_v9)) (shapeCast S4x512 (W (Proc.devRef .tc main_call0_v13)) shapeCasts_S2048x1_S4x512) y := by
  unfold Cert.Softmax.tailOps Cert.Softmax.lossOf Cert.Softmax.meanOf
  rw [← h3, ← h4]
  after_results_simp
  rfl

end Cert.KernelIdeal.Glue

end
-- ==== Proof.RefTok.lean ====
import proofs.«405262_j58909771432351_3_alg».proof.Proof.RefRead
import proofs.«405262_j58909771432351_3_alg».proof.Proof.Softmax.Closed
import Idealize.ShloMosaic.Lib.StableHlo.Predicate

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

def tokLogits (x : (⟨S4x512x2048, .f32⟩ : BufTy).Contents (Elt Ideal)) (w : (⟨S32000x2048, .f32⟩ : BufTy).Contents (Elt Ideal)) (b : Fin 4) (t : Fin 512) : Fin 32000 → EReal :=
  fun j => ∑ h : Fin 2048, x (ix3 b t h) * w (ix2 j h)

namespace Tok

open Cert.ReferenceIdeal.ReadP

theorem reduce_max_row (y : (⟨S4x512x32000, .f32⟩ : BufTy).Contents (Elt Ideal)) (init : (⟨S_, .f32⟩ : BufTy).Contents (Elt Ideal))
    (h' : S4x512x32000.ReducesTo [2] S4x512) (hu : 0 < S_.numel) (b : Fin 4) (t : Fin 512) :
    Host.reduce (FloatOps.maximumf (F := Ideal) (φ := .f32)) y init h' hu (ix2 b t)
      = (Finset.univ : Finset (Fin 32000)).fold max (init (Shape.Idx.first hu)) (fun j => y (ix3 b t j)) := by
  have h : S4x512x32000.Reduces [2] S4x512 := by decide
  rw [Host.reduce_eq_fold_single (FloatOps.maximumf (F := Ideal) (φ := .f32)) y init h' h hu (ix2 b t)]
  have hlift : ∀ k : Fin 32000, h.lift (ix2 b t) k = ix3 b t k := fun k => funext fun a => Fin.ext (by
    match a with
    | ⟨0, _⟩ => rfl
    | ⟨1, _⟩ => rfl
    | ⟨2, _⟩ => rfl)
  show (Finset.univ : Finset (Fin 32000)).fold max _ (y ∘ h.lift (ix2 b t)) = _
  congr 1
  funext k
  exact congrArg y (hlift k)

theorem fold_fin_one {β : Type} (op : β → β → β) [Std.Commutative op] [Std.Associative op] (b : β) (f : Fin 1 → β) :
    (Finset.univ : Finset (Fin 1)).fold op b f = op (f 0) b := by
  rw [Finset.univ_unique, Finset.fold_singleton]
  rfl

theorem reduce_and_unit (x : (⟨S4x512x1x1, .i1⟩ : BufTy).Contents (Elt Ideal)) (init : (⟨S_, .i1⟩ : BufTy).Contents (Elt Ideal))
    (h' : S4x512x1x1.ReducesTo [3] S4x512x1) (hu : 0 < S_.numel) (b : Fin 4) (t : Fin 512) :
    Host.reduce IntOp.andi x init h' hu (ix3 b t 0) = IntOp.andi (x (ix4 b t 0 0)) (init (Shape.Idx.first hu)) := by
  have h : S4x512x1x1.Reduces [3] S4x512x1 := by decide
  rw [Host.reduce_eq_fold_single IntOp.andi x init h' h hu (ix3 b t 0)]
  have hlift : h.lift (ix3 b t 0) (0 : Fin 1) = ix4 b t 0 0 := funext fun a => Fin.ext (by
    match a with
    | ⟨0, _⟩ => rfl
    | ⟨1, _⟩ => rfl
    | ⟨2, _⟩ => rfl
    | ⟨3, _⟩ => rfl)
  refine (fold_fin_one IntOp.andi _ (x ∘ h.lift (ix3 b t 0))).trans ?_
  show IntOp.andi (x (h.lift (ix3 b t 0) (0 : Fin 1))) _ = _
  rw [hlift]

theorem gather_row {α : Type} (x : S4x512x32000.Idx → α) (idx : IVec S4x512x1x1 32) (b : Fin 4) (t : Fin 512)
    (l : BitVec 32) (hidx : idx (ix4 b t 0 0) = l) (hl : l.toNat < 32000) :
    Host.gather gather_S4x512x32000_S4x512x1x1_S4x512x1_n_2_01_01_2_3_111 x idx (ix3 b t 0) = x (ix3 b t ⟨l.toNat, hl⟩) := by
  unfold Host.gather
  refine congrArg x (funext fun a => Fin.ext ?_)
  have hb0 : (0 : Fin S4x512x32000.rank) ∈ gather_S4x512x32000_S4x512x1x1_S4x512x1_n_2_01_01_2_3_111.operandBatchingDims := by
    show (0 : Fin 3) ∈ [0, 1]
    decide
  have hb1 : (1 : Fin S4x512x32000.rank) ∈ gather_S4x512x32000_S4x512x1x1_S4x512x1_n_2_01_01_2_3_111.operandBatchingDims := by
    show (1 : Fin 3) ∈ [0, 1]
    decide
  have hb2 : (2 : Fin S4x512x32000.rank) ∉ gather_S4x512x32000_S4x512x1x1_S4x512x1_n_2_01_01_2_3_111.operandBatchingDims := by
    show (2 : Fin 3) ∉ [0, 1]
    decide
  have hc2 : (2 : Fin S4x512x32000.rank) ∈ gather_S4x512x32000_S4x512x1x1_S4x512x1_n_2_01_01_2_3_111.collapsedSliceDims := by
    show (2 : Fin 3) ∈ [2]
    decide
  have hm2 : (2 : Fin S4x512x32000.rank) ∈ gather_S4x512x32000_S4x512x1x1_S4x512x1_n_2_01_01_2_3_111.startIndexMap := by
    show (2 : Fin 3) ∈ [2]
    decide
  match a with
  | ⟨0, _⟩ =>
    show gather_S4x512x32000_S4x512x1x1_S4x512x1_n_2_01_01_2_3_111.start (ix3 b t 0) idx 0 + gather_S4x512x32000_S4x512x1x1_S4x512x1_n_2_01_01_2_3_111.batchCoord (ix3 b t 0) 0 + gather_S4x512x32000_S4x512x1x1_S4x512x1_n_2_01_01_2_3_111.offCoord (ix3 b t 0) 0 = b.val
    rw [GatherDims.start_batching _ _ _ _ hb0,
      GatherDims.offCoord_eq_zero _ _ _ (fun h => ((GatherDims.mem_sKept _ _).1 h).2 hb0), Nat.zero_add, Nat.add_zero]
    unfold GatherDims.batchCoord
    rw [dif_pos hb0]
    unfold GatherDims.siCoord
    simp only [Fin.val_cast]
    rfl
  | ⟨1, _⟩ =>
    show gather_S4x512x32000_S4x512x1x1_S4x512x1_n_2_01_01_2_3_111.start (ix3 b t 0) idx 1 + gather_S4x512x32000_S4x512x1x1_S4x512x1_n_2_01_01_2_3_111.batchCoord (ix3 b t 0) 1 + gather_S4x512x32000_S4x512x1x1_S4x512x1_n_2_01_01_2_3_111.offCoord (ix3 b t 0) 1 = t.val
    rw [GatherDims.start_batching _ _ _ _ hb1,
      GatherDims.offCoord_eq_zero _ _ _ (fun h => ((GatherDims.mem_sKept _ _).1 h).2 hb1), Nat.zero_add, Nat.add_zero]
    unfold GatherDims.batchCoord
    rw [dif_pos hb1]
    unfold GatherDims.siCoord
    simp only [Fin.val_cast]
    rfl
  | ⟨2, _⟩ =>
    show gather_S4x512x32000_S4x512x1x1_S4x512x1_n_2_01_01_2_3_111.start (ix3 b t 0) idx 2 + gather_S4x512x32000_S4x512x1x1_S4x512x1_n_2_01_01_2_3_111.batchCoord (ix3 b t 0) 2 + gather_S4x512x32000_S4x512x1x1_S4x512x1_n_2_01_01_2_3_111.offCoord (ix3 b t 0) 2 = l.toNat
    rw [GatherDims.batchCoord_eq_zero _ _ _ hb2,
      GatherDims.offCoord_eq_zero _ _ _ (fun h => ((GatherDims.mem_sKept _ _).1 h).1 hc2), Nat.add_zero]
    unfold GatherDims.start
    rw [dif_pos hm2]
    have hsi : gather_S4x512x32000_S4x512x1x1_S4x512x1_n_2_01_01_2_3_111.siIdx (ix3 b t 0) ⟨List.idxOf (2 : Fin S4x512x32000.rank) gather_S4x512x32000_S4x512x1x1_S4x512x1_n_2_01_01_2_3_111.startIndexMap, List.idxOf_lt_length_iff.2 hm2⟩
        = ix4 b t 0 0 := funext fun c => Fin.ext (by
      match c with
      | ⟨0, _⟩ => rfl
      | ⟨1, _⟩ => rfl
      | ⟨2, _⟩ => rfl
      | ⟨3, _⟩ => rfl)
    rw [hsi, hidx, StableHlo.Predicate.toInt_eq_toNat_of_lt (by omega), Int.toNat_natCast]
    show min l.toNat (32000 - 1) = l.toNat
    omega

theorem lab_v5b (x2 : (⟨S4x512, .i32⟩ : BufTy).Contents (Elt Ideal)) (b : Fin 4) (t : Fin 512) :
    val_main_v5 (F := Ideal) x2 (ix3 b t 0) = val_main_v3 (F := Ideal) x2 (ix2 b t) := by
  rw [val_main_v5_apply]
  exact congrArg _ (funext fun a => by
    match a with
    | ⟨0, _⟩ => rfl
    | ⟨1, _⟩ => rfl)

theorem lab_v4 (x2 : (⟨S4x512, .i32⟩ : BufTy).Contents (Elt Ideal)) (b : Fin 4) (t : Fin 512) (hl : (val_main_v3 (F := Ideal) x2 (ix2 b t)).toNat < 32000) :
    val_main_call2_v4 (F := Ideal) x2 (ix3 b t 0) = val_main_v3 (F := Ideal) x2 (ix2 b t) := by
  have h1 : val_main_call2_v1 (F := Ideal) x2 (ix3 b t 0) = 0#1 := by
    rw [val_main_call2_v1_apply, lab_v5b, val_main_call2_v0_apply, val_main_call2_c_apply]
    refine eq_zero_of_ne_one fun h => ?_
    have hlt := (Predicate.slt_iff_toNat (by omega) (by decide)).1 h
    exact absurd hlt (Nat.not_lt_zero _)
  rw [val_main_call2_v4_apply, h1, select_zero, lab_v5b]

theorem lab_v5 (x2 : (⟨S4x512, .i32⟩ : BufTy).Contents (Elt Ideal)) (b : Fin 4) (t : Fin 512) (hl : (val_main_v3 (F := Ideal) x2 (ix2 b t)).toNat < 32000) :
    val_main_call2_v5 (F := Ideal) x2 (ix4 b t 0 0) = val_main_v3 (F := Ideal) x2 (ix2 b t) := by
  have e : idx_main_call2_v5 (ix4 b t 0 0) = ix3 b t 0 := funext fun a => Fin.ext (by
    have hb := b.isLt
    have ht := t.isLt
    match a with
    | ⟨0, _⟩ => show (((b.val * 512 + t.val) * 1 + 0) * 1 + 0) / 512 = b.val; omega
    | ⟨1, _⟩ => show (((b.val * 512 + t.val) * 1 + 0) * 1 + 0) / 1 % 512 = t.val; omega
    | ⟨2, _⟩ => rfl)
  rw [val_main_call2_v5_apply, e, lab_v4 x2 b t hl]

theorem lab_v12 (x2 : (⟨S4x512, .i32⟩ : BufTy).Contents (Elt Ideal)) (b : Fin 4) (t : Fin 512) (hl : (val_main_v3 (F := Ideal) x2 (ix2 b t)).toNat < 32000) :
    val_main_call2_v12 (F := Ideal) x2 (ix3 b t 0) = 1#1 := by
  have h7 : val_main_call2_v7 (F := Ideal) x2 (ix4 b t 0 0) = 1#1 := by
    rw [val_main_call2_v7_apply, lab_v5 x2 b t hl, val_main_call2_v6_apply, val_main_call2_c_2_apply]
    exact (Predicate.sge_iff_toNat (by omega) (by decide)).2 (Nat.zero_le _)
  have h10 : val_main_call2_v10 (F := Ideal) x2 (ix4 b t 0 0) = 1#1 := by
    rw [val_main_call2_v10_apply, lab_v5 x2 b t hl, val_main_call2_v9_apply, val_main_call2_v8_apply,
      val_main_call2_c_1_apply]
    exact (Predicate.sle_iff_toNat (by omega) (by decide)).2 (by show _ ≤ 31999; omega)
  unfold val_main_call2_v12
  rw [reduce_and_unit, val_main_call2_v11_apply, h7, h10]
  rfl

theorem logits_apply (x0 : (⟨S4x512x2048, .f32⟩ : BufTy).Contents (Elt Ideal)) (x3 : (⟨S32000x2048, .f32⟩ : BufTy).Contents (Elt Ideal)) (b : Fin 4) (t : Fin 512) (j : Fin 32000) :
    val_main_v0 (F := Ideal) x0 x3 (ix3 b t j) = tokLogits x0 x3 b t j := by
  rw [val_main_v0_apply]
  unfold tokLogits
  refine Finset.sum_congr rfl fun k _ => ?_
  have el : lidx_main_v0 (ix3 b t j) k = ix3 b t k := funext fun a => by
    match a with
    | ⟨0, _⟩ => rfl
    | ⟨1, _⟩ => rfl
    | ⟨2, _⟩ => rfl
  have er : ridx_main_v0 (ix3 b t j) k = ix2 j k := funext fun a => by
    match a with
    | ⟨0, _⟩ => rfl
    | ⟨1, _⟩ => rfl
  rw [el, er]

theorem soft_max (x0 : (⟨S4x512x2048, .f32⟩ : BufTy).Contents (Elt Ideal)) (x3 : (⟨S32000x2048, .f32⟩ : BufTy).Contents (Elt Ideal)) (b : Fin 4) (t : Fin 512) (j : Fin 32000) :
    val_main_call1_v4 (F := Ideal) x0 x3 (ix3 b t j) = Cert.Softmax.vocMax (tokLogits x0 x3 b t) := by
  have e4 : idx_main_call1_v4 (ix3 b t j) = ix3 b t 0 := funext fun a => by
    match a with
    | ⟨0, _⟩ => rfl
    | ⟨1, _⟩ => rfl
    | ⟨2, _⟩ => rfl
  have e3 : idx_main_call1_v3 (ix3 b t (0 : Fin 1)) = ix2 b t := funext fun a => by
    match a with
    | ⟨0, _⟩ => rfl
    | ⟨1, _⟩ => rfl
  rw [val_main_call1_v4_apply, e4, val_main_call1_v3_apply, e3, val_main_call1_v2_apply, val_main_call1_v1_apply,
    val_main_call1_cst_0_apply]
  unfold val_main_call1_v0
  rw [reduce_max_row]
  have hbot : Ideal.ofBits .f32 0xFF800000#32 = ⊥ := by simp [Ideal.ofBits, Ideal.ieee]
  show max (Ideal.ofBits .f32 0xFF800000#32) (Finset.fold max (Ideal.ofBits .f32 0xFF800000#32) _ _) = _
  rw [hbot, max_bot_left]
  unfold Cert.Softmax.vocMax
  congr 1
  funext k
  exact logits_apply x0 x3 b t k

theorem soft_v5 (x0 : (⟨S4x512x2048, .f32⟩ : BufTy).Contents (Elt Ideal)) (x3 : (⟨S32000x2048, .f32⟩ : BufTy).Contents (Elt Ideal)) (b : Fin 4) (t : Fin 512) (j : Fin 32000) :
    val_main_call1_v5 (F := Ideal) x0 x3 (ix3 b t j)
      = tokLogits x0 x3 b t j - Cert.Softmax.vocMax (tokLogits x0 x3 b t) := by
  rw [val_main_call1_v5_apply, soft_max, logits_apply]
  exact Ideal.subf_def _ _

theorem soft_v7 (x0 : (⟨S4x512x2048, .f32⟩ : BufTy).Contents (Elt Ideal)) (x3 : (⟨S32000x2048, .f32⟩ : BufTy).Contents (Elt Ideal)) (b : Fin 4) (t : Fin 512) :
    val_main_call1_v7 (F := Ideal) x0 x3 (ix2 b t)
      = ∑ j : Fin 32000, Ideal.exp (tokLogits x0 x3 b t j - Cert.Softmax.vocMax (tokLogits x0 x3 b t)) := by
  rw [val_main_call1_v7_apply, val_main_call1_cst_1_apply]
  show Ideal.ofBits .f32 0x00000000#32 + _ = _
  rw [Ideal.ofBits_zero_f32, zero_add]
  refine Finset.sum_congr rfl fun k _ => ?_
  have e7 : idx_main_call1_v7 (ix2 b t) k = ix3 b t k := funext fun a => by
    match a with
    | ⟨0, _⟩ => rfl
    | ⟨1, _⟩ => rfl
    | ⟨2, _⟩ => rfl
  rw [e7, val_main_call1_v6_apply, soft_v5]
  exact Ideal.hostUnary_exp_def _

theorem soft_v10 (x0 : (⟨S4x512x2048, .f32⟩ : BufTy).Contents (Elt Ideal)) (x3 : (⟨S32000x2048, .f32⟩ : BufTy).Contents (Elt Ideal)) (b : Fin 4) (t : Fin 512) (j : Fin 32000) :
    val_main_call1_v10 (F := Ideal) x0 x3 (ix3 b t j)
      = Ideal.log (∑ j : Fin 32000, Ideal.exp (tokLogits x0 x3 b t j - Cert.Softmax.vocMax (tokLogits x0 x3 b t))) := by
  have e10 : idx_main_call1_v10 (ix3 b t j) = ix3 b t 0 := funext fun a => by
    match a with
    | ⟨0, _⟩ => rfl
    | ⟨1, _⟩ => rfl
    | ⟨2, _⟩ => rfl
  have e8 : idx_main_call1_v8 (ix3 b t (0 : Fin 1)) = ix2 b t := funext fun a => by
    match a with
    | ⟨0, _⟩ => rfl
    | ⟨1, _⟩ => rfl
  rw [val_main_call1_v10_apply, e10, val_main_call1_v9_apply, val_main_call1_v8_apply, e8, soft_v7]
  exact Ideal.hostUnary_log_def _

theorem soft_v4 (x0 : (⟨S4x512x2048, .f32⟩ : BufTy).Contents (Elt Ideal)) (x3 : (⟨S32000x2048, .f32⟩ : BufTy).Contents (Elt Ideal)) (b : Fin 4) (t : Fin 512) (l : Fin 32000) :
    val_main_v4 (F := Ideal) x0 x3 (ix3 b t l) = Cert.Softmax.closed (tokLogits x0 x3 b t) l := by
  rw [val_main_v4_apply, soft_v5, soft_v10, Ideal.subf_def]
  rfl

end Tok

open Cert.ReferenceIdeal.ReadP Tok

-- For a label in range, the per-token value is the closed form of log-softmax of the token's logits at the label.
theorem tok_policy (x0 : (⟨S4x512x2048, .f32⟩ : BufTy).Contents (Elt Ideal)) (x2 : (⟨S4x512, .i32⟩ : BufTy).Contents (Elt Ideal)) (x3 : (⟨S32000x2048, .f32⟩ : BufTy).Contents (Elt Ideal))
    (h0 : ∀ i, ∃ r : ℝ, x0 i = (r : EReal)) (h3 : ∀ i, ∃ r : ℝ, x3 i = (r : EReal)) (b : Fin 4) (t : Fin 512)
    (hl : (Cert.ReferenceIdeal.ReadP.val_main_v3 (F := Ideal) x2 (ix2 b t)).toNat < 32000) :
    Cert.ReferenceIdeal.ReadP.val_main_v7 (F := Ideal) x0 x2 x3 (ix2 b t)
      = Cert.Softmax.closed (tokLogits x0 x3 b t) ⟨(Cert.ReferenceIdeal.ReadP.val_main_v3 (F := Ideal) x2 (ix2 b t)).toNat, hl⟩ := by
  have e7 : idx_main_v7 (ix2 b t) = ix3 b t 0 := funext fun a => Fin.ext (by
    have hb := b.isLt
    have ht := t.isLt
    match a with
    | ⟨0, _⟩ => show (b.val * 512 + t.val) / 512 = b.val; omega
    | ⟨1, _⟩ => show (b.val * 512 + t.val) / 1 % 512 = t.val; omega
    | ⟨2, _⟩ => rfl)
  rw [val_main_v7_apply, e7, val_main_v6_apply, lab_v12 x2 b t hl, select_one]
  unfold val_main_call2_v13
  rw [gather_row _ _ b t _ (lab_v5 x2 b t hl) hl]
  exact soft_v4 x0 x3 b t _

theorem tok_reference (x1 : (⟨S4x512x2048, .f32⟩ : BufTy).Contents (Elt Ideal)) (x2 : (⟨S4x512, .i32⟩ : BufTy).Contents (Elt Ideal)) (x4 : (⟨S32000x2048, .f32⟩ : BufTy).Contents (Elt Ideal))
    (h1 : ∀ i, ∃ r : ℝ, x1 i = (r : EReal)) (h4 : ∀ i, ∃ r : ℝ, x4 i = (r : EReal)) (b : Fin 4) (t : Fin 512)
    (hl : (Cert.ReferenceIdeal.ReadP.val_main_v18 (F := Ideal) x2 (ix2 b t)).toNat < 32000) :
    Cert.ReferenceIdeal.ReadP.val_main_v22 (F := Ideal) x1 x2 x4 (ix2 b t)
      = Cert.Softmax.closed (tokLogits x1 x4 b t) ⟨(Cert.ReferenceIdeal.ReadP.val_main_v18 (F := Ideal) x2 (ix2 b t)).toNat, hl⟩ :=

  tok_policy x1 x2 x4 h1 h4 b t hl

end Cert.ReferenceIdeal.RefValue

end
-- ==== Proof.RefTail.lean ====
import proofs.«405262_j58909771432351_3_alg».proof.Proof.RefRead
import proofs.«405262_j58909771432351_3_alg».proof.Proof.Softmax.Tail

noncomputable section

namespace Cert.ReferenceIdeal.RefValue

open Cert.ReferenceIdeal Cert.ReferenceIdeal.Gen Idealize.ShloMosaic Idealize.ShloMosaic.TcCoe Idealize.SL.Sem Idealize.ShloMosaic.StableHlo
open Facts₀ Facts

theorem tailFacts : Cert.Softmax.TailFacts :=
  ⟨Facts₀.bcast_S_S4x512, Facts₀.reducesTo_S4x512_S4_d1, Facts₀.h_S_, Facts₀.slices_S4_S2_0, Facts₀.slices_S4_S2_2, Facts₀.bcast_S_S2, Facts₀.reducesTo_S2_S_d0⟩

theorem result_tail (x0 x1 : (⟨S4x512x2048, .f32⟩ : BufTy).Contents (Elt Ideal)) (x2 : (⟨S4x512, .i32⟩ : BufTy).Contents (Elt Ideal)) (x3 x4 : (⟨S32000x2048, .f32⟩ : BufTy).Contents (Elt Ideal)) :
    Cert.ReferenceIdeal.ReadP.val_main_v46 (F := Ideal) x0 x1 x2 x3 x4
      = Cert.Softmax.tailOps tailFacts (Cert.ReferenceIdeal.ReadP.val_main_v7 (F := Ideal) x0 x2 x3) (Cert.ReferenceIdeal.ReadP.val_main_v22 (F := Ideal) x1 x2 x4) x2 := by
  simp only [ReadP.val_main_v46, ReadP.val_main_v43, ReadP.val_main_v45, ReadP.val_main_v44, ReadP.val_main_v42, ReadP.val_main_v38, ReadP.val_main_v41, ReadP.val_main_v37, ReadP.val_main_v40, ReadP.val_main_v36, ReadP.val_main_v39, ReadP.val_main_v30, ReadP.val_main_v31, ReadP.val_main_v13, ReadP.val_main_v14, ReadP.val_main_v28, ReadP.val_main_v29, ReadP.val_main_v12, ReadP.val_main_v27, ReadP.val_main_v10, ReadP.val_main_v11, ReadP.val_main_v25, ReadP.val_main_v26, ReadP.val_main_v9, ReadP.val_main_v24, ReadP.val_main_v8, ReadP.val_main_v23, ReadP.val_main_v2, ReadP.val_main_v17, ReadP.val_main_v1, ReadP.val_main_v16, ReadP.val_main_c, ReadP.val_main_c_2, ReadP.val_main_cst, ReadP.val_main_cst_1, ReadP.val_main_cst_4, ReadP.val_main_cst_5, ReadP.val_main_cst_8, ReadP.val_main_cst_9, ReadP.val_main_cst_10, ReadP.val_main_cst_11, ReadP.val_main_cst_12, ReadP.val_main_cst_13]
  unfold Cert.Softmax.tailOps Cert.Softmax.lossOf Cert.Softmax.meanOf Cert.Softmax.keptOf Cert.Softmax.maskOf
  rfl

end Cert.ReferenceIdeal.RefValue

end
-- ==== Proof.PreFacts.lean ====
import proofs.«405262_j58909771432351_3_alg».proof.Pre_finite_inputs
import proofs.«405262_j58909771432351_3_alg».proof.Proof.Gen.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.PreFacts

open Cert.Pre_finite_inputs Idealize.ShloMosaic

instance : Subsingleton S_.Idx := ⟨fun a b => funext fun d => d.elim0⟩

theorem ofBits_posInf_f32 : Ideal.ofBits .f32 0x7F800000#32 = ⊤ := by simp [Ideal.ofBits, Ideal.ieee]

theorem real_of_abs_lt_top (a : EReal) (h : max a (-a) < ⊤) : ∃ r : ℝ, a = (r : EReal) := by
  induction a using EReal.rec with
  | bot => exact absurd h (by simp)
  | top => exact absurd h (by simp)
  | coe r => exact ⟨r, rfl⟩

theorem real_of_bit (a : Ideal .f32)
    (h : FloatOps.cmpf .olt (FloatOps.absf a) (FloatOps.ofBits (F := Ideal) .f32 0x7F800000#32) = 1#1) :
    ∃ r : ℝ, a = (r : EReal) := by
  have h' : BitVec.ofBool (decide (max a (-a) < Ideal.ofBits .f32 0x7F800000#32)) = 1#1 := h
  rw [ofBits_posInf_f32, StableHlo.Predicate.ofBool_eq_one_iff, decide_eq_true_eq] at h'
  exact real_of_abs_lt_top a h'

theorem all_real {s : Shape} {axes : List (Fin s.rank)} (a : FVec Ideal s .f32) (hb : S_.BroadcastsInDim s (![] : Fin 0 → Fin s.rank))
    (hr : s.ReducesTo axes S_) (h0 : 0 < S_.numel)
    (e : Host.reduce IntOp.andi
          (cmpf .olt (Host.absf a) (broadcastInDim s ![] hb (constant (F := Ideal) S_ .f32 0x7F800000#32)))
          (constantI S_ 1 1#1) hr h0 ValueIdx.ix0 = 1#1) (i : s.Idx) :
    ∃ r : ℝ, a i = (r : EReal) :=
  real_of_bit (a i) (Host.reduce_andi_all _ _ hr h0 ValueIdx.ix0 e i)

theorem label_of_bit (v : BitVec 32)
    (h : IntOp.ori (IntOp.cmpi .eq v 4294967196#32) (IntOp.andi (IntOp.cmpi .sge v 0#32) (IntOp.cmpi .slt v 32000#32)) = 1#1) :
    v = 4294967196#32 ∨ v.toNat < 32000 := by
  rcases IntOp.ori_eq_one.1 h with h1 | h2
  · exact Or.inl (IntOp.cmpi_eq.1 h1)
  · obtain ⟨hge, hlt⟩ := IntOp.andi_eq_one.1 h2
    have hge' := IntOp.cmpi_sge.1 hge
    have hlt' := IntOp.cmpi_slt.1 hlt
    rw [show (0#32 : BitVec 32).toInt = 0 from by decide] at hge'
    rw [show (32000#32 : BitVec 32).toInt = 32000 from by decide] at hlt'
    have e := BitVec.toInt_eq_toNat_cond v
    have := v.isLt
    refine Or.inr ?_
    omega

theorem decode (x rx : FVec Ideal S4x512x2048 .f32) (y : IVec S4x512 32) (w rw : FVec Ideal S32000x2048 .f32)
    (h : Cert.Pre_finite_inputs.fn (F := Ideal) x rx y w rw = (fun _ => 1#1)) :
    (∀ i, ∃ r : ℝ, x i = (r : EReal)) ∧ (∀ i, ∃ r : ℝ, rx i = (r : EReal))
      ∧ (∀ i, ∃ r : ℝ, w i = (r : EReal)) ∧ (∀ i, ∃ r : ℝ, rw i = (r : EReal))
      ∧ (∀ i, y i = 4294967196#32 ∨ (y i).toNat < 32000) := by
  have h0 := congrFun h ValueIdx.ix0
  unfold fn fn_part1 at h0
  dsimp only at h0
  obtain ⟨h18, h27⟩ := IntOp.andi_eq_one.1 h0
  obtain ⟨h13, h17⟩ := IntOp.andi_eq_one.1 h18
  obtain ⟨h8, h12⟩ := IntOp.andi_eq_one.1 h13
  obtain ⟨h3, h7⟩ := IntOp.andi_eq_one.1 h8
  refine ⟨all_real x _ _ _ h3, all_real rx _ _ _ h7, all_real w _ _ _ h12, all_real rw _ _ _ h17, fun i => ?_⟩
  exact label_of_bit (y i) (Host.reduce_andi_all _ _ _ _ ValueIdx.ix0 h27 i)

end Cert.PreFacts

end
-- ==== Proof.Bridge.lean ====
import proofs.«405262_j58909771432351_3_alg».proof.Defs
import proofs.«405262_j58909771432351_3_alg».proof.Proof.KernelIdeal.Whole
import proofs.«405262_j58909771432351_3_alg».proof.Proof.KernelIdeal.Sweep0.Flush
import proofs.«405262_j58909771432351_3_alg».proof.Proof.KernelIdeal.Sweep1.Flush
import proofs.«405262_j58909771432351_3_alg».proof.Proof.KernelIdeal.Glue
import proofs.«405262_j58909771432351_3_alg».proof.Proof.RefRun
import proofs.«405262_j58909771432351_3_alg».proof.Proof.RefTok
import proofs.«405262_j58909771432351_3_alg».proof.Proof.RefTail
import proofs.«405262_j58909771432351_3_alg».proof.Proof.PreFacts
import Idealize.ShloMosaic.Lib.Pipeline.Value

set_option maxRecDepth 16384

noncomputable section

open scoped BigOperators

namespace Cert.Bridge

open Idealize.ShloMosaic Idealize.ShloMosaic.TcCoe Idealize.SL.Sem Idealize.ShloMosaic.ValueIdx Idealize.ShloMosaic.StableHlo

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)

abbrev xs : Cert.KernelIdeal.S4x512x2048.Idx → EReal := (m ((c.tc : Thread Cert.KernelIdeal.nD Cert.KernelIdeal.τ).loc Cert.KernelIdeal.main_arg0))
abbrev rxs : Cert.KernelIdeal.S4x512x2048.Idx → EReal := (m ((c.tc : Thread Cert.KernelIdeal.nD Cert.KernelIdeal.τ).loc Cert.KernelIdeal.main_arg1))
abbrev ys : Cert.KernelIdeal.S4x512.Idx → BitVec 32 := (m ((c.tc : Thread Cert.KernelIdeal.nD Cert.KernelIdeal.τ).loc Cert.KernelIdeal.main_arg2))
abbrev ws : Cert.KernelIdeal.S32000x2048.Idx → EReal := (m ((c.tc : Thread Cert.KernelIdeal.nD Cert.KernelIdeal.τ).loc Cert.KernelIdeal.main_arg3))
abbrev rws : Cert.KernelIdeal.S32000x2048.Idx → EReal := (m ((c.tc : Thread Cert.KernelIdeal.nD Cert.KernelIdeal.τ).loc Cert.KernelIdeal.main_arg4))

def tokRow (b : Fin 4) (t : Fin 512) : Fin 2048 := ⟨512 * b.val + t.val, by have := b.isLt; have := t.isLt; omega⟩

theorem safe_lt (y : Cert.KernelIdeal.S4x512.Idx → BitVec 32) (hy : ∀ i, y i = 4294967196#32 ∨ (y i).toNat < 32000) (i : Cert.KernelIdeal.S4x512.Idx) :
    (Cert.KernelIdeal.Glue.safeLabels y i).toNat < 32000 := by
  have hn : (broadcastInDim Cert.KernelIdeal.S4x512 ![] Cert.KernelIdeal.Facts₀.bcast_S_S4x512 (constantI Cert.KernelIdeal.S_ 32 4294967196#32) : Cert.KernelIdeal.S4x512.Idx → BitVec 32) i = 4294967196#32 := broadcastInDim_apply _ _ _ i ix0 (fun a => a.elim0)
  have hz : (broadcastInDim Cert.KernelIdeal.S4x512 ![] Cert.KernelIdeal.Facts₀.bcast_S_S4x512 (id (constantI Cert.KernelIdeal.S_ 32 0#32)) : Cert.KernelIdeal.S4x512.Idx → BitVec 32) i = 0#32 := broadcastInDim_apply _ _ _ i ix0 (fun a => a.elim0)
  unfold Cert.KernelIdeal.Glue.safeLabels
  rw [select_apply, hz]
  rcases hy i with h | h
  · have hc : (cmpi .ne y (broadcastInDim Cert.KernelIdeal.S4x512 ![] Cert.KernelIdeal.Facts₀.bcast_S_S4x512 (constantI Cert.KernelIdeal.S_ 32 4294967196#32) : Cert.KernelIdeal.S4x512.Idx → BitVec 32)) i = 0#1 := by
      show IntOp.cmpi .ne (y i) ((broadcastInDim Cert.KernelIdeal.S4x512 ![] Cert.KernelIdeal.Facts₀.bcast_S_S4x512 (constantI Cert.KernelIdeal.S_ 32 4294967196#32) : Cert.KernelIdeal.S4x512.Idx → BitVec 32) i) = 0#1
      rw [hn, h]; decide
    rw [hc, select_zero]; decide
  · by_cases hb : (cmpi .ne y (broadcastInDim Cert.KernelIdeal.S4x512 ![] Cert.KernelIdeal.Facts₀.bcast_S_S4x512 (constantI Cert.KernelIdeal.S_ 32 4294967196#32) : Cert.KernelIdeal.S4x512.Idx → BitVec 32)) i = 1#1
    · rw [hb, select_one]; exact h
    · rw [eq_zero_of_ne_one hb, select_zero]; decide

theorem reshaped_row (x : Cert.KernelIdeal.S4x512x2048.Idx → EReal) (b : Fin 4) (t : Fin 512) (h : Fin 2048) :
    (truncf (F := Ideal) .bf16 (shapeCast Cert.KernelIdeal.S2048x2048 x Cert.KernelIdeal.Facts₀.shapeCasts_S4x512x2048_S2048x2048) Cert.KernelIdeal.Facts₀.bitsLt_bf16_f32 : Cert.KernelIdeal.S2048x2048.Idx → EReal) (ix2 (tokRow b t) h)
      = x (ix3 b t h) := by
  show shapeCast Cert.KernelIdeal.S2048x2048 x Cert.KernelIdeal.Facts₀.shapeCasts_S4x512x2048_S2048x2048 (ix2 (tokRow b t) h) = x (ix3 b t h)
  exact shapeCast_apply x _ (ix2 (tokRow b t) h) (ix3 b t h)
    (by rw [Shape.rowMajor_val_three, Shape.rowMajor_val_two]
        show (b.val * 512 + t.val) * 2048 + h.val = (512 * b.val + t.val) * 2048 + h.val
        omega)

theorem column_row (y : Cert.KernelIdeal.S4x512.Idx → BitVec 32) (b : Fin 4) (t : Fin 512) :
    (shapeCast Cert.KernelIdeal.S2048x1 y Cert.KernelIdeal.Facts₀.shapeCasts_S4x512_S2048x1 : Cert.KernelIdeal.S2048x1.Idx → BitVec 32) (ix2 (tokRow b t) 0) = y (ix2 b t) := by
  exact shapeCast_apply y _ (ix2 (tokRow b t) 0) (ix2 b t)
    (by rw [Shape.rowMajor_val_two, Shape.rowMajor_val_two]
        show b.val * 512 + t.val = (512 * b.val + t.val) * 1 + 0
        omega)

theorem grid_entry (p : Cert.KernelIdeal.S2048x1.Idx → EReal) (b : Fin 4) (t : Fin 512) :
    (shapeCast Cert.KernelIdeal.S4x512 p Cert.KernelIdeal.Facts₀.shapeCasts_S2048x1_S4x512 : Cert.KernelIdeal.S4x512.Idx → EReal) (ix2 b t) = p (ix2 (tokRow b t) 0) := by
  exact shapeCast_apply p _ (ix2 b t) (ix2 (tokRow b t) 0)
    (by rw [Shape.rowMajor_val_two, Shape.rowMajor_val_two]
        show (512 * b.val + t.val) * 1 + 0 = b.val * 512 + t.val
        omega)

theorem row_logits (x : Cert.KernelIdeal.S4x512x2048.Idx → EReal) (w : Cert.KernelIdeal.S32000x2048.Idx → EReal) (b : Fin 4) (t : Fin 512) :
    Cert.Softmax.rowLogits (truncf (F := Ideal) .bf16 (shapeCast Cert.KernelIdeal.S2048x2048 x Cert.KernelIdeal.Facts₀.shapeCasts_S4x512x2048_S2048x2048) Cert.KernelIdeal.Facts₀.bitsLt_bf16_f32) w (tokRow b t)
      = Cert.ReferenceIdeal.RefValue.tokLogits x w b t := by
  funext j
  unfold Cert.Softmax.rowLogits Cert.ReferenceIdeal.RefValue.tokLogits
  exact Finset.sum_congr rfl fun h _ => by rw [reshaped_row x b t h]

theorem reshaped_real (x : Cert.KernelIdeal.S4x512x2048.Idx → EReal) (hx : ∀ i, ∃ r : ℝ, x i = (r : EReal)) (i : Cert.KernelIdeal.S2048x2048.Idx) :
    ∃ r : ℝ, (truncf (F := Ideal) .bf16 (shapeCast Cert.KernelIdeal.S2048x2048 x Cert.KernelIdeal.Facts₀.shapeCasts_S4x512x2048_S2048x2048) Cert.KernelIdeal.Facts₀.bitsLt_bf16_f32 : Cert.KernelIdeal.S2048x2048.Idx → EReal) i = (r : EReal) := by
  show ∃ r : ℝ, shapeCast Cert.KernelIdeal.S2048x2048 x Cert.KernelIdeal.Facts₀.shapeCasts_S4x512x2048_S2048x2048 i = (r : EReal)
  unfold shapeCast
  exact hx _

theorem first_x : Cert.KernelIdeal.Whole.V1 m ρ c Cert.KernelIdeal.main_call0_v6
    = truncf (F := Ideal) .bf16 (shapeCast Cert.KernelIdeal.S2048x2048 (xs m c) Cert.KernelIdeal.Facts₀.shapeCasts_S4x512x2048_S2048x2048) Cert.KernelIdeal.Facts₀.bitsLt_bf16_f32 :=
  Cert.KernelIdeal.Glue.pre_x (Cert.KernelIdeal.Whole.W0 m ρ c)
theorem first_w : Cert.KernelIdeal.Whole.V1 m ρ c Cert.KernelIdeal.main_arg3 = ws m c :=
  StableHlo.after_of_writes_sub Cert.KernelIdeal.Gen.hostOps0 _ Cert.KernelIdeal.Gen.hostOps0_writes (by decide)
theorem first_lab : Cert.KernelIdeal.Whole.V1 m ρ c Cert.KernelIdeal.main_call0_v7
    = shapeCast Cert.KernelIdeal.S2048x1 (Cert.KernelIdeal.Glue.safeLabels (ys m c)) Cert.KernelIdeal.Facts₀.shapeCasts_S4x512_S2048x1 :=
  Cert.KernelIdeal.Glue.pre_lab (Cert.KernelIdeal.Whole.W0 m ρ c)

theorem second_x : Cert.KernelIdeal.Whole.V3 m ρ c Cert.KernelIdeal.main_call0_v11
    = truncf (F := Ideal) .bf16 (shapeCast Cert.KernelIdeal.S2048x2048 (rxs m c) Cert.KernelIdeal.Facts₀.shapeCasts_S4x512x2048_S2048x2048) Cert.KernelIdeal.Facts₀.bitsLt_bf16_f32 := by
  have h1 : Cert.KernelIdeal.Whole.W2 m ρ c (Proc.devRef .tc Cert.KernelIdeal.main_arg1) = rxs m c :=
    (Cert.KernelIdeal.Whole.W2_of_ne m ρ c Cert.KernelIdeal.main_arg1 (by decide)).trans (StableHlo.after_of_writes_sub Cert.KernelIdeal.Gen.hostOps0 _ Cert.KernelIdeal.Gen.hostOps0_writes (by decide))
  have h := Cert.KernelIdeal.Glue.mid_x (Cert.KernelIdeal.Whole.W2 m ρ c)
  rw [h1] at h
  exact h
theorem second_w : Cert.KernelIdeal.Whole.V3 m ρ c Cert.KernelIdeal.main_arg4 = rws m c :=
  (StableHlo.after_of_writes_sub Cert.KernelIdeal.Gen.hostOps1 _ Cert.KernelIdeal.Gen.hostOps1_writes (by decide)).trans
    ((Cert.KernelIdeal.Whole.W2_of_ne m ρ c Cert.KernelIdeal.main_arg4 (by decide)).trans (StableHlo.after_of_writes_sub Cert.KernelIdeal.Gen.hostOps0 _ Cert.KernelIdeal.Gen.hostOps0_writes (by decide)))
theorem second_lab : Cert.KernelIdeal.Whole.V3 m ρ c Cert.KernelIdeal.main_call0_v12
    = shapeCast Cert.KernelIdeal.S2048x1 (Cert.KernelIdeal.Glue.safeLabels (ys m c)) Cert.KernelIdeal.Facts₀.shapeCasts_S4x512_S2048x1 := by
  have h1 : Cert.KernelIdeal.Whole.W2 m ρ c (Proc.devRef .tc Cert.KernelIdeal.main_call0_v2) = Cert.KernelIdeal.Glue.safeLabels (ys m c) :=
    (Cert.KernelIdeal.Whole.W2_of_ne m ρ c Cert.KernelIdeal.main_call0_v2 (by decide)).trans (Cert.KernelIdeal.Glue.pre_safe (Cert.KernelIdeal.Whole.W0 m ρ c))
  have h := Cert.KernelIdeal.Glue.mid_lab (Cert.KernelIdeal.Whole.W2 m ρ c)
  rw [h1] at h
  exact h

theorem last_mask : Cert.KernelIdeal.Whole.W4 m ρ c (Proc.devRef .tc Cert.KernelIdeal.main_call0_v3) = Cert.Softmax.maskOf Cert.KernelIdeal.Glue.tailFacts (ys m c) :=
  (Cert.KernelIdeal.Whole.W4_of_ne m ρ c Cert.KernelIdeal.main_call0_v3 (by decide)).trans
    ((StableHlo.after_of_writes_sub Cert.KernelIdeal.Gen.hostOps1 _ Cert.KernelIdeal.Gen.hostOps1_writes (by decide)).trans
      ((Cert.KernelIdeal.Whole.W2_of_ne m ρ c Cert.KernelIdeal.main_call0_v3 (by decide)).trans (Cert.KernelIdeal.Glue.pre_mask (Cert.KernelIdeal.Whole.W0 m ρ c))))
theorem last_kept : Cert.KernelIdeal.Whole.W4 m ρ c (Proc.devRef .tc Cert.KernelIdeal.main_call0_v4) = Cert.Softmax.keptOf Cert.KernelIdeal.Glue.tailFacts (ys m c) :=
  (Cert.KernelIdeal.Whole.W4_of_ne m ρ c Cert.KernelIdeal.main_call0_v4 (by decide)).trans
    ((StableHlo.after_of_writes_sub Cert.KernelIdeal.Gen.hostOps1 _ Cert.KernelIdeal.Gen.hostOps1_writes (by decide)).trans
      ((Cert.KernelIdeal.Whole.W2_of_ne m ρ c Cert.KernelIdeal.main_call0_v4 (by decide)).trans (Cert.KernelIdeal.Glue.pre_kept (Cert.KernelIdeal.Whole.W0 m ρ c))))

theorem last_p : Cert.KernelIdeal.Whole.W4 m ρ c (Proc.devRef .tc Cert.KernelIdeal.main_call0_v9)
    = shapeCast Cert.KernelIdeal.S4x512 ((Cert.KernelIdeal.Sweep0.dat (Cert.KernelIdeal.Whole.V1 m ρ) c).arrAt 3 Cert.KernelIdeal.cfg0.N) Cert.KernelIdeal.Facts₀.shapeCasts_S2048x1_S4x512 := by
  have h1 : Cert.KernelIdeal.Whole.W2 m ρ c (Proc.devRef .tc Cert.KernelIdeal.main_call0_v8) = (Cert.KernelIdeal.Sweep0.dat (Cert.KernelIdeal.Whole.V1 m ρ) c).arrAt 3 Cert.KernelIdeal.cfg0.N := Cert.KernelIdeal.Whole.W2_arr m ρ c 3
  have h := (Cert.KernelIdeal.Whole.W4_of_ne m ρ c Cert.KernelIdeal.main_call0_v9 (by decide)).trans (Cert.KernelIdeal.Glue.mid_p (Cert.KernelIdeal.Whole.W2 m ρ c))
  rw [h1] at h
  exact h

theorem last_q : Cert.KernelIdeal.Whole.W4 m ρ c (Proc.devRef .tc Cert.KernelIdeal.main_call0_v13) = (Cert.KernelIdeal.Sweep1.dat (Cert.KernelIdeal.Whole.V3 m ρ) c).arrAt 3 Cert.KernelIdeal.cfg1.N :=
  Cert.KernelIdeal.Whole.W4_arr m ρ c 3

theorem kernel_result : Cert.KernelIdeal.Whole.W5 m ρ c (Proc.devRef .tc Cert.KernelIdeal.main_v0)
    = Cert.Softmax.tailOps Cert.KernelIdeal.Glue.tailFacts
        (shapeCast Cert.KernelIdeal.S4x512 ((Cert.KernelIdeal.Sweep0.dat (Cert.KernelIdeal.Whole.V1 m ρ) c).arrAt 3 Cert.KernelIdeal.cfg0.N) Cert.KernelIdeal.Facts₀.shapeCasts_S2048x1_S4x512)
        (shapeCast Cert.KernelIdeal.S4x512 ((Cert.KernelIdeal.Sweep1.dat (Cert.KernelIdeal.Whole.V3 m ρ) c).arrAt 3 Cert.KernelIdeal.cfg1.N) Cert.KernelIdeal.Facts₀.shapeCasts_S2048x1_S4x512)
        (ys m c) := by
  have h := Cert.KernelIdeal.Glue.post_result (Cert.KernelIdeal.Whole.W4 m ρ c) (ys m c) (last_mask m ρ c) (last_kept m ρ c)
  rw [last_p m ρ c, last_q m ρ c] at h
  exact h

theorem closed_congr {s s' : Fin 32000 → EReal} (hs : s = s') {l l' : Fin 32000} (hl : l.val = l'.val) :
    Cert.Softmax.closed s l = Cert.Softmax.closed s' l' := by
  subst hs; rw [Fin.ext hl]

theorem policy_tok (hx : ∀ i, ∃ r : ℝ, xs m c i = (r : EReal)) (hw : ∀ i, ∃ r : ℝ, ws m c i = (r : EReal))
    (hy : ∀ i, ys m c i = 4294967196#32 ∨ (ys m c i).toNat < 32000) (b : Fin 4) (t : Fin 512) :
    (shapeCast Cert.KernelIdeal.S4x512 ((Cert.KernelIdeal.Sweep0.dat (Cert.KernelIdeal.Whole.V1 m ρ) c).arrAt 3 Cert.KernelIdeal.cfg0.N) Cert.KernelIdeal.Facts₀.shapeCasts_S2048x1_S4x512 : Cert.KernelIdeal.S4x512.Idx → EReal) (ix2 b t)
      = Cert.ReferenceIdeal.ReadP.val_main_v7 (F := Ideal) (xs m c) (ys m c) (ws m c) (ix2 b t) := by
  have ex : Cert.KernelIdeal.Sweep0.xArr (Cert.KernelIdeal.Whole.V1 m ρ) c = (truncf (F := Ideal) .bf16 (shapeCast Cert.KernelIdeal.S2048x2048 (xs m c) Cert.KernelIdeal.Facts₀.shapeCasts_S4x512x2048_S2048x2048) Cert.KernelIdeal.Facts₀.bitsLt_bf16_f32) := first_x m ρ c
  have ew : Cert.KernelIdeal.Sweep0.wArr (Cert.KernelIdeal.Whole.V1 m ρ) c = ws m c := first_w m ρ c
  have el : Cert.KernelIdeal.Sweep0.labArr (Cert.KernelIdeal.Whole.V1 m ρ) c = (shapeCast Cert.KernelIdeal.S2048x1 (Cert.KernelIdeal.Glue.safeLabels (ys m c)) Cert.KernelIdeal.Facts₀.shapeCasts_S4x512_S2048x1) := first_lab m ρ c
  have hX : ∀ i, ∃ r : ℝ, Cert.KernelIdeal.Sweep0.xArr (Cert.KernelIdeal.Whole.V1 m ρ) c i = (r : EReal) := fun i => by rw [ex]; exact reshaped_real _ hx i
  have hW : ∀ i, ∃ r : ℝ, Cert.KernelIdeal.Sweep0.wArr (Cert.KernelIdeal.Whole.V1 m ρ) c i = (r : EReal) := fun i => by rw [ew]; exact hw i
  have hl : (Cert.KernelIdeal.Sweep0.labArr (Cert.KernelIdeal.Whole.V1 m ρ) c (ix2 (tokRow b t) 0)).toNat < 32000 := by
    rw [el, column_row]; exact safe_lt _ hy _
  have hl' : (Cert.ReferenceIdeal.ReadP.val_main_v3 (F := Ideal) (ys m c) (ix2 b t)).toNat < 32000 := safe_lt (ys m c) hy (ix2 b t)
  rw [grid_entry]
  refine (Cert.KernelIdeal.Sweep0.arr_closed (Cert.KernelIdeal.Whole.V1 m ρ) c hX hW (tokRow b t) hl).trans ?_
  refine Eq.trans ?_ (Cert.ReferenceIdeal.RefValue.tok_policy (xs m c) (ys m c) (ws m c) hx hw b t hl').symm
  refine closed_congr ?_ ?_
  · rw [ex, ew]; exact row_logits (xs m c) (ws m c) b t
  · show (Cert.KernelIdeal.Sweep0.labArr (Cert.KernelIdeal.Whole.V1 m ρ) c (ix2 (tokRow b t) 0)).toNat = (Cert.ReferenceIdeal.ReadP.val_main_v3 (F := Ideal) (ys m c) (ix2 b t)).toNat
    rw [el, column_row]; rfl

theorem reference_tok (hx : ∀ i, ∃ r : ℝ, rxs m c i = (r : EReal)) (hw : ∀ i, ∃ r : ℝ, rws m c i = (r : EReal))
    (hy : ∀ i, ys m c i = 4294967196#32 ∨ (ys m c i).toNat < 32000) (b : Fin 4) (t : Fin 512) :
    (shapeCast Cert.KernelIdeal.S4x512 ((Cert.KernelIdeal.Sweep1.dat (Cert.KernelIdeal.Whole.V3 m ρ) c).arrAt 3 Cert.KernelIdeal.cfg1.N) Cert.KernelIdeal.Facts₀.shapeCasts_S2048x1_S4x512 : Cert.KernelIdeal.S4x512.Idx → EReal) (ix2 b t)
      = Cert.ReferenceIdeal.ReadP.val_main_v22 (F := Ideal) (rxs m c) (ys m c) (rws m c) (ix2 b t) := by
  have ex : Cert.KernelIdeal.Sweep1.xArr (Cert.KernelIdeal.Whole.V3 m ρ) c = (truncf (F := Ideal) .bf16 (shapeCast Cert.KernelIdeal.S2048x2048 (rxs m c) Cert.KernelIdeal.Facts₀.shapeCasts_S4x512x2048_S2048x2048) Cert.KernelIdeal.Facts₀.bitsLt_bf16_f32) := second_x m ρ c
  have ew : Cert.KernelIdeal.Sweep1.wArr (Cert.KernelIdeal.Whole.V3 m ρ) c = rws m c := second_w m ρ c
  have el : Cert.KernelIdeal.Sweep1.labArr (Cert.KernelIdeal.Whole.V3 m ρ) c = (shapeCast Cert.KernelIdeal.S2048x1 (Cert.KernelIdeal.Glue.safeLabels (ys m c)) Cert.KernelIdeal.Facts₀.shapeCasts_S4x512_S2048x1) := second_lab m ρ c
  have hX : ∀ i, ∃ r : ℝ, Cert.KernelIdeal.Sweep1.xArr (Cert.KernelIdeal.Whole.V3 m ρ) c i = (r : EReal) := fun i => by rw [ex]; exact reshaped_real _ hx i
  have hW : ∀ i, ∃ r : ℝ, Cert.KernelIdeal.Sweep1.wArr (Cert.KernelIdeal.Whole.V3 m ρ) c i = (r : EReal) := fun i => by rw [ew]; exact hw i
  have hl : (Cert.KernelIdeal.Sweep1.labArr (Cert.KernelIdeal.Whole.V3 m ρ) c (ix2 (tokRow b t) 0)).toNat < 32000 := by
    rw [el, column_row]; exact safe_lt _ hy _
  have hl' : (Cert.ReferenceIdeal.ReadP.val_main_v18 (F := Ideal) (ys m c) (ix2 b t)).toNat < 32000 := safe_lt (ys m c) hy (ix2 b t)
  rw [grid_entry]
  refine (Cert.KernelIdeal.Sweep1.arr_closed (Cert.KernelIdeal.Whole.V3 m ρ) c hX hW (tokRow b t) hl).trans ?_
  refine Eq.trans ?_ (Cert.ReferenceIdeal.RefValue.tok_reference (rxs m c) (ys m c) (rws m c) hx hw b t hl').symm
  refine closed_congr ?_ ?_
  · rw [ex, ew]; exact row_logits (rxs m c) (rws m c) b t
  · show (Cert.KernelIdeal.Sweep1.labArr (Cert.KernelIdeal.Whole.V3 m ρ) c (ix2 (tokRow b t) 0)).toNat = (Cert.ReferenceIdeal.ReadP.val_main_v18 (F := Ideal) (ys m c) (ix2 b t)).toNat
    rw [el, column_row]; rfl

-- Token by token both programs give the closed form of log-softmax at the label, and the epilogue is shared.
theorem result_eq (hp : Cert.Pre_finite_inputs.fn (F := Ideal) (xs m c) (rxs m c) (ys m c) (ws m c) (rws m c) = fun _ => 1#1) :
    Cert.ReferenceIdeal.ReadP.val_main_v46 (F := Ideal) (xs m c) (rxs m c) (ys m c) (ws m c) (rws m c) = Cert.KernelIdeal.Whole.W5 m ρ c (Proc.devRef .tc Cert.KernelIdeal.main_v0) := by
  obtain ⟨hx, hrx, hw, hrw, hy⟩ := Cert.PreFacts.decode _ _ _ _ _ hp
  rw [Cert.ReferenceIdeal.RefValue.result_tail, kernel_result m ρ c]
  have hP : (shapeCast Cert.KernelIdeal.S4x512 ((Cert.KernelIdeal.Sweep0.dat (Cert.KernelIdeal.Whole.V1 m ρ) c).arrAt 3 Cert.KernelIdeal.cfg0.N) Cert.KernelIdeal.Facts₀.shapeCasts_S2048x1_S4x512 : Cert.KernelIdeal.S4x512.Idx → EReal)
      = Cert.ReferenceIdeal.ReadP.val_main_v7 (F := Ideal) (xs m c) (ys m c) (ws m c) := funext fun i => by
    obtain ⟨b, t, rfl⟩ : ∃ (b : Fin 4) (t : Fin 512), i = ix2 b t := ⟨i 0, i 1, eq_ix2 i⟩
    exact policy_tok m ρ c hx hw hy b t
  have hQ : (shapeCast Cert.KernelIdeal.S4x512 ((Cert.KernelIdeal.Sweep1.dat (Cert.KernelIdeal.Whole.V3 m ρ) c).arrAt 3 Cert.KernelIdeal.cfg1.N) Cert.KernelIdeal.Facts₀.shapeCasts_S2048x1_S4x512 : Cert.KernelIdeal.S4x512.Idx → EReal)
      = Cert.ReferenceIdeal.ReadP.val_main_v22 (F := Ideal) (rxs m c) (ys m c) (rws m c) := funext fun i => by
    obtain ⟨b, t, rfl⟩ : ∃ (b : Fin 4) (t : Fin 512), i = ix2 b t := ⟨i 0, i 1, eq_ix2 i⟩
    exact reference_tok m ρ c hrx hrw hy b t
  rw [hP, hQ]

end Cert.Bridge

namespace Cert.Proof

open Idealize.ShloMosaic Idealize.ShloMosaic.TcCoe Idealize.SL.Sem

theorem algebraic : Cert.algebraic_KernelIdeal_ReferenceIdeal := by
  intro m ρ m' ρ' hp hagree
  refine ⟨fun c => Cert.KernelIdeal.Whole.W5 m ρ c (Proc.devRef .tc Cert.KernelIdeal.main_v0), Cert.KernelIdeal.Whole.run m ρ, ?_⟩
  refine (θ_run Cert.ReferenceIdeal.defs _ _).mono (fun _ h c => ⟨(h c).1.trans ?_, (h c).2⟩) (Cert.ReferenceIdeal.RefValue.run (F := Ideal) m' ρ')
  rw [(hagree c).1, (hagree c).2.1, (hagree c).2.2.1, (hagree c).2.2.2.1, (hagree c).2.2.2.2]
  exact Cert.Bridge.result_eq m ρ c (hp c)

end Cert.Proof

end
-- ==== Proof.lean ====
import proofs.«405262_j58909771432351_3_alg».proof.Defs
import proofs.«405262_j58909771432351_3_alg».proof.Proof.Gen.Kernel
import proofs.«405262_j58909771432351_3_alg».proof.Proof.Gen.KernelIdeal
import proofs.«405262_j58909771432351_3_alg».proof.Proof.Gen.ReferenceIdeal
import proofs.«405262_j58909771432351_3_alg».proof.Proof.Gen.Pre_finite_inputs
import proofs.«405262_j58909771432351_3_alg».proof.Proof.Kernel.Whole
import proofs.«405262_j58909771432351_3_alg».proof.Proof.KernelIdeal.Whole
import proofs.«405262_j58909771432351_3_alg».proof.Proof.RefRun
import proofs.«405262_j58909771432351_3_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Whole.frame (F := Bits) m ρ

theorem frame_ki : Cert.frame_KernelIdeal := fun m ρ _ => Cert.KernelIdeal.Whole.frame (F := Ideal) m ρ

theorem frame_ri : Cert.frame_ReferenceIdeal := fun m ρ _ =>
  (θ_run Cert.ReferenceIdeal.defs _ _).mono (fun _ h c => (h c).2) (Cert.ReferenceIdeal.RefValue.run (F := Ideal) m ρ)

theorem claim : Cert.Claim :=
  ⟨Cert.Kernel.Gen.facts, Cert.KernelIdeal.Gen.facts, Cert.ReferenceIdeal.Gen.facts, Cert.Pre_finite_inputs.Gen.facts,
    frame_k, frame_ki, frame_ri, trivial, Cert.Proof.algebraic⟩

end Cert.Proof

end
